-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x600000 : Shape := ⟨2, ![2, 600000]⟩
abbrev S50000 : Shape := ⟨1, ![50000]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg7 : IVec S2x600000 32) (main_v33 : IVec S_ 1) : IVec S_ 1 :=
  let main_v34 : IVec S1x600000 32 := (extractStridedSlice S1x600000 ![0, 0] · slices_S2x600000_S1x600000_0_0) main_arg7
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_v38 : IVec S1x600000 32 := (extractStridedSlice S1x600000 ![0, 0] · slices_S2x600000_S1x600000_0_0) main_arg7
  let main_v39 : IVec S600000 32 := shapeCast S600000 main_v38 shapeCasts_S1x600000_S600000
  let main_c_13 : IVec S_ 32 := constantI S_ 32 50000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  main_v44

def fn_part1 {F : FTy → Type} [FloatOps F] (main_arg4 : FVec F S128 .f32) (main_arg5 : FVec F S128x40 .f32) (main_arg6 : FVec F S40 .f32) (main_arg7 : IVec S2x600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg5
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x40 .f32) (main_arg6 : FVec F S40 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S64 : Shape := ⟨1, ![64]⟩
abbrev S600064 : Shape := ⟨1, ![600064]⟩
abbrev S1x600064 : Shape := ⟨2, ![1, 600064]⟩
abbrev S600064x1 : Shape := ⟨2, ![600064, 1]⟩
abbrev S1x128 : Shape := ⟨2, ![1, 128]⟩
abbrev S50000x1 : Shape := ⟨2, ![50000, 1]⟩
abbrev S600064x128 : Shape := ⟨2, ![600064, 128]⟩
abbrev S1x2048 : Shape := ⟨2, ![1, 2048]⟩
abbrev S2048x1 : Shape := ⟨2, ![2048, 1]⟩
abbrev S2048x128 : Shape := ⟨2, ![2048, 128]⟩
abbrev S2000x1 : Shape := ⟨2, ![2000, 1]⟩
abbrev S2000x2048 : Shape := ⟨2, ![2000, 2048]⟩
abbrev S2000x128 : Shape := ⟨2, ![2000, 128]⟩
abbrev S1200x128 : Shape := ⟨2, ![1200, 128]⟩
abbrev S51200x128 : Shape := ⟨2, ![51200, 128]⟩
abbrev S1200 : Shape := ⟨1, ![1200]⟩
abbrev S51200 : Shape := ⟨1, ![51200]⟩
abbrev S1x51200 : Shape := ⟨2, ![1, 51200]⟩
abbrev S1x40 : Shape := ⟨2, ![1, 40]⟩
abbrev S100x40 : Shape := ⟨2, ![100, 40]⟩
abbrev S100x128 : Shape := ⟨2, ![100, 128]⟩
abbrev S100x1 : Shape := ⟨2, ![100, 1]⟩
abbrev S100x2048 : Shape := ⟨2, ![100, 2048]⟩
abbrev S100 : Shape := ⟨1, ![100]⟩

abbrev nBuf : Space → Nat
  | .hbm => 81
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000, .f32⟩
  | .hbm, ⟨44, _⟩ => ⟨S600000, .f32⟩
  | .hbm, ⟨45, _⟩ => ⟨S50000, .f32⟩
  | .hbm, ⟨46, _⟩ => ⟨S_, .i32⟩
  | .hbm, ⟨47, _⟩ => ⟨S64, .i32⟩
  | .hbm, ⟨48, _⟩ => ⟨S600064, .i32⟩
  | .hbm, ⟨49, _⟩ => ⟨S_, .i32⟩
  | .hbm, ⟨50, _⟩ => ⟨S64, .i32⟩
  | .hbm, ⟨51, _⟩ => ⟨S600064, .i32⟩
  | .hbm, ⟨52, _⟩ => ⟨S_, .f32⟩
  | .hbm, ⟨53, _⟩ => ⟨S64, .f32⟩
  | .hbm, ⟨54, _⟩ => ⟨S600064, .f32⟩
  | .hbm, ⟨55, _⟩ => ⟨S1x600064, .i32⟩
  | .hbm, ⟨56, _⟩ => ⟨S1x600064, .i32⟩
  | .hbm, ⟨57, _⟩ => ⟨S600064x1, .f32⟩
  | .hbm, ⟨58, _⟩ => ⟨S1x128, .f32⟩
  | .hbm, ⟨59, _⟩ => ⟨S1x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .bf16⟩
  | .hbm, ⟨64, _⟩ => ⟨S600064x128, .bf16⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .bf16⟩
  | .hbm, ⟨70, _⟩ => ⟨S600064x128, .bf16⟩
  | .hbm, ⟨71, _⟩ => ⟨S50000x128, .f32⟩
  | .hbm, ⟨72, _⟩ => ⟨S_, .f32⟩
  | .hbm, ⟨73, _⟩ => ⟨S1200x128, .f32⟩
  | .hbm, ⟨74, _⟩ => ⟨S51200x128, .f32⟩
  | .hbm, ⟨75, _⟩ => ⟨S_, .i32⟩
  | .hbm, ⟨76, _⟩ => ⟨S1200, .i32⟩
  | .hbm, ⟨77, _⟩ => ⟨S51200, .i32⟩
  | .hbm, ⟨78, _⟩ => ⟨S1x51200, .i32⟩
  | .hbm, ⟨79, _⟩ => ⟨S1x40, .f32⟩
  | .hbm, ⟨80, _⟩ => ⟨S100x40, .f32⟩
  | .local _ .vmem, ⟨0, _⟩ => ⟨S50000x128, .bf16⟩
  | .local _ .vmem, ⟨1, _⟩ => ⟨S1x2048, .i32⟩
  | .local _ .vmem, ⟨2, _⟩ => ⟨S1x2048, .i32⟩
  | .local _ .vmem, ⟨3, _⟩ => ⟨S2048x1, .f32⟩
  | .local _ .vmem, ⟨4, _⟩ => ⟨S2048x1, .f32⟩
  | .local _ .vmem, ⟨5, _⟩ => ⟨S2048x128, .bf16⟩
  | .local _ .vmem, ⟨6, _⟩ => ⟨S2048x128, .bf16⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S1x2048, .i32⟩
  | .local _ .vmem, ⟨11, _⟩ => ⟨S1x2048, .i32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S50000x128, .bf16⟩
  | .local _ .vmem, ⟨20, _⟩ => ⟨S1x2048, .i32⟩
  | .local _ .vmem, ⟨21, _⟩ => ⟨S1x2048, .i32⟩
  | .local _ .vmem, ⟨22, _⟩ => ⟨S2048x1, .f32⟩
  | .local _ .vmem, ⟨23, _⟩ => ⟨S2048x1, .f32⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .bf16⟩
  | .local _ .vmem, ⟨28, _⟩ => ⟨S2048x128, .bf16⟩
  | .local _ .vmem, ⟨29, _⟩ => ⟨S1x2048, .i32⟩
  | .local _ .vmem, ⟨30, _⟩ => ⟨S1x2048, .i32⟩
  | .local _ .vmem, ⟨31, _⟩ => ⟨S128x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2048x128, .f32⟩
  | .local _ .vmem, ⟨39, _⟩ => ⟨S2048x128, .f32⟩
  | .local _ .vmem, ⟨40, _⟩ => ⟨S1x2048, .i32⟩
  | .local _ .vmem, ⟨41, _⟩ => ⟨S1x2048, .i32⟩
  | .local _ .vmem, ⟨42, _⟩ => ⟨S128x40, .f32⟩
  | .local _ .vmem, ⟨43, _⟩ => ⟨S1x40, .f32⟩
  | .local _ .vmem, ⟨44, _⟩ => ⟨S100x40, .f32⟩
  | .local _ .vmem, ⟨45, _⟩ => ⟨S100x128, .f32⟩
  | .local _ .vmem, ⟨46, _⟩ => ⟨S100x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_scratch0 : Ref sig .tc := ⟨.vmem, 45, rfl⟩
abbrev cc4_scratch1 : Ref sig .tc := ⟨.vmem, 46, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40

abbrev nD : Nat := 1
abbrev τ : Topo := Topo.v7x

variable {F : FTy → Type} [FloatOps F]

abbrev grid0 : Pipeline.Grid := ⟨2, ![293, 25], ![false, false]⟩

def k0_mult1 (i : grid0.Coords) : BitVec 32 :=
  let arg1 : BitVec 32 := BitVec.ofNat 32 (i 1).val
  let c2000_i32_2 : BitVec 32 := 2000#32
  let v15 : BitVec 32 := Scalar.muli arg1 c2000_i32_2
  v15
def k0_off1 (i : grid0.Coords) : Fin 2 → Nat :=
  let arg1 : BitVec 32 := BitVec.ofNat 32 (i 1).val
  let c2000_i32_2 : BitVec 32 := 2000#32
  let v15 : BitVec 32 := Scalar.muli arg1 c2000_i32_2
  let v16 : BitVec 32 := v15
  let v17 : Index := Scalar.indexCast v16
  let c0_3 : Index := 0#32
  ![v17.toNat, 0]
def k0_cond2 (i : grid0.Coords) : BitVec 1 :=
  let arg1 : BitVec 32 := BitVec.ofNat 32 (i 1).val
  let c24_i32 : BitVec 32 := 24#32
  let v26 : BitVec 1 := Scalar.cmpi .eq arg1 c24_i32
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S50000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 293], ![false, false]⟩

def k1_cond2 (i : grid1.Coords) : BitVec 1 :=
  let arg1 : BitVec 32 := BitVec.ofNat 32 (i 1).val
  let c292_i32 : BitVec 32 := 292#32
  let v23 : BitVec 1 := Scalar.cmpi .eq arg1 c292_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![293, 25], ![false, false]⟩

def k2_mult1 (i : grid2.Coords) : BitVec 32 :=
  let arg1 : BitVec 32 := BitVec.ofNat 32 (i 1).val
  let c2000_i32_2 : BitVec 32 := 2000#32
  let v15 : BitVec 32 := Scalar.muli arg1 c2000_i32_2
  v15
def k2_off1 (i : grid2.Coords) : Fin 2 → Nat :=
  let arg1 : BitVec 32 := BitVec.ofNat 32 (i 1).val
  let c2000_i32_2 : BitVec 32 := 2000#32
  let v15 : BitVec 32 := Scalar.muli arg1 c2000_i32_2
  let v16 : BitVec 32 := v15
  let v17 : Index := Scalar.indexCast v16
  let c0_3 : Index := 0#32
  ![v17.toNat, 0]
def k2_cond2 (i : grid2.Coords) : BitVec 1 :=
  let arg1 : BitVec 32 := BitVec.ofNat 32 (i 1).val
  let c24_i32 : BitVec 32 := 24#32
  let v26 : BitVec 1 := Scalar.cmpi .eq arg1 c24_i32
  let v27 : BitVec 32 := Scalar.extui v26
  let c0_i32_8 : BitVec 32 := 0#32
  let v28 : BitVec 1 := Scalar.cmpi .ne v27 c0_i32_8
  v28

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S50000x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 293], ![false, false]⟩

def k3_cond2 (i : grid3.Coords) : BitVec 1 :=
  let arg1 : BitVec 32 := BitVec.ofNat 32 (i 1).val
  let c292_i32 : BitVec 32 := 292#32
  let v23 : BitVec 1 := Scalar.cmpi .eq arg1 c292_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_13 : BitVec 32 := 0#32
  let v32 : BitVec 1 := Scalar.cmpi .ne v31 c0_i32_13
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S100x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S64 : S_.BroadcastsInDim S64 (![] : Fin 0 → Fin S64.rank)
  concatenates_S600000_S64_S600064_d0 : Shape.Concatenates [S600000, S64] S600064 0
  shapeCasts_S600064_S1x600064 : S600064.ShapeCasts S1x600064
  shapeCasts_S600064_S600064x1 : S600064.ShapeCasts S600064x1
  shapeCasts_S128_S1x128 : S128.ShapeCasts S1x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2000x1_d0_w32 : S2000x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2000x1_S2000x2048 : S2000x1.Broadcasts S2000x2048
  broadcasts_S1x2048_S2000x2048 : S1x2048.Broadcasts S2000x2048
  natLt_1_32 : 1 < 32
  h_S2000x128 : 0 < S2000x128.numel
  shapeCasts_S2000x128_S2000x128 : S2000x128.ShapeCasts S2000x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  inb_S2000x128_S2000x128_0_0 : ∀ a, (![0, 0] : Fin 2 → Nat) a + S2000x128.size a ≤ S2000x128.size a
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1200x128 : S_.BroadcastsInDim S1200x128 (![] : Fin 0 → Fin S1200x128.rank)
  concatenates_S50000x128_S1200x128_S51200x128_d0 : Shape.Concatenates [S50000x128, S1200x128] S51200x128 0
  bcast_S_S1200 : S_.BroadcastsInDim S1200 (![] : Fin 0 → Fin S1200.rank)
  concatenates_S50000_S1200_S51200_d0 : Shape.Concatenates [S50000, S1200] S51200 0
  shapeCasts_S51200_S1x51200 : S51200.ShapeCasts S1x51200
  shapeCasts_S40_S1x40 : S40.ShapeCasts S1x40
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S100x1_S100x1_0_0 : ∀ a, (![0, 0] : Fin 2 → Nat) a + S100x1.size a ≤ S100x1.size a
  h_S100x1 : 0 < S100x1.numel
  shapeCasts_S100x1_S100x1 : S100x1.ShapeCasts S100x1
  iota_S100x1_d0_w32 : S100x1.Iotas .tc 32 [0]
  broadcasts_S100x1_S100x2048 : S100x1.Broadcasts S100x2048
  broadcasts_S1x2048_S100x2048 : S1x2048.Broadcasts S100x2048
  reduces_S100x2048_S100 : S100x2048.Reduces [1] S100
  shapeCasts_S100_S100x1 : S100.ShapeCasts S100x1
  broadcasts_S100x1_S100x128 : S100x1.Broadcasts S100x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S100x40 : S1x40.Broadcasts S100x40
  inb_S100x40_S100x40_0_0 : ∀ a, (![0, 0] : Fin 2 → Nat) a + S100x40.size a ≤ S100x40.size a
  h_S100x40 : 0 < S100x40.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x2048_S2000x128_S2048x128_0_0_1_1_n_n_wf : DotDims.WF S2000x2048 S2000x128 S2048x128 [0] [0] [1] [1] [] []
  dot_S2000x2048_S2048x128_S2000x128_1_0_0_1_n_n_wf : DotDims.WF S2000x2048 S2048x128 S2000x128 [1] [0] [0] [1] [] []
  dot_S2000x128_S128x128_S2000x128_1_0_0_1_n_n_wf : DotDims.WF S2000x128 S128x128 S2000x128 [1] [0] [0] [1] [] []
  dot_S100x2048_S2048x128_S100x128_1_0_0_1_n_n_wf : DotDims.WF S100x2048 S2048x128 S100x128 [1] [0] [0] [1] [] []
  dot_S100x128_S128x40_S100x40_1_0_0_1_n_n_wf : DotDims.WF S100x128 S128x40 S100x40 [1] [0] [0] [1] [] []
  hrank0 : 0 < grid0.rank
  k0_mult1_dvd : ∀ i : grid0.Coords, 16 ∣ (k0_mult1 i).toNat
  k0_off1_inb : ∀ i : grid0.Coords, ∀ a, (k0_off1 i) a + S2000x128.size a ≤ S50000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50000x128.size a ≤ S50000x128.size a
  hwx0_0 : ∀ i : grid0.Coords, EltTy.bits .bf16 = 32 ∨ (Rect.block (s := S50000x128) S50000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x600064.size a
  hwx0_1 : ∀ i : grid0.Coords, EltTy.bits .i32 = 32 ∨ (Rect.block (s := S1x600064) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S600064x1.size a
  hwx0_2 : ∀ i : grid0.Coords, EltTy.bits .f32 = 32 ∨ (Rect.block (s := S600064x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S600064x128.size a
  hwx0_3 : ∀ i : grid0.Coords, EltTy.bits .bf16 = 32 ∨ (Rect.block (s := S600064x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S600064x128.size a
  hwx1_0 : ∀ i : grid1.Coords, EltTy.bits .bf16 = 32 ∨ (Rect.block (s := S600064x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x600064.size a
  hwx1_1 : ∀ i : grid1.Coords, EltTy.bits .i32 = 32 ∨ (Rect.block (s := S1x600064) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  k2_mult1_dvd : ∀ i : grid2.Coords, 16 ∣ (k2_mult1 i).toNat
  k2_off1_inb : ∀ i : grid2.Coords, ∀ a, (k2_off1 i) a + S2000x128.size a ≤ S50000x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S50000x128.size a ≤ S50000x128.size a
  hwx2_0 : ∀ i : grid2.Coords, EltTy.bits .bf16 = 32 ∨ (Rect.block (s := S50000x128) S50000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x600064.size a
  hwx2_1 : ∀ i : grid2.Coords, EltTy.bits .i32 = 32 ∨ (Rect.block (s := S1x600064) S1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S600064x1.size a
  hwx2_2 : ∀ i : grid2.Coords, EltTy.bits .f32 = 32 ∨ (Rect.block (s := S600064x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S600064x128.size a
  hwx2_3 : ∀ i : grid2.Coords, EltTy.bits .bf16 = 32 ∨ (Rect.block (s := S600064x128) S2048x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S600064x128.size a
  hwx3_0 : ∀ i : grid3.Coords, EltTy.bits .bf16 = 32 ∨ (Rect.block (s := S600064x128) S2048x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x600064.size a
  hwx3_1 : ∀ i : grid3.Coords, EltTy.bits .i32 = 32 ∨ (Rect.block (s := S1x600064) S1x2048.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S51200x128.size a
  hwx4_0 : ∀ i : grid4.Coords, EltTy.bits .f32 = 32 ∨ (Rect.block (s := S51200x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x51200.size a
  hwx4_1 : ∀ i : grid4.Coords, EltTy.bits .i32 = 32 ∨ (Rect.block (s := S1x51200) S1x2048.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S100x40.size a ≤ S100x40.size a
  hwx4_4 : ∀ i : grid4.Coords, EltTy.bits .f32 = 32 ∨ (Rect.block (s := S100x40) S100x40.size (cc4_transform_4 i) (hinb4_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x2048_S2000x128_S2048x128_0_0_1_1_n_n : DotDims S2000x2048 S2000x128 S2048x128 where
  lhsContracting := [0]
  rhsContracting := [0]
  lhsNonContracting := [1]
  rhsNonContracting := [1]
  lhsBatch := []
  rhsBatch := []
  wf := dot_S2000x2048_S2000x128_S2048x128_0_0_1_1_n_n_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S100x2048_S2048x128_S100x128_1_0_0_1_n_n : DotDims S100x2048 S2048x128 S100x128 where
  lhsContracting := [1]
  rhsContracting := [0]
  lhsNonContracting := [0]
  rhsNonContracting := [1]
  lhsBatch := []
  rhsBatch := []
  wf := dot_S100x2048_S2048x128_S100x128_1_0_0_1_n_n_wf
def dot_S100x128_S128x40_S100x40_1_0_0_1_n_n : DotDims S100x128 S128x40 S100x40 where
  lhsContracting := [1]
  rhsContracting := [0]
  lhsNonContracting := [0]
  rhsNonContracting := [1]
  lhsBatch := []
  rhsBatch := []
  wf := dot_S100x128_S128x40_S100x40_1_0_0_1_n_n_wf

abbrev win0_0 : Pipeline.Window sig grid0 :=
  Pipeline.Window.ofSpec (Memref.whole main_v43) S50000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v44) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v49) S50000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v50) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v53) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v58) S100x40.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S100 : Shape := ⟨1, ![100]⟩
abbrev S50000x1 : Shape := ⟨2, ![50000, 1]⟩
abbrev S100x128 : Shape := ⟨2, ![100, 128]⟩
abbrev S100x1 : Shape := ⟨2, ![100, 1]⟩
abbrev S100x40 : Shape := ⟨2, ![100, 40]⟩
abbrev S1x40 : Shape := ⟨2, ![1, 40]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S2x600000, .i32⟩
  | .hbm, ⟨8, _⟩ => ⟨S50000, .i32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S50000x128, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S650000x1, .f32⟩
  | .hbm, ⟨63, _⟩ => ⟨S650000x128, .f32⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S650000, .i32⟩
  | .hbm, ⟨78, _⟩ => ⟨S650000, .i1⟩
  | .hbm, ⟨79, _⟩ => ⟨S_, .i32⟩
  | .hbm, ⟨80, _⟩ => ⟨S650000, .i32⟩
  | .hbm, ⟨81, _⟩ => ⟨S650000, .i32⟩
  | .hbm, ⟨82, _⟩ => ⟨S650000, .i32⟩
  | .hbm, ⟨83, _⟩ => ⟨S650000x1, .i32⟩
  | .hbm, ⟨84, _⟩ => ⟨S650000x128, .f32⟩
  | .hbm, ⟨85, _⟩ => ⟨S650000x1, .f32⟩
  | .hbm, ⟨86, _⟩ => ⟨S650000x128, .f32⟩
  | .hbm, ⟨87, _⟩ => ⟨S650000x128, .f32⟩
  | .hbm, ⟨88, _⟩ => ⟨S_, .f32⟩
  | .hbm, ⟨89, _⟩ => ⟨S50000x128, .f32⟩
  | .hbm, ⟨90, _⟩ => ⟨S650000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S100, .f32⟩
  | .hbm, ⟨99, _⟩ => ⟨S50000x1, .i32⟩
  | .hbm, ⟨100, _⟩ => ⟨S100, .f32⟩
  | .hbm, ⟨101, _⟩ => ⟨S_, .f32⟩
  | .hbm, ⟨102, _⟩ => ⟨S100x128, .f32⟩
  | .hbm, ⟨103, _⟩ => ⟨S50000x1, .i32⟩
  | .hbm, ⟨104, _⟩ => ⟨S100x128, .f32⟩
  | .hbm, ⟨105, _⟩ => ⟨S_, .f32⟩
  | .hbm, ⟨106, _⟩ => ⟨S100, .f32⟩
  | .hbm, ⟨107, _⟩ => ⟨S100, .f32⟩
  | .hbm, ⟨108, _⟩ => ⟨S100x1, .f32⟩
  | .hbm, ⟨109, _⟩ => ⟨S100x128, .f32⟩
  | .hbm, ⟨110, _⟩ => ⟨S100x128, .f32⟩
  | .hbm, ⟨111, _⟩ => ⟨S100x40, .f32⟩
  | .hbm, ⟨112, _⟩ => ⟨S1x40, .f32⟩
  | .hbm, ⟨113, _⟩ => ⟨S100x40, .f32⟩
  | .hbm, ⟨114, _⟩ => ⟨S100x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100 : S_.BroadcastsInDim S100 (![] : Fin 0 → Fin S100.rank)
  bcast_S50000_S50000x1_0 : S50000.BroadcastsInDim S50000x1 (![0] : Fin 1 → Fin S50000x1.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S40_S1x40_1 : S40.BroadcastsInDim S1x40 (![1] : Fin 1 → Fin S1x40.rank)
  bcast_S1x40_S100x40_0_1 : S1x40.BroadcastsInDim S100x40 (![0, 1] : Fin 2 → Fin S100x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S100_S50000x1_S50000_n_0_0_1_wf : ScatterDims.WF S100 S50000x1 S50000 [] [0] [0] 1
  scatter_S100x128_S50000x1_S50000x128_1_0_0_1_wf : ScatterDims.WF S100x128 S50000x1 S50000x128 [1] [0] [0] 1
  dot_S100x128_S128x40_S100x40_1_0_0_1_n_n_wf : DotDims.WF S100x128 S128x40 S100x40 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf
def dot_S100x128_S128x40_S100x40_1_0_0_1_n_n : DotDims S100x128 S128x40 S100x40 where
  lhsContracting := [1]
  rhsContracting := [0]
  lhsNonContracting := [0]
  rhsNonContracting := [1]
  lhsBatch := []
  rhsBatch := []
  wf := dot_S100x128_S128x40_S100x40_1_0_0_1_n_n_wf

class Facts : Prop extends Facts₀ where

variable [Facts]
-- ==== Proof.K.Gather.lean ====
import proofs.«402943_j87462714016644_3_alg».proof.Proof.Gen.Kernel.Launch
import proofs.«402943_j87462714016644_3_alg».proof.Proof.Gen.Kernel.Skeleton
import proofs.«402943_j87462714016644_3_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The reset of the accumulator is taken where the inner grid coordinate is zero,
abbrev gatherReset (i : grid0.Coords) : Prop :=
  (Scalar.cmpi .ne (Scalar.extui (Scalar.cmpi .eq (BitVec.ofNat 32 (i 1).val) 0#32)) 0#32) = 1#1
-- and the output store where it is 24.
abbrev gatherStore (i : grid0.Coords) : Prop := k0_cond2 i = 1#1

theorem gatherReset_iff : ∀ t : Fin grid0.N, gatherReset (grid0.coords t) ↔ t.val % 25 = 0 := by decide +kernel
theorem gatherStore_iff : ∀ t : Fin grid0.N, gatherStore (grid0.coords t) ↔ t.val % 25 = 24 := by decide +kernel

theorem gather_excl (t : Fin grid0.N) : ¬(gatherReset (grid0.coords t) ∧ gatherStore (grid0.coords t)) :=
  fun ⟨a, b⟩ => by have := (gatherReset_iff t).mp a; have := (gatherStore_iff t).mp b; omega

theorem zeroOffs : (![0, 0] : Fin 2 → ℕ) = fun _ => 0 := by
  funext a; fin_cases a <;> rfl

-- A last store through the whole-shape rectangle at zero offsets leaves its payload, whatever was there.
theorem wholeStore_read {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

set_option maxHeartbeats 1000000 in
-- The body at coordinates `i`: the accumulator ends at the point's product added to zero where the reset is
-- taken and to what it held otherwise; the output buffer ends at the scaled accumulator where the store is taken.
theorem gather_body (c : Dev nD) (E : Set ℕ) (i : grid0.Coords)
    (arg2 : Memref sig .tc .vmem S50000x128 .bf16) (harg2 : arg2.IsWhole)
    (arg3 : Memref sig .tc .vmem S1x2048 .i32) (harg3 : arg3.IsWhole)
    (arg4 : Memref sig .tc .vmem S2048x1 .f32) (harg4 : arg4.IsWhole)
    (arg5 : Memref sig .tc .vmem S2048x128 .bf16) (harg5 : arg5.IsWhole)
    (arg6 : Memref sig .tc .vmem S2048x128 .f32) (harg6 : arg6.IsWhole)
    (hx : ¬(gatherReset i ∧ gatherStore i))
    (x0 : Vec F S50000x128 .bf16) (x1 : Vec F S1x2048 .i32) (x2 : Vec F S2048x1 .f32) (x3 : Vec F S2048x128 .bf16)
    (xs : Vec F S2048x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (if gatherStore i then k0_pay3 (k0_pay2 i x1 (View.ld x0 (Rect.unit (s := S50000x128) (k0_off1 i) S2000x128.size (k0_off1_inb i))) (if gatherReset i then k0_pay1 (F := F) else xs)) x2 else x3)
            ∗ owns (c : Thread nD τ) arg6 fullShare (k0_pay2 i x1 (View.ld x0 (Rect.unit (s := S50000x128) (k0_off1 i) S2000x128.size (k0_off1_inb i))) (if gatherReset i then k0_pay1 (F := F) else xs))) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf6
  by_cases hc0 : gatherReset i <;> by_cases hc1 : gatherStore i
  · exact absurd ⟨hc0, hc1⟩ hx
  all_goals
    first | rw [if_pos hc0] | rw [if_neg hc0]
    first | rw [if_pos hc1] | rw [if_neg hc1]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
      | with_reducible exact harg5.read_unread _
      | sl_unfold_words
        rw [wholeStore_read (S := S2048x128) _ _ zeroOffs]
        simp only [View.readCov_unit_zero (S := S2048x128) _ zeroOffs, View.readAt_eq_ld, harg2.read_unread,
          harg3.read_unread, harg4.read_unread, harg6.read_unread, View.ld_unit_zero (S := S1x2048) zeroOffs,
          View.ld_unit_zero (S := S2048x128) zeroOffs, View.ld_unit_zero (S := S2048x1) zeroOffs]
    iexists _; isplitr
    swap; · iexact H6
    ipureintro
    sl_unfold_words
    rw [wholeStore_read (S := S2048x128) _ _ zeroOffs]
    simp only [View.readCov_unit_zero (S := S2048x128) _ zeroOffs, View.readAt_eq_ld, harg2.read_unread,
      harg3.read_unread, harg6.read_unread, View.ld_unit_zero (S := S1x2048) zeroOffs,
      View.ld_unit_zero (S := S2048x128) zeroOffs]

end Cert.Kernel.Hand

end
-- ==== Proof.K.Region0.lean ====
import proofs.«402943_j87462714016644_3_alg».proof.Proof.K.Gather

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 (c : Dev nD) (t : Fin cfg0.N) : Vec F S2000x128 .bf16 :=
  View.ld (iblk0 V c 0 t) (Rect.unit (s := S50000x128) (k0_off1 (grid0.coords t)) S2000x128.size (k0_off1_inb (grid0.coords t)))

-- The accumulator after point `n`: the point's product added to zero at the first point of a run of the
-- inner axis, to what the point before left otherwise.
def acc0 (c : Dev nD) : (n : ℕ) → n < cfg0.N → Vec F S2048x128 .f32
  | 0, hn => k0_pay2 (grid0.coords ⟨0, hn⟩) (iblk0 V c 1 ⟨0, hn⟩) (rows0 V c ⟨0, hn⟩) (k0_pay1 (F := F))
  | n + 1, hn => k0_pay2 (grid0.coords ⟨n + 1, hn⟩) (iblk0 V c 1 ⟨n + 1, hn⟩) (rows0 V c ⟨n + 1, hn⟩)
      (if (n + 1) % 25 = 0 then k0_pay1 (F := F) else acc0 c n (Nat.lt_of_succ_lt hn))

theorem acc0_reset (c : Dev nD) (t : Fin cfg0.N) (h : t.val % 25 = 0) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (k0_pay1 (F := F)) := by
  obtain ⟨n, hn⟩ := t
  cases n with
  | zero => rfl
  | succ n => exact congrArg (k0_pay2 _ _ _) (if_pos h)

theorem acc0_step (c : Dev nD) (t : Fin cfg0.N) (h : t.val % 25 ≠ 0) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (acc0 V c (t.val - 1) (by omega)) := by
  obtain ⟨n, hn⟩ := t
  cases n with
  | zero => exact absurd rfl h
  | succ n => exact congrArg (k0_pay2 _ _ _) (if_neg h)

-- Whatever the accumulator held before point `t` (what the point before left, if there is one), after it it holds `acc0` at `t`.
theorem acc0_next (c : Dev nD) (t : Fin cfg0.N) (xs : Vec F S2048x128 .f32)
    (hx : ∀ hz : t.val ≠ 0, xs = acc0 V c (t.val - 1) (by omega)) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (if gatherReset (grid0.coords t) then k0_pay1 (F := F) else xs) := by
  by_cases h0 : t.val % 25 = 0
  · rw [acc0_reset V c t h0, if_pos ((gatherReset_iff t).mpr h0)]
  · rw [acc0_step V c t h0, if_neg (fun h => h0 ((gatherReset_iff t).mp h)), hx (fun e => h0 (by rw [e]))]

-- Between points the scratch accumulator is owned at some contents, which after a point are what that point left.
def Phi0 (c : Dev nD) (n : ℕ) (h : n ≤ cfg0.N) : sProp 𝕄 :=
  iprop(∃ xs, ⌜∀ hz : n ≠ 0, xs = acc0 V c (n - 1) (by omega)⌝
    ∗ owns (c : Thread nD τ) (Memref.whole cc0_scratch0) fullShare xs
    ∗ Pipeline.scopedRestBut (Ix := Unit) (Name := ℕ) (U := UR sig nD τ) (Lvl := ℕ) (Val := Elt F) spec0 c [cc0_scratch0]
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

theorem owed0 (c : Dev nD) (t : Fin (cfg0.N + 1)) : (dat0 V c).owed t = 0 := by dsimp only [dat0]
theorem share0 (c : Dev nD) (w : Fin cfg0.W) : (dat0 V c).q w = fullShare := by dsimp only [dat0]

theorem PhiA0_eq (c : Dev nD) :
    (Pipeline.ΦA spec0 c : sProp 𝕄)
      = iprop(iprop(iprop((∃ d, owns (c : Thread nD τ) (Memref.whole cc0_scratch0) fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [owns_whole]; try rfl

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

-- After point `t` the output block is the scaled accumulator where the store is taken (the points ≡ 24 mod 25), and as found elsewhere.
theorem leaves0_3 (c : Dev nD) (t : Fin cfg0.N) (xs : Vec F S2048x128 .f32)
    (hx : ∀ hz : t.val ≠ 0, xs = acc0 V c (t.val - 1) (by omega)) (d) :
    owns (c : Thread nD τ) (st0_3 t) fullShare (if gatherStore (grid0.coords t) then k0_pay3 (k0_pay2 (grid0.coords t) (iblk0 V c 1 t)
      (View.ld (iblk0 V c 0 t) (Rect.unit (s := S50000x128) (k0_off1 (grid0.coords t)) S2000x128.size (k0_off1_inb (grid0.coords t))))
      (if gatherReset (grid0.coords t) then k0_pay1 (F := F) else xs)) (iblk0 V c 2 t) else (dat0 V c).before 3 t d)
      ⊢ ((dat0 V c).leavesExact 3 t : sProp 𝕄) := by
  by_cases h1 : t.val % 25 = 24
  · have hc1 : gatherStore (grid0.coords t) := (gatherStore_iff t).mpr h1
    rw [if_pos hc1, ← acc0_next V c t xs hx, ← after0_3]
    unfold Dat.leavesExact
    rw [show cfg0.idle 3 (grid0.coords t) = false from by
      show (!(k0_cond2 (grid0.coords t) == 1#1)) = false
      rw [show k0_cond2 (grid0.coords t) = 1#1 from hc1]; rfl]
  · have hc1 : ¬gatherStore (grid0.coords t) := fun h => h1 ((gatherStore_iff t).mp h)
    rw [if_neg hc1, Dat.leavesExact_idle (dat0 V c) 3 t
      (show cfg0.idle 3 (grid0.coords t) = true from by
        show (!(k0_cond2 (grid0.coords t) == 1#1)) = true
        rw [Bool.not_eq_true', beq_eq_false_iff_ne]; exact hc1)
      (Bool.eq_false_iff.mpr fun hf => h1 ((flush0_3 t).mp hf))]
    iintro H; iexists _; iexact H

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t)

set_option maxHeartbeats 4000000 in
-- The body at any point: the invariant hands it the accumulator and takes it back at this point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [after0_0, after0_1, after0_2,
    show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl]
  unfold Phi0
  iintro ⟨⟨%xs, %hx, HS, Hrest, Hg⟩, Ho, ⟨%d0, H0⟩, ⟨%d1, H1⟩, ⟨%d2, H2⟩, ⟨%d3, H3⟩⟩
  iapply (gather_body c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (Memref.isWhole_whole _) (gather_excl t)
    (iblk0 V c 0 t) (iblk0 V c 1 t) (iblk0 V c 2 t) ((dat0 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · iexists _; isplitr; · ipureintro; exact fun _ => (acc0_next V c t xs hx).symm
    isplitl [HS]; · iexact HS
    isplitl [Hrest]; · iexact Hrest
    iexact Hg
  isplitl [Ho]; · iexact Ho
  isplitl [H0]; · iexact H0
  isplitl [H1]; · iexact H1
  isplitl [H2]; · iexact H2
  iapply (leaves0_3 V c t xs hx d3); iexact H3

theorem body_obligation0 (c : Dev nD) :
    BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq]; show _ ⊢ Phi0 V c 0 (Nat.zero_le _); unfold Phi0
  iintro ⟨⟨⟨%d, HS⟩, Hrest⟩, Hg⟩
  iexists d; isplitr; · ipureintro; exact fun hz => absurd rfl hz
  isplitl [HS]; · iexact HS
  isplitl [Hrest]; · iexact Hrest
  iexact Hg

theorem hout0 (c : Dev nD) : (dat0 V c).Φ (Fin.last cfg0.N) ⊢ (Pipeline.ΦA spec0 c : sProp 𝕄) := by
  rw [PhiA0_eq]; show Phi0 V c (Fin.last cfg0.N).val (Nat.le_of_lt_succ (Fin.last cfg0.N).isLt) ⊢ _; unfold Phi0
  iintro ⟨%xs, -, HS, Hrest, Hg⟩
  isplitl [HS Hrest]
  · isplitl [HS]
    · iexists _; iexact HS
    iexact Hrest
  iexact Hg

end Cert.Kernel.Hand

end
-- ==== Proof.K.Region1.lean ====
import proofs.«402943_j87462714016644_3_alg».proof.Proof.Gen.Kernel.Launch
import proofs.«402943_j87462714016644_3_alg».proof.Proof.Gen.Kernel.Skeleton
import proofs.«402943_j87462714016644_3_alg».proof.Proof.Gen.Kernel.Points
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S2000x128 .f32
  | 0, hn => k1_pay2 (grid1.coords ⟨0, hn⟩) (iblk1 V c 1 ⟨0, hn⟩) (iblk1 V c 0 ⟨0, hn⟩) (k1_pay1 (F := F))
  | n + 1, hn => k1_pay2 (grid1.coords ⟨n + 1, hn⟩) (iblk1 V c 1 ⟨n + 1, hn⟩) (iblk1 V c 0 ⟨n + 1, hn⟩)
      (if (n + 1) % 293 = 0 then k1_pay1 (F := F) else acc1 c n (Nat.lt_of_succ_lt hn))

theorem acc1_reset (c : Dev nD) (t : Fin cfg1.N) (h : t.val % 293 = 0) :
    acc1 V c t.val t.isLt = k1_pay2 (grid1.coords t) (iblk1 V c 1 t) (iblk1 V c 0 t) (k1_pay1 (F := F)) := by
  obtain ⟨_ | n, hn⟩ := t
  · rfl
  · exact congrArg (k1_pay2 _ _ _) (if_pos h)

theorem acc1_step (c : Dev nD) (t : Fin cfg1.N) (h : t.val % 293 ≠ 0) :
    acc1 V c t.val t.isLt = k1_pay2 (grid1.coords t) (iblk1 V c 1 t) (iblk1 V c 0 t) (acc1 V c (t.val - 1) (by omega)) := by
  obtain ⟨_ | n, hn⟩ := t
  · exact absurd (Nat.zero_mod _) h
  · exact congrArg (k1_pay2 _ _ _) (if_neg h)

abbrev scM1 : Memref sig .tc .vmem S2000x128 .f32 := Memref.whole cc1_scratch0

def PhiS1_rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

-- the invariant before position n: the accumulator of the point before, once there is one
def PhiS1 (c : Dev nD) : (n : ℕ) → n ≤ cfg1.N → sProp 𝕄
  | 0, _ => Pipeline.ΦA spec1 c
  | n + 1, hn => iprop(owns (c : Thread nD τ) scM1 fullShare (acc1 V c n hn) ∗ PhiS1_rest c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 4 t) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = k1_pay3 (acc1 V c t.val t.isLt) (iblk1 V c 4 t) (iblk1 V c 2 t) (iblk1 V c 3 t) := rfl

theorem owed1 (c : Dev nD) (t : Fin (cfg1.N + 1)) : (dat1 V c).owed t = 0 := rfl
theorem share1 (c : Dev nD) (w : Fin cfg1.W) : (dat1 V c).q w = fullShare := rfl

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 293 = 0 :=
  (by decide +kernel : ∀ t : Fin grid1.N, cond1_0 (grid1.coords t) ↔ t.val % 293 = 0)
theorem hcond1_1 : ∀ t : Fin cfg1.N, cond1_1 (grid1.coords t) ↔ t.val % 293 = 292 :=
  (by decide +kernel : ∀ t : Fin grid1.N, cond1_1 (grid1.coords t) ↔ t.val % 293 = 292)

-- the accumulator after point t, from whatever the scratch held before it
theorem acc1_if (c : Dev nD) (t : Fin cfg1.N) (x : Vec F S2000x128 .f32) (hx : ∀ hz : t.val ≠ 0, x = acc1 V c (t.val - 1) (by omega)) :
    acc1 V c t.val t.isLt = k1_pay2 (grid1.coords t) (iblk1 V c 1 t) (iblk1 V c 0 t) (if cond1_0 (grid1.coords t) then k1_pay1 (F := F) else x) := by
  by_cases h : t.val % 293 = 0
  · rw [acc1_reset V c t h, if_pos ((hcond1_0 t).mpr h)]
  · rw [acc1_step V c t h, if_neg (mt (hcond1_0 t).mp h), hx fun hz => h (by rw [hz])]

theorem zoff1 : (![0, 0] : Fin 2 → Nat) = fun _ => 0 := by funext a; fin_cases a <;> rfl

-- a store that fills the whole buffer decides what it reads, whatever it held and whatever was stored before
theorem read_store_last1 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
-- the scratch ends at this tile's contribution added to zero (first edge tile) or to what it held; the output's buffer, at the last edge tile, at the finished block
theorem kernel1 (c : Dev nD) (E : Set ℕ) (i : grid1.Coords)
    (arg2 : Memref sig .tc .vmem S2048x128 .bf16) (harg2 : arg2.IsWhole) (arg3 : Memref sig .tc .vmem S1x2048 .i32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S2000x128 .f32) (harg6 : arg6.IsWhole) (arg7 : Memref sig .tc .vmem S2000x128 .f32) (harg7 : arg7.IsWhole)
    (arg8 : Memref sig .tc .vmem S2000x128 .f32) (harg8 : arg8.IsWhole)
    (x0 : Vec F S2048x128 .bf16) (x1 : Vec F S1x2048 .i32) (x2 : Vec F S128x128 .f32) (x3 : Vec F S1x128 .f32)
    (x4 xo xs s o : Vec F S2000x128 .f32)
    (hs : s = k1_pay2 i x1 x0 (if cond1_0 i then k1_pay1 (F := F) else xs))
    (ho : o = if cond1_1 i then k1_pay3 s x4 x2 x3 else xo) (hne : cond1_0 i → ¬cond1_1 i) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare o
        ∗ owns (c : Thread nD τ) arg8 fullShare s) -∗ K ⟨⟩))
      ⊢ wp frame (wpE (defs₀ (F := F)) Variants.none c none) E
          (cc1__scatter_kernel i arg2 harg2 arg3 harg3 arg4 harg4 arg5 harg5 arg6 harg6 arg7 harg7 arg8 harg8) K := by
  subst hs ho
  simp only [cc1__scatter_kernel_eq_skeleton]; unfold cc1__scatter_kernel_skel owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  by_cases hc0 : cond1_0 i <;> by_cases hc1 : cond1_1 i <;> first | exact absurd hc1 (hne hc0) | (
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H3]; swap; isplitl [H4]; swap; isplitl [HO]; swap
    all_goals
      iexists _; isplitr
      swap; · iassumption
      ipureintro
      first
      | with_reducible rfl
      | sl_unfold_words
        rw [read_store_last1 _ _ zoff1]
        simp only [View.readAt_eq_ld, View.ld_unit_zero (S := S1x2048) zoff1, View.ld_unit_zero (S := S2048x128) zoff1, View.ld_unit_zero (S := S2000x128) zoff1, View.ld_unit_zero (S := S128x128) zoff1, View.ld_unit_zero (S := S1x128) zoff1, View.readCov_unit_zero (S := S2000x128) _ zoff1])

theorem before1_in (c : Dev nD) : ∀ w : Fin 6, w ≠ 5 → ∀ (t : Fin cfg1.N) d, (dat1 V c).before w t d = (dat1 V c).after w t
  | 0, _, t, d | 1, _, t, d | 2, _, t, d | 3, _, t, d | 4, _, t, d =>
    ((dat1 V c).before_in_eq_fetched _ rfl (fun _ => rfl) (fun _ _ _ => rfl) (fun _ => rfl) t d).trans rfl
  | 5, h, _, _ => absurd rfl h
  | ⟨_ + 6, h⟩, _, _, _ => absurd h (by omega)

theorem after1_in (c : Dev nD) : ∀ w : Fin 6, w ≠ 5 → ∀ t : Fin cfg1.N,
    (dat1 V c).leavesExact w t = owns (c : Thread nD τ) ((cfg1.win w).stage (cfg1.slots t w)) fullShare ((dat1 V c).after w t)
  | 0, _, _ | 1, _, _ | 2, _, _ | 3, _, _ | 4, _, _ => rfl
  | 5, h, _ => absurd rfl h
  | ⟨_ + 6, h⟩, _, _ => absurd h (by omega)

theorem idleAt1_5 (i : grid1.Coords) (h : ¬cond1_1 i) : cfg1.idle 5 i = true := by
  show (!(k1_cond2 i == 1#1)) = true
  rw [Bool.not_eq_true', beq_eq_false_iff_ne]; exact h
theorem liveAt1_5 (i : grid1.Coords) (h : cond1_1 i) : cfg1.idle 5 i = false := by
  show (!(k1_cond2 i == 1#1)) = false
  rw [Bool.not_eq_false', beq_iff_eq]; exact h

-- the output window's buffer: at the finished block where the body stores it, as found elsewhere
theorem after1_out (c : Dev nD) (t : Fin cfg1.N) (d) :
    owns (c : Thread nD τ) (st1_5 t) fullShare (if cond1_1 (grid1.coords t) then (dat1 V c).after 5 t else (dat1 V c).before 5 t d)
      ⊢ (dat1 V c).leavesExact 5 t := by
  by_cases h : cond1_1 (grid1.coords t)
  · rw [if_pos h]; unfold Dat.leavesExact; rw [liveAt1_5 _ h]
  · rw [if_neg h, Dat.leavesExact_idle _ 5 t (idleAt1_5 _ h) (Bool.eq_false_iff.mpr (mt (flush1_5 t).mp (mt (hcond1_1 t).mpr h)))]
    iintro H; iexists d; iexact H

-- before any position the scratch is owned at some contents: what the point before left, once there is one
theorem PhiS1_open (c : Dev nD) (n : ℕ) (h : n ≤ cfg1.N) :
    PhiS1 V c n h ⊢ iprop(∃ x, ⌜∀ hz : n ≠ 0, x = acc1 V c (n - 1) (by omega)⌝ ∗ owns (c : Thread nD τ) scM1 fullShare x ∗ PhiS1_rest c) := by
  cases n with
  | zero =>
    show (Pipeline.ΦA spec1 c : sProp 𝕄) ⊢ _
    unfold Pipeline.ΦA PhiS1_rest; rw [scopedRest1_split]; simp only [scM1, owns_whole]
    iintro ⟨⟨⟨%d, HS⟩, Hrest⟩, Hg⟩
    iexists d; isplitr; · ipureintro; exact fun hz => absurd rfl hz
    isplitl [HS]; · iexact HS
    isplitl [Hrest]; · iexact Hrest
    iexact Hg
  | succ n =>
    rw [PhiS1]; iintro H; iexists acc1 V c n h; isplitr; · ipureintro; exact fun _ => rfl
    iexact H

-- and after any, the same with the accumulator's contents forgotten
theorem PhiS1_close (c : Dev nD) (n : ℕ) (h : n ≤ cfg1.N) : PhiS1 V c n h ⊢ (Pipeline.ΦA spec1 c : sProp 𝕄) := by
  cases n with
  | zero => exact .rfl
  | succ n =>
    rw [PhiS1]; unfold Pipeline.ΦA PhiS1_rest; rw [scopedRest1_split]; simp only [scM1, owns_whole]
    iintro ⟨HS, Hrest, Hg⟩
    isplitr [Hg]
    · isplitl [HS]; · iexists _; iexact HS
      iexact Hrest
    iexact Hg

def bodyPre1 (c : Dev nD) (t : Fin cfg1.N) (w : Fin 6) : sProp 𝕄 :=
  iprop(∃ d, owns (c : Thread nD τ) ((cfg1.win w).stage (cfg1.slots t w)) fullShare ((dat1 V c).before w t d))

set_option maxHeartbeats 4000000 in
theorem sound_body1 (c : Dev nD) (t : Fin cfg1.N) :
    iprop(PhiS1 V c t.val (Nat.le_of_lt t.isLt) ∗ (dat1 V c).owesAt () t.castSucc
      ∗ bodyPre1 V c t 0 ∗ bodyPre1 V c t 1 ∗ bodyPre1 V c t 2 ∗ bodyPre1 V c t 3 ∗ bodyPre1 V c t 4 ∗ bodyPre1 V c t 5)
      ⊢ wp frame (wpE (defs₀ (F := F)) Variants.none c none) Set.univ (bodyAt1 t) (fun _ =>
        iprop((owns (c : Thread nD τ) scM1 fullShare (acc1 V c t.val t.isLt) ∗ PhiS1_rest c) ∗ (dat1 V c).owesAt () t.castSucc
          ∗ (dat1 V c).leavesExact (0 : Fin 6) t ∗ (dat1 V c).leavesExact (1 : Fin 6) t ∗ (dat1 V c).leavesExact (2 : Fin 6) t
          ∗ (dat1 V c).leavesExact (3 : Fin 6) t ∗ (dat1 V c).leavesExact (4 : Fin 6) t ∗ (dat1 V c).leavesExact (5 : Fin 6) t)) := by
  simp (disch := decide) only [bodyPre1, before1_in V c, after1_in V c]
  iintro ⟨HΦ, Ho, ⟨%d0, H0⟩, ⟨%d1, H1⟩, ⟨%d2, H2⟩, ⟨%d3, H3⟩, ⟨%d4, H4⟩, ⟨%d5, H5⟩⟩
  ihave HΦ := (PhiS1_open V c t.val (Nat.le_of_lt t.isLt)) $$ HΦ
  icases HΦ with ⟨%x, %hx, HS, Hrest⟩
  iapply (kernel1 c Set.univ _ _ _ _ _ _ _ _ _ _ _ _ _ _ _
    (iblk1 V c 0 t) (iblk1 V c 1 t) (iblk1 V c 2 t) (iblk1 V c 3 t) (iblk1 V c 4 t) ((dat1 V c).before 5 t d5) x _
    (if cond1_1 (grid1.coords t) then (dat1 V c).after 5 t else (dat1 V c).before 5 t d5) (acc1_if V c t x hx) rfl
    (fun h0 h1 => by have := (hcond1_0 t).mp h0; have := (hcond1_1 t).mp h1; omega) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest]
  · isplitl [HS]; · iexact HS
    iexact Hrest
  isplitl [Ho]; · iexact Ho
  isplitl [H0]; · iexact H0
  isplitl [H1]; · iexact H1
  isplitl [H2]; · iexact H2
  isplitl [H3]; · iexact H3
  isplitl [H4]; · iexact H4
  iapply (after1_out V c t d5); iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_close V c cfg1.N le_rfl

end Cert.Kernel.Hand

end
-- ==== Proof.K.Region2.lean ====
import proofs.«402943_j87462714016644_3_alg».proof.Proof.K.Gather

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rows2 (c : Dev nD) (t : Fin cfg2.N) : Vec F S2000x128 .bf16 :=
  View.ld (iblk2 V c 0 t) (Rect.unit (s := S50000x128) (k2_off1 (grid2.coords t)) S2000x128.size (k2_off1_inb (grid2.coords t)))

-- The accumulator after point `n`: the point's product added to zero at the first point of a run of the
-- inner axis, to what the point before left otherwise.
def acc2 (c : Dev nD) : (n : ℕ) → n < cfg2.N → Vec F S2048x128 .f32
  | 0, hn => k2_pay2 (grid2.coords ⟨0, hn⟩) (iblk2 V c 1 ⟨0, hn⟩) (rows2 V c ⟨0, hn⟩) (k2_pay1 (F := F))
  | n + 1, hn => k2_pay2 (grid2.coords ⟨n + 1, hn⟩) (iblk2 V c 1 ⟨n + 1, hn⟩) (rows2 V c ⟨n + 1, hn⟩)
      (if (n + 1) % 25 = 0 then k2_pay1 (F := F) else acc2 c n (Nat.lt_of_succ_lt hn))

theorem acc2_reset (c : Dev nD) (t : Fin cfg2.N) (h : t.val % 25 = 0) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (k2_pay1 (F := F)) := by
  obtain ⟨n, hn⟩ := t
  cases n with
  | zero => rfl
  | succ n => exact congrArg (k2_pay2 _ _ _) (if_pos h)

theorem acc2_step (c : Dev nD) (t : Fin cfg2.N) (h : t.val % 25 ≠ 0) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (acc2 V c (t.val - 1) (by omega)) := by
  obtain ⟨n, hn⟩ := t
  cases n with
  | zero => exact absurd rfl h
  | succ n => exact congrArg (k2_pay2 _ _ _) (if_neg h)

-- Whatever the accumulator held before point `t` (what the point before left, if there is one), after it it holds `acc2` at `t`.
theorem acc2_next (c : Dev nD) (t : Fin cfg2.N) (xs : Vec F S2048x128 .f32)
    (hx : ∀ hz : t.val ≠ 0, xs = acc2 V c (t.val - 1) (by omega)) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (if gatherReset (grid2.coords t) then k2_pay1 (F := F) else xs) := by
  by_cases h0 : t.val % 25 = 0
  · rw [acc2_reset V c t h0, if_pos ((gatherReset_iff t).mpr h0)]
  · rw [acc2_step V c t h0, if_neg (fun h => h0 ((gatherReset_iff t).mp h)), hx (fun e => h0 (by rw [e]))]

-- Between points the scratch accumulator is owned at some contents, which after a point are what that point left.
def Phi2 (c : Dev nD) (n : ℕ) (h : n ≤ cfg2.N) : sProp 𝕄 :=
  iprop(∃ xs, ⌜∀ hz : n ≠ 0, xs = acc2 V c (n - 1) (by omega)⌝
    ∗ owns (c : Thread nD τ) (Memref.whole cc2_scratch0) fullShare xs
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem owed2 (c : Dev nD) (t : Fin (cfg2.N + 1)) : (dat2 V c).owed t = 0 := by dsimp only [dat2]
theorem share2 (c : Dev nD) (w : Fin cfg2.W) : (dat2 V c).q w = fullShare := by dsimp only [dat2]

theorem PhiA2_eq (c : Dev nD) :
    (Pipeline.ΦA spec2 c : sProp 𝕄)
      = iprop(iprop(iprop((∃ d, owns (c : Thread nD τ) (Memref.whole cc2_scratch0) fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [owns_whole]; try rfl

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

-- After point `t` the output block is the scaled accumulator where the store is taken (the points ≡ 24 mod 25), and as found elsewhere.
theorem leaves2_3 (c : Dev nD) (t : Fin cfg2.N) (xs : Vec F S2048x128 .f32)
    (hx : ∀ hz : t.val ≠ 0, xs = acc2 V c (t.val - 1) (by omega)) (d) :
    owns (c : Thread nD τ) (st2_3 t) fullShare (if gatherStore (grid2.coords t) then k2_pay3 (k2_pay2 (grid2.coords t) (iblk2 V c 1 t)
      (View.ld (iblk2 V c 0 t) (Rect.unit (s := S50000x128) (k2_off1 (grid2.coords t)) S2000x128.size (k2_off1_inb (grid2.coords t))))
      (if gatherReset (grid2.coords t) then k2_pay1 (F := F) else xs)) (iblk2 V c 2 t) else (dat2 V c).before 3 t d)
      ⊢ ((dat2 V c).leavesExact 3 t : sProp 𝕄) := by
  by_cases h1 : t.val % 25 = 24
  · have hc1 : gatherStore (grid2.coords t) := (gatherStore_iff t).mpr h1
    rw [if_pos hc1, ← acc2_next V c t xs hx, ← after2_3]
    unfold Dat.leavesExact
    rw [show cfg2.idle 3 (grid2.coords t) = false from by
      show (!(k2_cond2 (grid2.coords t) == 1#1)) = false
      rw [show k2_cond2 (grid2.coords t) = 1#1 from hc1]; rfl]
  · have hc1 : ¬gatherStore (grid2.coords t) := fun h => h1 ((gatherStore_iff t).mp h)
    rw [if_neg hc1, Dat.leavesExact_idle (dat2 V c) 3 t
      (show cfg2.idle 3 (grid2.coords t) = true from by
        show (!(k2_cond2 (grid2.coords t) == 1#1)) = true
        rw [Bool.not_eq_true', beq_eq_false_iff_ne]; exact hc1)
      (Bool.eq_false_iff.mpr fun hf => h1 ((flush2_3 t).mp hf))]
    iintro H; iexists _; iexact H

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 4000000 in
-- The body at any point: the invariant hands it the accumulator and takes it back at this point's contents.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [after2_0, after2_1, after2_2,
    show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl]
  unfold Phi2
  iintro ⟨⟨%xs, %hx, HS, Hrest, Hg⟩, Ho, ⟨%d0, H0⟩, ⟨%d1, H1⟩, ⟨%d2, H2⟩, ⟨%d3, H3⟩⟩
  iapply (gather_body c Set.univ (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (Memref.isWhole_whole _) (gather_excl t)
    (iblk2 V c 0 t) (iblk2 V c 1 t) (iblk2 V c 2 t) ((dat2 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · iexists _; isplitr; · ipureintro; exact fun _ => (acc2_next V c t xs hx).symm
    isplitl [HS]; · iexact HS
    isplitl [Hrest]; · iexact Hrest
    iexact Hg
  isplitl [Ho]; · iexact Ho
  isplitl [H0]; · iexact H0
  isplitl [H1]; · iexact H1
  isplitl [H2]; · iexact H2
  iapply (leaves2_3 V c t xs hx d3); iexact H3

theorem body_obligation2 (c : Dev nD) :
    BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [PhiA2_eq]; show _ ⊢ Phi2 V c 0 (Nat.zero_le _); unfold Phi2
  iintro ⟨⟨⟨%d, HS⟩, Hrest⟩, Hg⟩
  iexists d; isplitr; · ipureintro; exact fun hz => absurd rfl hz
  isplitl [HS]; · iexact HS
  isplitl [Hrest]; · iexact Hrest
  iexact Hg

theorem hout2 (c : Dev nD) : (dat2 V c).Φ (Fin.last cfg2.N) ⊢ (Pipeline.ΦA spec2 c : sProp 𝕄) := by
  rw [PhiA2_eq]; show Phi2 V c (Fin.last cfg2.N).val (Nat.le_of_lt_succ (Fin.last cfg2.N).isLt) ⊢ _; unfold Phi2
  iintro ⟨%xs, -, HS, Hrest, Hg⟩
  isplitl [HS Hrest]
  · isplitl [HS]
    · iexists _; iexact HS
    iexact Hrest
  iexact Hg

end Cert.Kernel.Hand

end
-- ==== Proof.K.Region3.lean ====
import proofs.«402943_j87462714016644_3_alg».proof.Proof.Gen.Kernel.Launch
import proofs.«402943_j87462714016644_3_alg».proof.Proof.Gen.Kernel.Skeleton
import proofs.«402943_j87462714016644_3_alg».proof.Proof.Gen.Kernel.Points
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S2000x128 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩)
      (if (n + 1) % 293 = 0 then k3_pay1 (F := F) else acc3 c n (Nat.lt_of_succ_lt hn))

theorem acc3_reset (c : Dev nD) (t : Fin cfg3.N) (h : t.val % 293 = 0) :
    acc3 V c t.val t.isLt = k3_pay2 (grid3.coords t) (iblk3 V c 1 t) (iblk3 V c 0 t) (k3_pay1 (F := F)) := by
  obtain ⟨_ | n, hn⟩ := t
  · rfl
  · exact congrArg (k3_pay2 _ _ _) (if_pos h)

theorem acc3_step (c : Dev nD) (t : Fin cfg3.N) (h : t.val % 293 ≠ 0) :
    acc3 V c t.val t.isLt = k3_pay2 (grid3.coords t) (iblk3 V c 1 t) (iblk3 V c 0 t) (acc3 V c (t.val - 1) (by omega)) := by
  obtain ⟨_ | n, hn⟩ := t
  · exact absurd (Nat.zero_mod _) h
  · exact congrArg (k3_pay2 _ _ _) (if_neg h)

abbrev scM3 : Memref sig .tc .vmem S2000x128 .f32 := Memref.whole cc3_scratch0

def PhiS3_rest (c : Dev nD) : sProp 𝕄 :=
  iprop(Pipeline.scopedRestBut (Ix := Unit) (Name := ℕ) (U := UR sig nD τ) (Lvl := ℕ) (Val := Elt F) spec3 c [cc3_scratch0] ∗ (∃ r, prngReg c r))

-- the invariant before position n: the accumulator of the point before, once there is one
def PhiS3 (c : Dev nD) : (n : ℕ) → n ≤ cfg3.N → sProp 𝕄
  | 0, _ => Pipeline.ΦA spec3 c
  | n + 1, hn => iprop(owns (c : Thread nD τ) scM3 fullShare (acc3 V c n hn) ∗ PhiS3_rest c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (acc3 V c t.val t.isLt) (iblk3 V c 4 t) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_5 (c : Dev nD) (t : Fin cfg3.N) :
    (dat3 V c).after 5 t = k3_pay3 (acc3 V c t.val t.isLt) (iblk3 V c 4 t) (iblk3 V c 2 t) (iblk3 V c 3 t) := rfl

theorem owed3 (c : Dev nD) (t : Fin (cfg3.N + 1)) : (dat3 V c).owed t = 0 := rfl
theorem share3 (c : Dev nD) (w : Fin cfg3.W) : (dat3 V c).q w = fullShare := rfl

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin cfg3.N, cond3_0 (grid3.coords t) ↔ t.val % 293 = 0 :=
  (by decide +kernel : ∀ t : Fin grid3.N, cond3_0 (grid3.coords t) ↔ t.val % 293 = 0)
theorem hcond3_1 : ∀ t : Fin cfg3.N, cond3_1 (grid3.coords t) ↔ t.val % 293 = 292 :=
  (by decide +kernel : ∀ t : Fin grid3.N, cond3_1 (grid3.coords t) ↔ t.val % 293 = 292)

-- the accumulator after point t, from whatever the scratch held before it
theorem acc3_if (c : Dev nD) (t : Fin cfg3.N) (x : Vec F S2000x128 .f32) (hx : ∀ hz : t.val ≠ 0, x = acc3 V c (t.val - 1) (by omega)) :
    acc3 V c t.val t.isLt = k3_pay2 (grid3.coords t) (iblk3 V c 1 t) (iblk3 V c 0 t) (if cond3_0 (grid3.coords t) then k3_pay1 (F := F) else x) := by
  by_cases h : t.val % 293 = 0
  · rw [acc3_reset V c t h, if_pos ((hcond3_0 t).mpr h)]
  · rw [acc3_step V c t h, if_neg (mt (hcond3_0 t).mp h), hx fun hz => h (by rw [hz])]

theorem zoff3 : (![0, 0] : Fin 2 → Nat) = fun _ => 0 := by funext a; fin_cases a <;> rfl

-- a store that fills the whole buffer decides what it reads, whatever it held and whatever was stored before
theorem read_store_last3 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
-- the scratch ends at this tile's contribution added to zero (first edge tile) or to what it held; the output's buffer, at the last edge tile, at the finished block
theorem kernel3 (c : Dev nD) (E : Set ℕ) (i : grid3.Coords)
    (arg2 : Memref sig .tc .vmem S2048x128 .bf16) (harg2 : arg2.IsWhole) (arg3 : Memref sig .tc .vmem S1x2048 .i32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S2000x128 .f32) (harg6 : arg6.IsWhole) (arg7 : Memref sig .tc .vmem S2000x128 .f32) (harg7 : arg7.IsWhole)
    (arg8 : Memref sig .tc .vmem S2000x128 .f32) (harg8 : arg8.IsWhole)
    (x0 : Vec F S2048x128 .bf16) (x1 : Vec F S1x2048 .i32) (x2 : Vec F S128x128 .f32) (x3 : Vec F S1x128 .f32)
    (x4 xo xs s o : Vec F S2000x128 .f32)
    (hs : s = k3_pay2 i x1 x0 (if cond3_0 i then k3_pay1 (F := F) else xs))
    (ho : o = if cond3_1 i then k3_pay3 s x4 x2 x3 else xo) (hne : cond3_0 i → ¬cond3_1 i) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare o
        ∗ owns (c : Thread nD τ) arg8 fullShare s) -∗ K ⟨⟩))
      ⊢ wp frame (wpE (defs₀ (F := F)) Variants.none c none) E
          (cc3__scatter_kernel i arg2 harg2 arg3 harg3 arg4 harg4 arg5 harg5 arg6 harg6 arg7 harg7 arg8 harg8) K := by
  subst hs ho
  simp only [cc3__scatter_kernel_eq_skeleton]; unfold cc3__scatter_kernel_skel owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  by_cases hc0 : cond3_0 i <;> by_cases hc1 : cond3_1 i <;> first | exact absurd hc1 (hne hc0) | (
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H3]; swap; isplitl [H4]; swap; isplitl [HO]; swap
    all_goals
      iexists _; isplitr
      swap; · iassumption
      ipureintro
      first
      | with_reducible rfl
      | sl_unfold_words
        rw [read_store_last3 _ _ zoff3]
        simp only [View.readAt_eq_ld, View.ld_unit_zero (S := S1x2048) zoff3, View.ld_unit_zero (S := S2048x128) zoff3, View.ld_unit_zero (S := S2000x128) zoff3, View.ld_unit_zero (S := S128x128) zoff3, View.ld_unit_zero (S := S1x128) zoff3, View.readCov_unit_zero (S := S2000x128) _ zoff3])

theorem before3_in (c : Dev nD) : ∀ w : Fin 6, w ≠ 5 → ∀ (t : Fin cfg3.N) d, (dat3 V c).before w t d = (dat3 V c).after w t
  | 0, _, t, d | 1, _, t, d | 2, _, t, d | 3, _, t, d | 4, _, t, d =>
    ((dat3 V c).before_in_eq_fetched _ rfl (fun _ => rfl) (fun _ _ _ => rfl) (fun _ => rfl) t d).trans rfl
  | 5, h, _, _ => absurd rfl h
  | ⟨_ + 6, h⟩, _, _, _ => absurd h (by omega)

theorem after3_in (c : Dev nD) : ∀ w : Fin 6, w ≠ 5 → ∀ t : Fin cfg3.N,
    (dat3 V c).leavesExact w t = owns (c : Thread nD τ) ((cfg3.win w).stage (cfg3.slots t w)) fullShare ((dat3 V c).after w t)
  | 0, _, _ | 1, _, _ | 2, _, _ | 3, _, _ | 4, _, _ => rfl
  | 5, h, _ => absurd rfl h
  | ⟨_ + 6, h⟩, _, _ => absurd h (by omega)

theorem idleAt3_5 (i : grid3.Coords) (h : ¬cond3_1 i) : cfg3.idle 5 i = true := by
  show (!(k3_cond2 i == 1#1)) = true
  rw [Bool.not_eq_true', beq_eq_false_iff_ne]; exact h
theorem liveAt3_5 (i : grid3.Coords) (h : cond3_1 i) : cfg3.idle 5 i = false := by
  show (!(k3_cond2 i == 1#1)) = false
  rw [Bool.not_eq_false', beq_iff_eq]; exact h

-- the output window's buffer: at the finished block where the body stores it, as found elsewhere
theorem after3_out (c : Dev nD) (t : Fin cfg3.N) (d) :
    owns (c : Thread nD τ) (st3_5 t) fullShare (if cond3_1 (grid3.coords t) then (dat3 V c).after 5 t else (dat3 V c).before 5 t d)
      ⊢ (dat3 V c).leavesExact 5 t := by
  by_cases h : cond3_1 (grid3.coords t)
  · rw [if_pos h]; unfold Dat.leavesExact; rw [liveAt3_5 _ h]
  · rw [if_neg h, Dat.leavesExact_idle _ 5 t (idleAt3_5 _ h) (Bool.eq_false_iff.mpr (mt (flush3_5 t).mp (mt (hcond3_1 t).mpr h)))]
    iintro H; iexists d; iexact H

-- before any position the scratch is owned at some contents: what the point before left, once there is one
theorem PhiS3_open (c : Dev nD) (n : ℕ) (h : n ≤ cfg3.N) :
    PhiS3 V c n h ⊢ iprop(∃ x, ⌜∀ hz : n ≠ 0, x = acc3 V c (n - 1) (by omega)⌝ ∗ owns (c : Thread nD τ) scM3 fullShare x ∗ PhiS3_rest c) := by
  cases n with
  | zero =>
    show (Pipeline.ΦA spec3 c : sProp 𝕄) ⊢ _
    unfold Pipeline.ΦA PhiS3_rest; rw [scopedRest3_split]; simp only [scM3, owns_whole]
    iintro ⟨⟨⟨%d, HS⟩, Hrest⟩, Hg⟩
    iexists d; isplitr; · ipureintro; exact fun hz => absurd rfl hz
    isplitl [HS]; · iexact HS
    isplitl [Hrest]; · iexact Hrest
    iexact Hg
  | succ n =>
    rw [PhiS3]; iintro H; iexists acc3 V c n h; isplitr; · ipureintro; exact fun _ => rfl
    iexact H

-- and after any, the same with the accumulator's contents forgotten
theorem PhiS3_close (c : Dev nD) (n : ℕ) (h : n ≤ cfg3.N) : PhiS3 V c n h ⊢ (Pipeline.ΦA spec3 c : sProp 𝕄) := by
  cases n with
  | zero => exact .rfl
  | succ n =>
    rw [PhiS3]; unfold Pipeline.ΦA PhiS3_rest; rw [scopedRest3_split]; simp only [scM3, owns_whole]
    iintro ⟨HS, Hrest, Hg⟩
    isplitr [Hg]
    · isplitl [HS]; · iexists _; iexact HS
      iexact Hrest
    iexact Hg

def bodyPre3 (c : Dev nD) (t : Fin cfg3.N) (w : Fin 6) : sProp 𝕄 :=
  iprop(∃ d, owns (c : Thread nD τ) ((cfg3.win w).stage (cfg3.slots t w)) fullShare ((dat3 V c).before w t d))

set_option maxHeartbeats 4000000 in
theorem sound_body3 (c : Dev nD) (t : Fin cfg3.N) :
    iprop(PhiS3 V c t.val (Nat.le_of_lt t.isLt) ∗ (dat3 V c).owesAt () t.castSucc
      ∗ bodyPre3 V c t 0 ∗ bodyPre3 V c t 1 ∗ bodyPre3 V c t 2 ∗ bodyPre3 V c t 3 ∗ bodyPre3 V c t 4 ∗ bodyPre3 V c t 5)
      ⊢ wp frame (wpE (defs₀ (F := F)) Variants.none c none) Set.univ (bodyAt3 t) (fun _ =>
        iprop((owns (c : Thread nD τ) scM3 fullShare (acc3 V c t.val t.isLt) ∗ PhiS3_rest c) ∗ (dat3 V c).owesAt () t.castSucc
          ∗ (dat3 V c).leavesExact (0 : Fin 6) t ∗ (dat3 V c).leavesExact (1 : Fin 6) t ∗ (dat3 V c).leavesExact (2 : Fin 6) t
          ∗ (dat3 V c).leavesExact (3 : Fin 6) t ∗ (dat3 V c).leavesExact (4 : Fin 6) t ∗ (dat3 V c).leavesExact (5 : Fin 6) t)) := by
  simp (disch := decide) only [bodyPre3, before3_in V c, after3_in V c]
  iintro ⟨HΦ, Ho, ⟨%d0, H0⟩, ⟨%d1, H1⟩, ⟨%d2, H2⟩, ⟨%d3, H3⟩, ⟨%d4, H4⟩, ⟨%d5, H5⟩⟩
  ihave HΦ := (PhiS3_open V c t.val (Nat.le_of_lt t.isLt)) $$ HΦ
  icases HΦ with ⟨%x, %hx, HS, Hrest⟩
  iapply (kernel3 c Set.univ _ _ _ _ _ _ _ _ _ _ _ _ _ _ _
    (iblk3 V c 0 t) (iblk3 V c 1 t) (iblk3 V c 2 t) (iblk3 V c 3 t) (iblk3 V c 4 t) ((dat3 V c).before 5 t d5) x _
    (if cond3_1 (grid3.coords t) then (dat3 V c).after 5 t else (dat3 V c).before 5 t d5) (acc3_if V c t x hx) rfl
    (fun h0 h1 => by have := (hcond3_0 t).mp h0; have := (hcond3_1 t).mp h1; omega) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest]
  · isplitl [HS]; · iexact HS
    iexact Hrest
  isplitl [Ho]; · iexact Ho
  isplitl [H0]; · iexact H0
  isplitl [H1]; · iexact H1
  isplitl [H2]; · iexact H2
  isplitl [H3]; · iexact H3
  isplitl [H4]; · iexact H4
  iapply (after3_out V c t d5); iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_close V c cfg3.N le_rfl

end Cert.Kernel.Hand

end
-- ==== Proof.K.Region4.lean ====
import proofs.«402943_j87462714016644_3_alg».proof.Proof.Gen.Kernel.Launch
import proofs.«402943_j87462714016644_3_alg».proof.Proof.Gen.Kernel.Skeleton
import proofs.«402943_j87462714016644_3_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S100x128 .f32
  | 0, hn => k4_pay4 (iblk4 V c 1 ⟨0, hn⟩) (iblk4 V c 0 ⟨0, hn⟩) (k4_pay1 (F := F))
  | n + 1, hn => k4_pay4 (iblk4 V c 1 ⟨n + 1, hn⟩) (iblk4 V c 0 ⟨n + 1, hn⟩) (acc4 c n (Nat.lt_of_succ_lt hn))

def cnt4 (c : Dev nD) : (n : ℕ) → n < cfg4.N → Vec F S100x1 .f32
  | 0, hn => k4_pay5 (iblk4 V c 1 ⟨0, hn⟩) (k4_pay2 (F := F))
  | n + 1, hn => k4_pay5 (iblk4 V c 1 ⟨n + 1, hn⟩) (cnt4 c n (Nat.lt_of_succ_lt hn))

abbrev scM4_0 : Memref sig .tc .vmem S100x128 .f32 := Memref.whole cc4_scratch0
abbrev scM4_1 : Memref sig .tc .vmem S100x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

-- Before tile n the two running buffers hold what tile n - 1 left (anything before the first tile).
def Phi4 (c : Dev nD) (n : ℕ) : sProp 𝕄 :=
  iprop(∃ s0 s1, ⌜∀ m hm, n = m + 1 → s0 = acc4 V c m hm ∧ s1 = cnt4 V c m hm⌝
    ∗ owns (c : Thread nD τ) scM4_0 fullShare s0 ∗ owns (c : Thread nD τ) scM4_1 fullShare s1 ∗ rest4 c ∗ (∃ r, prngReg c r))

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay6 (acc4 V c t.val t.isLt) (cnt4 V c t.val t.isLt) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem share4 (c : Dev nD) (w : Fin cfg4.W) : (dat4 V c).q w = fullShare := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;> intro d <;>
    exact ((dat4 V c).before_in_eq_fetched _ rfl (fun _ => rfl) (fun _ _ _ => rfl)
      (fun t => by dsimp only [dat4]; unfold Dat.blockOf iblk4; try rfl) t d).trans
      (by unfold Dat.fetched Dat.blockOf iblk4; rw [A_eq4]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

-- One tile's step of the two running buffers, from zero where the reset is taken.
theorem step4 (c : Dev nD) (t : Fin cfg4.N) (s0 : Vec F S100x128 .f32) (s1 : Vec F S100x1 .f32)
    (hs : ∀ m hm, t.val = m + 1 → s0 = acc4 V c m hm ∧ s1 = cnt4 V c m hm) :
    k4_pay4 (iblk4 V c 1 t) (iblk4 V c 0 t) (if cond4_0 (grid4.coords t) then k4_pay1 (F := F) else s0) = acc4 V c t.val t.isLt
      ∧ k4_pay5 (iblk4 V c 1 t) (if cond4_0 (grid4.coords t) then k4_pay2 (F := F) else s1) = cnt4 V c t.val t.isLt := by
  obtain ⟨n, hn⟩ := t
  cases n with
  | zero => simp only [if_pos ((hcond4_0 ⟨0, hn⟩).mpr rfl)]; exact ⟨rfl, rfl⟩
  | succ n =>
    obtain ⟨rfl, rfl⟩ := hs n (Nat.lt_of_succ_lt hn) rfl
    simp only [if_neg fun h => Nat.succ_ne_zero n ((hcond4_0 ⟨n + 1, hn⟩).mp h)]; exact ⟨rfl, rfl⟩

theorem hz4 : (![0, 0] : Fin 2 → ℕ) = fun _ => 0 := funext fun a => by fin_cases a <;> rfl

-- After stores whose last one fills the whole buffer, the buffer reads that store's payload.
theorem read_store_last4 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 4000000 in
-- The body's triple: the running buffers take the tile's step; the output's buffer changes only where the projection is taken.
theorem kernel4 (c : Dev nD) (E : Set ℕ) (i : grid4.Coords)
    (arg1 : Memref sig .tc .vmem S2048x128 .f32) (harg1 : arg1.IsWhole) (arg2 : Memref sig .tc .vmem S1x2048 .i32) (harg2 : arg2.IsWhole)
    (arg3 : Memref sig .tc .vmem S128x40 .f32) (harg3 : arg3.IsWhole) (arg4 : Memref sig .tc .vmem S1x40 .f32) (harg4 : arg4.IsWhole)
    (arg5 : Memref sig .tc .vmem S100x40 .f32) (harg5 : arg5.IsWhole) (arg6 : Memref sig .tc .vmem S100x128 .f32) (harg6 : arg6.IsWhole)
    (arg7 : Memref sig .tc .vmem S100x1 .f32) (harg7 : arg7.IsWhole) (hx : cond4_0 i → ¬cond4_1 i)
    (x0 : Vec F S2048x128 .f32) (x1 : Vec F S1x2048 .i32) (x2 : Vec F S128x40 .f32) (x3 : Vec F S1x40 .f32) (x4 : Vec F S100x40 .f32)
    (s0 : Vec F S100x128 .f32) (s1 : Vec F S100x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if cond4_1 i then k4_pay6 (k4_pay4 x1 x0 (if cond4_0 i then k4_pay1 (F := F) else s0)) (k4_pay5 x1 (if cond4_0 i then k4_pay2 (F := F) else s1)) x2 x3 else x4)
            ∗ owns (c : Thread nD τ) arg6 fullShare (k4_pay4 x1 x0 (if cond4_0 i then k4_pay1 (F := F) else s0)) ∗ owns (c : Thread nD τ) arg7 fullShare (k4_pay5 x1 (if cond4_0 i then k4_pay2 (F := F) else s1))) -∗ K ⟨⟩))
      ⊢ wp frame (wpE (defs₀ (F := F)) Variants.none c none) E
          (cc4__pool_kernel i arg1 harg1 arg2 harg2 arg3 harg3 arg4 harg4 arg5 harg5 arg6 harg6 arg7 harg7) K := by
  by_cases hc0 : cond4_0 i <;> by_cases hc1 : cond4_1 i
  · exact absurd hc1 (hx hc0)
  all_goals
    first | rw [if_pos hc1] | rw [if_neg hc1]
    first | rw [if_pos hc0, if_pos hc0] | rw [if_neg hc0, if_neg hc0]
    simp only [cc4__pool_kernel_eq_skeleton]; unfold cc4__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0 | exact hc1)
    sl_step
    iapply Hk
    isplitl [H1]; iexists _; isplitr; swap; · iexact H1
    ipureintro; rotate_left
    isplitl [H2]; iexists _; isplitr; swap; · iexact H2
    ipureintro; rotate_left
    isplitl [H3]; iexists _; isplitr; swap; · iexact H3
    ipureintro; rotate_left
    isplitl [H4]; iexists _; isplitr; swap; · iexact H4
    ipureintro; rotate_left
    isplitl [H5]; iexists _; isplitr; swap; · iexact H5
    ipureintro; rotate_left
    isplitl [H6]; iexists _; isplitr; swap; · iexact H6
    ipureintro; rotate_left
    iexists _; isplitr; swap; · iexact H7
    ipureintro
    all_goals first
      | (try sl_unfold_words
         rw [read_store_last4 _ _ hz4]
         simp only [View.readAt_eq_ld, Memref.IsWhole.read_unread, View.ld_unit_zero (S := S1x2048) hz4,
           View.ld_unit_zero (S := S2048x128) hz4, View.ld_unit_zero (S := S100x128) hz4, View.ld_unit_zero (S := S100x1) hz4,
           View.ld_unit_zero (S := S128x40) hz4, View.ld_unit_zero (S := S1x40) hz4, View.ld_unit_zero (S := S100x40) hz4,
           View.readCov_unit_zero (S := S100x128) (h := hz4), View.readCov_unit_zero (S := S100x1) (h := hz4)])
      | exact Memref.IsWhole.read_unread _ _

-- After the body the output block is the projected means at the last tile, and as found elsewhere.
theorem leaves4_4 (c : Dev nD) (t : Fin cfg4.N) (s0 : Vec F S100x128 .f32) (s1 : Vec F S100x1 .f32)
    (hs : ∀ m hm, t.val = m + 1 → s0 = acc4 V c m hm ∧ s1 = cnt4 V c m hm) (d) :
    owns (c : Thread nD τ) (st4_4 t) fullShare
        (if cond4_1 (grid4.coords t) then
          k4_pay6 (k4_pay4 (iblk4 V c 1 t) (iblk4 V c 0 t) (if cond4_0 (grid4.coords t) then k4_pay1 (F := F) else s0))
            (k4_pay5 (iblk4 V c 1 t) (if cond4_0 (grid4.coords t) then k4_pay2 (F := F) else s1)) (iblk4 V c 2 t) (iblk4 V c 3 t)
        else (dat4 V c).before 4 t d)
      ⊢ (dat4 V c).leavesExact 4 t := by
  rw [(step4 V c t s0 s1 hs).1, (step4 V c t s0 s1 hs).2]
  by_cases hc1 : cond4_1 (grid4.coords t)
  · rw [if_pos hc1, show (dat4 V c).leavesExact 4 t = owns (c : Thread nD τ) (st4_4 t) fullShare ((dat4 V c).after 4 t) from by
      unfold Dat.leavesExact; rw [liveAt4_4 t hc1]]
    exact Entails.refl _
  · rw [if_neg hc1, Dat.leavesExact_idle (dat4 V c) 4 t (idleAt4_4 t hc1) (noFlush4_4 t hc1)]
    iintro H; iexists _; iexact H

set_option maxHeartbeats 4000000 in
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d)))
        ⊢ wp frame (wpE (defs₀ (F := F)) Variants.none c none) Set.univ (bodyAt4 t) fun _ =>
          iprop((dat4 V c).Φ t.succ ∗ (dat4 V c).owesAt () t.succ
            ∗ (dat4 V c).leavesExact 0 t
            ∗ (dat4 V c).leavesExact 1 t
            ∗ (dat4 V c).leavesExact 2 t
            ∗ (dat4 V c).leavesExact 3 t
            ∗ (dat4 V c).leavesExact 4 t) := by
  unfold bodyAt4
  simp only [(before4 V c t).1, (before4 V c t).2.1, (before4 V c t).2.2.1, (before4 V c t).2.2.2]
  rw [show (dat4 V c).owesAt () t.succ = (dat4 V c).owesAt () t.castSucc from rfl,
    show (dat4 V c).Φ t.castSucc = Phi4 V c t.val from rfl, show (dat4 V c).Φ t.succ = Phi4 V c (t.val + 1) from rfl,
    show (dat4 V c).leavesExact 0 t = owns (c : Thread nD τ) (st4_0 t) fullShare (iblk4 V c 0 t) from rfl,
    show (dat4 V c).leavesExact 1 t = owns (c : Thread nD τ) (st4_1 t) fullShare (iblk4 V c 1 t) from rfl,
    show (dat4 V c).leavesExact 2 t = owns (c : Thread nD τ) (st4_2 t) fullShare (iblk4 V c 2 t) from rfl,
    show (dat4 V c).leavesExact 3 t = owns (c : Thread nD τ) (st4_3 t) fullShare (iblk4 V c 3 t) from rfl]
  unfold Phi4
  iintro ⟨⟨%s0, %s1, %hs, HS0, HS1, Hrest, Hg⟩, Ho, ⟨%d0, H0⟩, ⟨%d1, H1⟩, ⟨%d2, H2⟩, ⟨%d3, H3⟩, ⟨%d4, H4⟩⟩
  iapply (kernel4 c Set.univ (grid4.coords t) _ _ _ _ _ _ _ _ _ _ _ _ _ _
    (fun h0 h1 => by have := (hcond4_0 t).mp h0; have := (hcond4_1 t).mp h1; omega)
    (iblk4 V c 0 t) (iblk4 V c 1 t) (iblk4 V c 2 t) (iblk4 V c 3 t) ((dat4 V c).before 4 t d4) s0 s1 _)
  iframe H0 H1 H2 H3 H4 HS0 HS1
  iintro ⟨H0, H1, H2, H3, H4, HS0, HS1⟩
  iframe Ho H0 H1 H2 H3
  isplitr [H4]
  · iexists _, _; iframe
    ipureintro; intro m hm h; cases Nat.succ.inj h; exact step4 V c t s0 s1 hs
  iapply (leaves4_4 V c t s0 s1 hs d4); iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 from rfl, PhiA4_eq]; unfold Phi4
  iintro ⟨⟨⟨⟨%s0, HS0⟩, ⟨%s1, HS1⟩⟩, Hrest⟩, Hg⟩
  iexists s0, s1; iframe
  ipureintro; exact fun m _ h => absurd h.symm (Nat.succ_ne_zero m)

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val from rfl, PhiA4_eq]; unfold Phi4
  iintro ⟨%s0, %s1, -, HS0, HS1, Hrest, Hg⟩
  iframe Hrest Hg
  isplitl [HS0]; · iexists _; iexact HS0
  iexists _; iexact HS1

end Cert.Kernel.Hand

end
-- ==== Proof.K.Run.lean ====
import proofs.«402943_j87462714016644_3_alg».proof.Proof.Gen.Kernel.Regions
import proofs.«402943_j87462714016644_3_alg».proof.Proof.K.Region0
import proofs.«402943_j87462714016644_3_alg».proof.Proof.K.Region1
import proofs.«402943_j87462714016644_3_alg».proof.Proof.K.Region2
import proofs.«402943_j87462714016644_3_alg».proof.Proof.K.Region3
import proofs.«402943_j87462714016644_3_alg».proof.Proof.K.Region4
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 (c : Dev nD) : Valuation τ sig (Elt F) := StableHlo.after hostOps0 (W0 m c)
abbrev Vr1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev Vr2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev W4 (c : Dev nD) : Valuation τ sig (Elt F) := StableHlo.after hostOps2 (W3 m c)
abbrev Vr4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (Vr4 m) c).arrAt w cfg2.N
theorem W5_arr (c : Dev nD) (w : Fin cfg2.W) :
    W5 m c (Proc.devRef .tc (Pipeline.arrRef spec2 w)) = (dat2 (Vr4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb
abbrev Vr5 : (c : Dev nD) → (b : Ref sig .tc) → Buf (Elt F) ((c : Thread nD τ).loc b) := fun c b => W5 m c b

def W6 (c : Dev nD) : Valuation τ sig (Elt F) :=
  Pipeline.withArrays spec3 c (W5 m c) fun w => (dat3 (Vr5 m) c).arrAt w cfg3.N
theorem W6_arr (c : Dev nD) (w : Fin cfg3.W) :
    W6 m c (Proc.devRef .tc (Pipeline.arrRef spec3 w)) = (dat3 (Vr5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev W7 (c : Dev nD) : Valuation τ sig (Elt F) := StableHlo.after hostOps4 (W6 m c)
abbrev Vr7 : (c : Dev nD) → (b : Ref sig .tc) → Buf (Elt F) ((c : Thread nD τ).loc b) := fun c b => W7 m c b

def W8 (c : Dev nD) : Valuation τ sig (Elt F) :=
  Pipeline.withArrays spec4 c (W7 m c) fun w => (dat4 (Vr7 m) c).arrAt w cfg4.N

def pdats : (p : Fin 5) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr4 m) c
  | ⟨3, _⟩ => fun c => dat3 (Vr5 m) c
  | ⟨4, _⟩ => fun c => dat4 (Vr7 m) c
abbrev noL : GSem nD τ sig → Finset Unit := fun _ => ∅
abbrev noLv : GSem nD τ sig → Unit → ℕ := fun _ _ => 0
abbrev Rrun (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rrun
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- One kernel region as a segment of the run: entered with every buffer at `V`, left with its output arrays at what its points wrote.
def regOf (pd : (p : Fin 5) → (c : Dev nD) → Dat τ (Elt F) Unit ℕ (UR sig nD τ) ℕ (Pipeline.pin (pcfgs (F := F)) adm p) c)
    (p : Fin 5) (kit : Pipeline.LaunchFacts (nD := nD) (τ := τ) cfgs p) (V : Dev nD → Valuation τ sig (Elt F))
    (hb : ∀ c, BodyObligation (pd p c) (defs₀ (F := F)) Variants.none () Set.univ)
    (howed : ∀ c t, (pd p c).owed t = 0) (hrec : ∀ c, (pd p c).recorded 0 = Set.univ) (hq : ∀ c w, (pd p c).q w = fullShare)
    (hA : ∀ c w, (pd p c).A w = V c (Pipeline.arrRef (Pipeline.pin (pcfgs (F := F)) adm p).spec w))
    (hin : ∀ c, (Pipeline.ΦA (Pipeline.pin (pcfgs (F := F)) adm p).spec c : sProp 𝕄) ⊢ (pd p c).Φ 0)
    (hout : ∀ c, (pd p c).Φ (Fin.last (Pipeline.pin (pcfgs (F := F)) adm p).N) ⊢ (Pipeline.ΦA (Pipeline.pin (pcfgs (F := F)) adm p).spec c : sProp 𝕄)) :
    Pipeline.RegionSeg (pcfgs (F := F)) adm pd () defs₀ Variants.none noL noLv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ noL noLv p howed
  pre c := iprop(StableHlo.held (c : Thread nD τ) (Pipeline.ucRefs τ sig) (V c) ∗ Rrun c)
  post c := iprop(StableHlo.held (c : Thread nD τ) (Pipeline.ucRefs τ sig)
    (Pipeline.withArrays (Pipeline.pin (pcfgs (F := F)) adm p).spec c (V c) fun w => (pd p c).arrAt w (Pipeline.pin (pcfgs (F := F)) adm p).N) ∗ Rrun c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => V c b
  hentry c := by
    rw [Pipeline.ownSems0_none]
    have hsplit := Pipeline.arrays_of_unscopedBufs (p := p) (pcfgs (F := F)) adm pd kit.win kit.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [howed c 0]
    icases HO with ⟨%W, HO⟩; iexists W; iframe HO; ipureintro; exact fun _ _ => Or.inl (hrec c ▸ trivial)
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      kit.win kit.arr_whole c pd ((pd p c).share_full (hq c)) (fun b => V c b)
      (fun b => Pipeline.withArrays (Pipeline.pin (pcfgs (F := F)) adm p).spec c (V c) (fun w => (pd p c).arrAt w (Pipeline.pin (pcfgs (F := F)) adm p).N) b) ((pd p c).arrAt · (Pipeline.pin (pcfgs (F := F)) adm p).N)
      (fun w => (Pipeline.withArrays_arr (Pipeline.pin (pcfgs (F := F)) adm p).spec kit.win.arr_inj c (V c) (fun w => (pd p c).arrAt w (Pipeline.pin (pcfgs (F := F)) adm p).N) w).symm)
      (fun b hb => Pipeline.withArrays_of_ne (Pipeline.pin (pcfgs (F := F)) adm p).spec c (V c) (fun w => (pd p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev runSegs : List (Pipeline.Seg (pcfgs (F := F)) adm (pdats m) () defs₀ Variants.none noL noLv) :=
  [ .host (hseg hostOps0 hostOps0_sub hostOps0_fresh (W0 m)),
    .region (regOf (pdats m) 0 launch0 (W1 m) (body_obligation0 (Vr1 m)) (owed0 (Vr1 m)) (fun _ => rfl) (share0 (Vr1 m)) (A_eq0 (Vr1 m)) (hin0 (Vr1 m)) (hout0 (Vr1 m))),
    .region (regOf (pdats m) 1 launch1 (W2 m) (body_obligation1 (Vr2 m)) (owed1 (Vr2 m)) (fun _ => rfl) (share1 (Vr2 m)) (A_eq1 (Vr2 m)) (hin1 (Vr2 m)) (hout1 (Vr2 m))),
    .host (hseg hostOps2 hostOps2_sub hostOps2_fresh (W3 m)),
    .region (regOf (pdats m) 2 launch2 (W4 m) (body_obligation2 (Vr4 m)) (owed2 (Vr4 m)) (fun _ => rfl) (share2 (Vr4 m)) (A_eq2 (Vr4 m)) (hin2 (Vr4 m)) (hout2 (Vr4 m))),
    .region (regOf (pdats m) 3 launch3 (W5 m) (body_obligation3 (Vr5 m)) (owed3 (Vr5 m)) (fun _ => rfl) (share3 (Vr5 m)) (A_eq3 (Vr5 m)) (hin3 (Vr5 m)) (hout3 (Vr5 m))),
    .host (hseg hostOps4 hostOps4_sub hostOps4_fresh (W6 m)),
    .region (regOf (pdats m) 4 launch4 (W7 m) (body_obligation4 (Vr7 m)) (owed4 (Vr7 m)) (fun _ => rfl) (share4 (Vr7 m)) (A_eq4 (Vr7 m)) (hin4 (Vr7 m)) (hout4 (Vr7 m))) ]

set_option backward.isDefEq.respectTransparency.types false in
theorem run : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ Variants.none noL noLv m ρ main (runSegs m)
    (fun c Q => by
      rewrite [main_chain c, Pipeline.Seg.run_eq_chain]
      exact .rfl)
    (by simp only [runSegs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro; isplitl [Hu]; · iexact Hu
      iempintro)
    (T₀ := fun c => iprop(StableHlo.held (c : Thread nD τ) (Pipeline.ucRefs τ sig) (W0 m c) ∗ Rrun c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h
theorem W7_of (c : Dev nD) (r : Ref sig .tc) (h : r ∉ hostOps4_W) : W7 m c (Proc.devRef .tc r) = W6 m c (Proc.devRef .tc r) :=
  StableHlo.after_of_writes_sub hostOps4 _ hostOps4_writes h

/-- A region leaves every buffer that is no output window's array as it found it. -/
theorem keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((dat.arrAt_in w (hb w rfl) _).trans (hA w))
  · exact Pipeline.withArrays_of_ne _ c _ _ b fun w e => h ⟨w, e⟩

theorem W2_in (c : Dev nD) (w : Fin cfg0.W) (hin : (cfg0.win w).isOut = false) :
    W2 m c (Proc.devRef .tc (Pipeline.arrRef spec0 w)) = W1 m c (Proc.devRef .tc (Pipeline.arrRef spec0 w)) :=
  keep (dat0 (Vr1 m) c) launch0.win.arr_inj _ (A_eq0 (Vr1 m) c) _ fun _ e => launch0.win.arr_inj e ▸ hin
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  keep (dat1 (Vr2 m) c) launch1.win.arr_inj _ (A_eq1 (Vr2 m) c) _ fun _ e => launch1.win.arr_inj e ▸ hin

abbrev mainArgs : List (Ref sig .tc) :=
  [main_arg0, main_arg1, main_arg2, main_arg3, main_arg4, main_arg5, main_arg6, main_arg7, main_arg8]

/-- No host operation writes an argument and no region has one as an output window's array. -/
theorem W8_arg (c : Dev nD) (r : Ref sig .tc) (hr : r ∈ mainArgs) : W8 m c (Proc.devRef .tc r) = m ((c : Thread nD τ).loc r) :=
  (keep (dat4 (Vr7 m) c) launch4.win.arr_inj _ (A_eq4 (Vr7 m) c) r
    ((by decide : ∀ r ∈ mainArgs, ∀ w, Pipeline.arrRef spec4 w = r → (cfg4.win w).isOut = false) r hr)).trans <|
  (W7_of m c r ((by decide : ∀ r ∈ mainArgs, r ∉ hostOps4_W) r hr)).trans <|
  (keep (dat3 (Vr5 m) c) launch3.win.arr_inj _ (A_eq3 (Vr5 m) c) r
    ((by decide : ∀ r ∈ mainArgs, ∀ w, Pipeline.arrRef spec3 w = r → (cfg3.win w).isOut = false) r hr)).trans <|
  (keep (dat2 (Vr4 m) c) launch2.win.arr_inj _ (A_eq2 (Vr4 m) c) r
    ((by decide : ∀ r ∈ mainArgs, ∀ w, Pipeline.arrRef spec2 w = r → (cfg2.win w).isOut = false) r hr)).trans <|
  (W4_of m c r ((by decide : ∀ r ∈ mainArgs, r ∉ hostOps2_W) r hr)).trans <|
  (keep (dat1 (Vr2 m) c) launch1.win.arr_inj _ (A_eq1 (Vr2 m) c) r
    ((by decide : ∀ r ∈ mainArgs, ∀ w, Pipeline.arrRef spec1 w = r → (cfg1.win w).isOut = false) r hr)).trans <|
  (keep (dat0 (Vr1 m) c) launch0.win.arr_inj _ (A_eq0 (Vr1 m) c) r
    ((by decide : ∀ r ∈ mainArgs, ∀ w, Pipeline.arrRef spec0 w = r → (cfg0.win w).isOut = false) r hr)).trans <|
  W1_of m c r ((by decide : ∀ r ∈ mainArgs, r ∉ hostOps0_W) r hr)

/-- Every argument ends as launched, read off the last boundary's contents. -/
theorem args_kept (c : Dev nD) (s : MemSt nD τ sig (Elt F))
    (h : ∀ b ∈ Pipeline.ucRefs τ sig, s.mem (((c : Thread nD τ)).1, b) = W8 m c b) :
    mainArgs.Forall fun b => s.mem ((c.tc : Thread nD τ).loc b) = m ((c.tc : Thread nD τ).loc b) :=
  List.forall_iff_forall_mem.mpr fun b hb =>
    (h _ (mem_uc b ((by decide : ∀ b ∈ mainArgs, ¬ (Proc.devRef .tc b : DevRef τ sig).isScoped) b hb))).trans (W8_arg m c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W8 m c b)
    (fun r h c => args_kept m c r.2 (h c)) (run m ρ)

theorem W8_out (c : Dev nD) : W8 m c (Proc.devRef .tc main_v58) = (dat4 (Vr7 m) c).arrAt 4 cfg4.N :=
  Pipeline.withArrays_arr spec4 launch4.win.arr_inj c _ _ 4

end Cert.Kernel.Hand

end
-- ==== Proof.KI.Gather.lean ====
import proofs.«402943_j87462714016644_3_alg».proof.Proof.Gen.KernelIdeal.Launch
import proofs.«402943_j87462714016644_3_alg».proof.Proof.Gen.KernelIdeal.Skeleton
import proofs.«402943_j87462714016644_3_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The reset of the accumulator is taken where the inner grid coordinate is zero,
abbrev gatherReset (i : grid0.Coords) : Prop :=
  (Scalar.cmpi .ne (Scalar.extui (Scalar.cmpi .eq (BitVec.ofNat 32 (i 1).val) 0#32)) 0#32) = 1#1
-- and the output store where it is 24.
abbrev gatherStore (i : grid0.Coords) : Prop := k0_cond2 i = 1#1

theorem gatherReset_iff : ∀ t : Fin grid0.N, gatherReset (grid0.coords t) ↔ t.val % 25 = 0 := by decide +kernel
theorem gatherStore_iff : ∀ t : Fin grid0.N, gatherStore (grid0.coords t) ↔ t.val % 25 = 24 := by decide +kernel

theorem gather_excl (t : Fin grid0.N) : ¬(gatherReset (grid0.coords t) ∧ gatherStore (grid0.coords t)) :=
  fun ⟨a, b⟩ => by have := (gatherReset_iff t).mp a; have := (gatherStore_iff t).mp b; omega

theorem zeroOffs : (![0, 0] : Fin 2 → ℕ) = fun _ => 0 := by
  funext a; fin_cases a <;> rfl

-- A last store through the whole-shape rectangle at zero offsets leaves its payload, whatever was there.
theorem wholeStore_read {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

set_option maxHeartbeats 1000000 in
-- The body at coordinates `i`: the accumulator ends at the point's product added to zero where the reset is
-- taken and to what it held otherwise; the output buffer ends at the scaled accumulator where the store is taken.
theorem gather_body (c : Dev nD) (E : Set ℕ) (i : grid0.Coords)
    (arg2 : Memref sig .tc .vmem S50000x128 .bf16) (harg2 : arg2.IsWhole)
    (arg3 : Memref sig .tc .vmem S1x2048 .i32) (harg3 : arg3.IsWhole)
    (arg4 : Memref sig .tc .vmem S2048x1 .f32) (harg4 : arg4.IsWhole)
    (arg5 : Memref sig .tc .vmem S2048x128 .bf16) (harg5 : arg5.IsWhole)
    (arg6 : Memref sig .tc .vmem S2048x128 .f32) (harg6 : arg6.IsWhole)
    (hx : ¬(gatherReset i ∧ gatherStore i))
    (x0 : Vec F S50000x128 .bf16) (x1 : Vec F S1x2048 .i32) (x2 : Vec F S2048x1 .f32) (x3 : Vec F S2048x128 .bf16)
    (xs : Vec F S2048x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (if gatherStore i then k0_pay3 (k0_pay2 i x1 (View.ld x0 (Rect.unit (s := S50000x128) (k0_off1 i) S2000x128.size (k0_off1_inb i))) (if gatherReset i then k0_pay1 (F := F) else xs)) x2 else x3)
            ∗ owns (c : Thread nD τ) arg6 fullShare (k0_pay2 i x1 (View.ld x0 (Rect.unit (s := S50000x128) (k0_off1 i) S2000x128.size (k0_off1_inb i))) (if gatherReset i then k0_pay1 (F := F) else xs))) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf6
  by_cases hc0 : gatherReset i <;> by_cases hc1 : gatherStore i
  · exact absurd ⟨hc0, hc1⟩ hx
  all_goals
    first | rw [if_pos hc0] | rw [if_neg hc0]
    first | rw [if_pos hc1] | rw [if_neg hc1]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
      | with_reducible exact harg5.read_unread _
      | sl_unfold_words
        rw [wholeStore_read (S := S2048x128) _ _ zeroOffs]
        simp only [View.readCov_unit_zero (S := S2048x128) _ zeroOffs, View.readAt_eq_ld, harg2.read_unread,
          harg3.read_unread, harg4.read_unread, harg6.read_unread, View.ld_unit_zero (S := S1x2048) zeroOffs,
          View.ld_unit_zero (S := S2048x128) zeroOffs, View.ld_unit_zero (S := S2048x1) zeroOffs]
    iexists _; isplitr
    swap; · iexact H6
    ipureintro
    sl_unfold_words
    rw [wholeStore_read (S := S2048x128) _ _ zeroOffs]
    simp only [View.readCov_unit_zero (S := S2048x128) _ zeroOffs, View.readAt_eq_ld, harg2.read_unread,
      harg3.read_unread, harg6.read_unread, View.ld_unit_zero (S := S1x2048) zeroOffs,
      View.ld_unit_zero (S := S2048x128) zeroOffs]

end Cert.KernelIdeal.Hand

end
-- ==== Proof.KI.Region0.lean ====
import proofs.«402943_j87462714016644_3_alg».proof.Proof.KI.Gather

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 (c : Dev nD) (t : Fin cfg0.N) : Vec F S2000x128 .bf16 :=
  View.ld (iblk0 V c 0 t) (Rect.unit (s := S50000x128) (k0_off1 (grid0.coords t)) S2000x128.size (k0_off1_inb (grid0.coords t)))

-- The accumulator after point `n`: the point's product added to zero at the first point of a run of the
-- inner axis, to what the point before left otherwise.
def acc0 (c : Dev nD) : (n : ℕ) → n < cfg0.N → Vec F S2048x128 .f32
  | 0, hn => k0_pay2 (grid0.coords ⟨0, hn⟩) (iblk0 V c 1 ⟨0, hn⟩) (rows0 V c ⟨0, hn⟩) (k0_pay1 (F := F))
  | n + 1, hn => k0_pay2 (grid0.coords ⟨n + 1, hn⟩) (iblk0 V c 1 ⟨n + 1, hn⟩) (rows0 V c ⟨n + 1, hn⟩)
      (if (n + 1) % 25 = 0 then k0_pay1 (F := F) else acc0 c n (Nat.lt_of_succ_lt hn))

theorem acc0_reset (c : Dev nD) (t : Fin cfg0.N) (h : t.val % 25 = 0) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (k0_pay1 (F := F)) := by
  obtain ⟨n, hn⟩ := t
  cases n with
  | zero => rfl
  | succ n => exact congrArg (k0_pay2 _ _ _) (if_pos h)

theorem acc0_step (c : Dev nD) (t : Fin cfg0.N) (h : t.val % 25 ≠ 0) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (acc0 V c (t.val - 1) (by omega)) := by
  obtain ⟨n, hn⟩ := t
  cases n with
  | zero => exact absurd rfl h
  | succ n => exact congrArg (k0_pay2 _ _ _) (if_neg h)

-- Whatever the accumulator held before point `t` (what the point before left, if there is one), after it it holds `acc0` at `t`.
theorem acc0_next (c : Dev nD) (t : Fin cfg0.N) (xs : Vec F S2048x128 .f32)
    (hx : ∀ hz : t.val ≠ 0, xs = acc0 V c (t.val - 1) (by omega)) :
    acc0 V c t.val t.isLt = k0_pay2 (grid0.coords t) (iblk0 V c 1 t)
      (View.ld (iblk0 V c 0 t) (Rect.unit (s := S50000x128) (k0_off1 (grid0.coords t)) S2000x128.size (k0_off1_inb (grid0.coords t))))
      (if gatherReset (grid0.coords t) then k0_pay1 (F := F) else xs) := by
  by_cases h0 : t.val % 25 = 0
  · rw [acc0_reset V c t h0, if_pos ((gatherReset_iff t).mpr h0)]
  · rw [acc0_step V c t h0, if_neg (fun h => h0 ((gatherReset_iff t).mp h)), hx (fun e => h0 (by rw [e]))]

-- Between points the scratch accumulator is owned at some contents, which after a point are what that point left.
def Phi0 (c : Dev nD) (n : ℕ) (h : n ≤ cfg0.N) : sProp 𝕄 :=
  iprop(∃ xs, ⌜∀ hz : n ≠ 0, xs = acc0 V c (n - 1) (by omega)⌝
    ∗ owns (c : Thread nD τ) (Memref.whole cc0_scratch0) fullShare xs
    ∗ Pipeline.scopedRestBut (Ix := Unit) (Name := ℕ) (U := UR sig nD τ) (Lvl := ℕ) (Val := Elt F) spec0 c [cc0_scratch0]
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

theorem owed0 (c : Dev nD) (t : Fin (cfg0.N + 1)) : (dat0 V c).owed t = 0 := by dsimp only [dat0]
theorem share0 (c : Dev nD) (w : Fin cfg0.W) : (dat0 V c).q w = fullShare := by dsimp only [dat0]

theorem PhiA0_eq (c : Dev nD) :
    (Pipeline.ΦA spec0 c : sProp 𝕄)
      = iprop(iprop(iprop((∃ d, owns (c : Thread nD τ) (Memref.whole cc0_scratch0) fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [owns_whole]; try rfl

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

-- After point `t` the output block is the scaled accumulator where the store is taken (the points ≡ 24 mod 25), and as found elsewhere.
theorem leaves0_3 (c : Dev nD) (t : Fin cfg0.N) (xs : Vec F S2048x128 .f32)
    (hx : ∀ hz : t.val ≠ 0, xs = acc0 V c (t.val - 1) (by omega)) (d) :
    owns (c : Thread nD τ) (st0_3 t) fullShare (if gatherStore (grid0.coords t) then k0_pay3 (k0_pay2 (grid0.coords t) (iblk0 V c 1 t)
      (View.ld (iblk0 V c 0 t) (Rect.unit (s := S50000x128) (k0_off1 (grid0.coords t)) S2000x128.size (k0_off1_inb (grid0.coords t))))
      (if gatherReset (grid0.coords t) then k0_pay1 (F := F) else xs)) (iblk0 V c 2 t) else (dat0 V c).before 3 t d)
      ⊢ ((dat0 V c).leavesExact 3 t : sProp 𝕄) := by
  by_cases h1 : t.val % 25 = 24
  · have hc1 : gatherStore (grid0.coords t) := (gatherStore_iff t).mpr h1
    rw [if_pos hc1, ← acc0_next V c t xs hx, ← after0_3]
    unfold Dat.leavesExact
    rw [show cfg0.idle 3 (grid0.coords t) = false from by
      show (!(k0_cond2 (grid0.coords t) == 1#1)) = false
      rw [show k0_cond2 (grid0.coords t) = 1#1 from hc1]; rfl]
  · have hc1 : ¬gatherStore (grid0.coords t) := fun h => h1 ((gatherStore_iff t).mp h)
    rw [if_neg hc1, Dat.leavesExact_idle (dat0 V c) 3 t
      (show cfg0.idle 3 (grid0.coords t) = true from by
        show (!(k0_cond2 (grid0.coords t) == 1#1)) = true
        rw [Bool.not_eq_true', beq_eq_false_iff_ne]; exact hc1)
      (Bool.eq_false_iff.mpr fun hf => h1 ((flush0_3 t).mp hf))]
    iintro H; iexists _; iexact H

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t)

set_option maxHeartbeats 4000000 in
-- The body at any point: the invariant hands it the accumulator and takes it back at this point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [after0_0, after0_1, after0_2,
    show (dat0 V c).owesAt () t.succ = (dat0 V c).owesAt () t.castSucc from rfl,
    show (dat0 V c).Φ t.succ = Phi0 V c (t.val + 1) t.isLt from rfl,
    show (dat0 V c).Φ t.castSucc = Phi0 V c t.val (Nat.le_of_lt t.isLt) from rfl]
  unfold Phi0
  iintro ⟨⟨%xs, %hx, HS, Hrest, Hg⟩, Ho, ⟨%d0, H0⟩, ⟨%d1, H1⟩, ⟨%d2, H2⟩, ⟨%d3, H3⟩⟩
  iapply (gather_body c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (Memref.isWhole_whole _) (gather_excl t)
    (iblk0 V c 0 t) (iblk0 V c 1 t) (iblk0 V c 2 t) ((dat0 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · iexists _; isplitr; · ipureintro; exact fun _ => (acc0_next V c t xs hx).symm
    isplitl [HS]; · iexact HS
    isplitl [Hrest]; · iexact Hrest
    iexact Hg
  isplitl [Ho]; · iexact Ho
  isplitl [H0]; · iexact H0
  isplitl [H1]; · iexact H1
  isplitl [H2]; · iexact H2
  iapply (leaves0_3 V c t xs hx d3); iexact H3

theorem body_obligation0 (c : Dev nD) :
    BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq]; show _ ⊢ Phi0 V c 0 (Nat.zero_le _); unfold Phi0
  iintro ⟨⟨⟨%d, HS⟩, Hrest⟩, Hg⟩
  iexists d; isplitr; · ipureintro; exact fun hz => absurd rfl hz
  isplitl [HS]; · iexact HS
  isplitl [Hrest]; · iexact Hrest
  iexact Hg

theorem hout0 (c : Dev nD) : (dat0 V c).Φ (Fin.last cfg0.N) ⊢ (Pipeline.ΦA spec0 c : sProp 𝕄) := by
  rw [PhiA0_eq]; show Phi0 V c (Fin.last cfg0.N).val (Nat.le_of_lt_succ (Fin.last cfg0.N).isLt) ⊢ _; unfold Phi0
  iintro ⟨%xs, -, HS, Hrest, Hg⟩
  isplitl [HS Hrest]
  · isplitl [HS]
    · iexists _; iexact HS
    iexact Hrest
  iexact Hg

end Cert.KernelIdeal.Hand

end
-- ==== Proof.KI.Region1.lean ====
import proofs.«402943_j87462714016644_3_alg».proof.Proof.Gen.KernelIdeal.Launch
import proofs.«402943_j87462714016644_3_alg».proof.Proof.Gen.KernelIdeal.Skeleton
import proofs.«402943_j87462714016644_3_alg».proof.Proof.Gen.KernelIdeal.Points
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S2000x128 .f32
  | 0, hn => k1_pay2 (grid1.coords ⟨0, hn⟩) (iblk1 V c 1 ⟨0, hn⟩) (iblk1 V c 0 ⟨0, hn⟩) (k1_pay1 (F := F))
  | n + 1, hn => k1_pay2 (grid1.coords ⟨n + 1, hn⟩) (iblk1 V c 1 ⟨n + 1, hn⟩) (iblk1 V c 0 ⟨n + 1, hn⟩)
      (if (n + 1) % 293 = 0 then k1_pay1 (F := F) else acc1 c n (Nat.lt_of_succ_lt hn))

theorem acc1_reset (c : Dev nD) (t : Fin cfg1.N) (h : t.val % 293 = 0) :
    acc1 V c t.val t.isLt = k1_pay2 (grid1.coords t) (iblk1 V c 1 t) (iblk1 V c 0 t) (k1_pay1 (F := F)) := by
  obtain ⟨_ | n, hn⟩ := t
  · rfl
  · exact congrArg (k1_pay2 _ _ _) (if_pos h)

theorem acc1_step (c : Dev nD) (t : Fin cfg1.N) (h : t.val % 293 ≠ 0) :
    acc1 V c t.val t.isLt = k1_pay2 (grid1.coords t) (iblk1 V c 1 t) (iblk1 V c 0 t) (acc1 V c (t.val - 1) (by omega)) := by
  obtain ⟨_ | n, hn⟩ := t
  · exact absurd (Nat.zero_mod _) h
  · exact congrArg (k1_pay2 _ _ _) (if_neg h)

abbrev scM1 : Memref sig .tc .vmem S2000x128 .f32 := Memref.whole cc1_scratch0

def PhiS1_rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

-- the invariant before position n: the accumulator of the point before, once there is one
def PhiS1 (c : Dev nD) : (n : ℕ) → n ≤ cfg1.N → sProp 𝕄
  | 0, _ => Pipeline.ΦA spec1 c
  | n + 1, hn => iprop(owns (c : Thread nD τ) scM1 fullShare (acc1 V c n hn) ∗ PhiS1_rest c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 4 t) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = k1_pay3 (acc1 V c t.val t.isLt) (iblk1 V c 4 t) (iblk1 V c 2 t) (iblk1 V c 3 t) := rfl

theorem owed1 (c : Dev nD) (t : Fin (cfg1.N + 1)) : (dat1 V c).owed t = 0 := rfl
theorem share1 (c : Dev nD) (w : Fin cfg1.W) : (dat1 V c).q w = fullShare := rfl

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 293 = 0 :=
  (by decide +kernel : ∀ t : Fin grid1.N, cond1_0 (grid1.coords t) ↔ t.val % 293 = 0)
theorem hcond1_1 : ∀ t : Fin cfg1.N, cond1_1 (grid1.coords t) ↔ t.val % 293 = 292 :=
  (by decide +kernel : ∀ t : Fin grid1.N, cond1_1 (grid1.coords t) ↔ t.val % 293 = 292)

-- the accumulator after point t, from whatever the scratch held before it
theorem acc1_if (c : Dev nD) (t : Fin cfg1.N) (x : Vec F S2000x128 .f32) (hx : ∀ hz : t.val ≠ 0, x = acc1 V c (t.val - 1) (by omega)) :
    acc1 V c t.val t.isLt = k1_pay2 (grid1.coords t) (iblk1 V c 1 t) (iblk1 V c 0 t) (if cond1_0 (grid1.coords t) then k1_pay1 (F := F) else x) := by
  by_cases h : t.val % 293 = 0
  · rw [acc1_reset V c t h, if_pos ((hcond1_0 t).mpr h)]
  · rw [acc1_step V c t h, if_neg (mt (hcond1_0 t).mp h), hx fun hz => h (by rw [hz])]

theorem zoff1 : (![0, 0] : Fin 2 → Nat) = fun _ => 0 := by funext a; fin_cases a <;> rfl

-- a store that fills the whole buffer decides what it reads, whatever it held and whatever was stored before
theorem read_store_last1 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
-- the scratch ends at this tile's contribution added to zero (first edge tile) or to what it held; the output's buffer, at the last edge tile, at the finished block
theorem kernel1 (c : Dev nD) (E : Set ℕ) (i : grid1.Coords)
    (arg2 : Memref sig .tc .vmem S2048x128 .bf16) (harg2 : arg2.IsWhole) (arg3 : Memref sig .tc .vmem S1x2048 .i32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S2000x128 .f32) (harg6 : arg6.IsWhole) (arg7 : Memref sig .tc .vmem S2000x128 .f32) (harg7 : arg7.IsWhole)
    (arg8 : Memref sig .tc .vmem S2000x128 .f32) (harg8 : arg8.IsWhole)
    (x0 : Vec F S2048x128 .bf16) (x1 : Vec F S1x2048 .i32) (x2 : Vec F S128x128 .f32) (x3 : Vec F S1x128 .f32)
    (x4 xo xs s o : Vec F S2000x128 .f32)
    (hs : s = k1_pay2 i x1 x0 (if cond1_0 i then k1_pay1 (F := F) else xs))
    (ho : o = if cond1_1 i then k1_pay3 s x4 x2 x3 else xo) (hne : cond1_0 i → ¬cond1_1 i) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare o
        ∗ owns (c : Thread nD τ) arg8 fullShare s) -∗ K ⟨⟩))
      ⊢ wp frame (wpE (defs₀ (F := F)) Variants.none c none) E
          (cc1__scatter_kernel i arg2 harg2 arg3 harg3 arg4 harg4 arg5 harg5 arg6 harg6 arg7 harg7 arg8 harg8) K := by
  subst hs ho
  simp only [cc1__scatter_kernel_eq_skeleton]; unfold cc1__scatter_kernel_skel owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  by_cases hc0 : cond1_0 i <;> by_cases hc1 : cond1_1 i <;> first | exact absurd hc1 (hne hc0) | (
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H3]; swap; isplitl [H4]; swap; isplitl [HO]; swap
    all_goals
      iexists _; isplitr
      swap; · iassumption
      ipureintro
      first
      | with_reducible rfl
      | sl_unfold_words
        rw [read_store_last1 _ _ zoff1]
        simp only [View.readAt_eq_ld, View.ld_unit_zero (S := S1x2048) zoff1, View.ld_unit_zero (S := S2048x128) zoff1, View.ld_unit_zero (S := S2000x128) zoff1, View.ld_unit_zero (S := S128x128) zoff1, View.ld_unit_zero (S := S1x128) zoff1, View.readCov_unit_zero (S := S2000x128) _ zoff1])

theorem before1_in (c : Dev nD) : ∀ w : Fin 6, w ≠ 5 → ∀ (t : Fin cfg1.N) d, (dat1 V c).before w t d = (dat1 V c).after w t
  | 0, _, t, d | 1, _, t, d | 2, _, t, d | 3, _, t, d | 4, _, t, d =>
    ((dat1 V c).before_in_eq_fetched _ rfl (fun _ => rfl) (fun _ _ _ => rfl) (fun _ => rfl) t d).trans rfl
  | 5, h, _, _ => absurd rfl h
  | ⟨_ + 6, h⟩, _, _, _ => absurd h (by omega)

theorem after1_in (c : Dev nD) : ∀ w : Fin 6, w ≠ 5 → ∀ t : Fin cfg1.N,
    (dat1 V c).leavesExact w t = owns (c : Thread nD τ) ((cfg1.win w).stage (cfg1.slots t w)) fullShare ((dat1 V c).after w t)
  | 0, _, _ | 1, _, _ | 2, _, _ | 3, _, _ | 4, _, _ => rfl
  | 5, h, _ => absurd rfl h
  | ⟨_ + 6, h⟩, _, _ => absurd h (by omega)

theorem idleAt1_5 (i : grid1.Coords) (h : ¬cond1_1 i) : cfg1.idle 5 i = true := by
  show (!(k1_cond2 i == 1#1)) = true
  rw [Bool.not_eq_true', beq_eq_false_iff_ne]; exact h
theorem liveAt1_5 (i : grid1.Coords) (h : cond1_1 i) : cfg1.idle 5 i = false := by
  show (!(k1_cond2 i == 1#1)) = false
  rw [Bool.not_eq_false', beq_iff_eq]; exact h

-- the output window's buffer: at the finished block where the body stores it, as found elsewhere
theorem after1_out (c : Dev nD) (t : Fin cfg1.N) (d) :
    owns (c : Thread nD τ) (st1_5 t) fullShare (if cond1_1 (grid1.coords t) then (dat1 V c).after 5 t else (dat1 V c).before 5 t d)
      ⊢ (dat1 V c).leavesExact 5 t := by
  by_cases h : cond1_1 (grid1.coords t)
  · rw [if_pos h]; unfold Dat.leavesExact; rw [liveAt1_5 _ h]
  · rw [if_neg h, Dat.leavesExact_idle _ 5 t (idleAt1_5 _ h) (Bool.eq_false_iff.mpr (mt (flush1_5 t).mp (mt (hcond1_1 t).mpr h)))]
    iintro H; iexists d; iexact H

-- before any position the scratch is owned at some contents: what the point before left, once there is one
theorem PhiS1_open (c : Dev nD) (n : ℕ) (h : n ≤ cfg1.N) :
    PhiS1 V c n h ⊢ iprop(∃ x, ⌜∀ hz : n ≠ 0, x = acc1 V c (n - 1) (by omega)⌝ ∗ owns (c : Thread nD τ) scM1 fullShare x ∗ PhiS1_rest c) := by
  cases n with
  | zero =>
    show (Pipeline.ΦA spec1 c : sProp 𝕄) ⊢ _
    unfold Pipeline.ΦA PhiS1_rest; rw [scopedRest1_split]; simp only [scM1, owns_whole]
    iintro ⟨⟨⟨%d, HS⟩, Hrest⟩, Hg⟩
    iexists d; isplitr; · ipureintro; exact fun hz => absurd rfl hz
    isplitl [HS]; · iexact HS
    isplitl [Hrest]; · iexact Hrest
    iexact Hg
  | succ n =>
    rw [PhiS1]; iintro H; iexists acc1 V c n h; isplitr; · ipureintro; exact fun _ => rfl
    iexact H

-- and after any, the same with the accumulator's contents forgotten
theorem PhiS1_close (c : Dev nD) (n : ℕ) (h : n ≤ cfg1.N) : PhiS1 V c n h ⊢ (Pipeline.ΦA spec1 c : sProp 𝕄) := by
  cases n with
  | zero => exact .rfl
  | succ n =>
    rw [PhiS1]; unfold Pipeline.ΦA PhiS1_rest; rw [scopedRest1_split]; simp only [scM1, owns_whole]
    iintro ⟨HS, Hrest, Hg⟩
    isplitr [Hg]
    · isplitl [HS]; · iexists _; iexact HS
      iexact Hrest
    iexact Hg

def bodyPre1 (c : Dev nD) (t : Fin cfg1.N) (w : Fin 6) : sProp 𝕄 :=
  iprop(∃ d, owns (c : Thread nD τ) ((cfg1.win w).stage (cfg1.slots t w)) fullShare ((dat1 V c).before w t d))

set_option maxHeartbeats 4000000 in
theorem sound_body1 (c : Dev nD) (t : Fin cfg1.N) :
    iprop(PhiS1 V c t.val (Nat.le_of_lt t.isLt) ∗ (dat1 V c).owesAt () t.castSucc
      ∗ bodyPre1 V c t 0 ∗ bodyPre1 V c t 1 ∗ bodyPre1 V c t 2 ∗ bodyPre1 V c t 3 ∗ bodyPre1 V c t 4 ∗ bodyPre1 V c t 5)
      ⊢ wp frame (wpE (defs₀ (F := F)) Variants.none c none) Set.univ (bodyAt1 t) (fun _ =>
        iprop((owns (c : Thread nD τ) scM1 fullShare (acc1 V c t.val t.isLt) ∗ PhiS1_rest c) ∗ (dat1 V c).owesAt () t.castSucc
          ∗ (dat1 V c).leavesExact (0 : Fin 6) t ∗ (dat1 V c).leavesExact (1 : Fin 6) t ∗ (dat1 V c).leavesExact (2 : Fin 6) t
          ∗ (dat1 V c).leavesExact (3 : Fin 6) t ∗ (dat1 V c).leavesExact (4 : Fin 6) t ∗ (dat1 V c).leavesExact (5 : Fin 6) t)) := by
  simp (disch := decide) only [bodyPre1, before1_in V c, after1_in V c]
  iintro ⟨HΦ, Ho, ⟨%d0, H0⟩, ⟨%d1, H1⟩, ⟨%d2, H2⟩, ⟨%d3, H3⟩, ⟨%d4, H4⟩, ⟨%d5, H5⟩⟩
  ihave HΦ := (PhiS1_open V c t.val (Nat.le_of_lt t.isLt)) $$ HΦ
  icases HΦ with ⟨%x, %hx, HS, Hrest⟩
  iapply (kernel1 c Set.univ _ _ _ _ _ _ _ _ _ _ _ _ _ _ _
    (iblk1 V c 0 t) (iblk1 V c 1 t) (iblk1 V c 2 t) (iblk1 V c 3 t) (iblk1 V c 4 t) ((dat1 V c).before 5 t d5) x _
    (if cond1_1 (grid1.coords t) then (dat1 V c).after 5 t else (dat1 V c).before 5 t d5) (acc1_if V c t x hx) rfl
    (fun h0 h1 => by have := (hcond1_0 t).mp h0; have := (hcond1_1 t).mp h1; omega) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest]
  · isplitl [HS]; · iexact HS
    iexact Hrest
  isplitl [Ho]; · iexact Ho
  isplitl [H0]; · iexact H0
  isplitl [H1]; · iexact H1
  isplitl [H2]; · iexact H2
  isplitl [H3]; · iexact H3
  isplitl [H4]; · iexact H4
  iapply (after1_out V c t d5); iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := PhiS1_close V c cfg1.N le_rfl

end Cert.KernelIdeal.Hand

end
-- ==== Proof.KI.Region2.lean ====
import proofs.«402943_j87462714016644_3_alg».proof.Proof.KI.Gather

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rows2 (c : Dev nD) (t : Fin cfg2.N) : Vec F S2000x128 .bf16 :=
  View.ld (iblk2 V c 0 t) (Rect.unit (s := S50000x128) (k2_off1 (grid2.coords t)) S2000x128.size (k2_off1_inb (grid2.coords t)))

-- The accumulator after point `n`: the point's product added to zero at the first point of a run of the
-- inner axis, to what the point before left otherwise.
def acc2 (c : Dev nD) : (n : ℕ) → n < cfg2.N → Vec F S2048x128 .f32
  | 0, hn => k2_pay2 (grid2.coords ⟨0, hn⟩) (iblk2 V c 1 ⟨0, hn⟩) (rows2 V c ⟨0, hn⟩) (k2_pay1 (F := F))
  | n + 1, hn => k2_pay2 (grid2.coords ⟨n + 1, hn⟩) (iblk2 V c 1 ⟨n + 1, hn⟩) (rows2 V c ⟨n + 1, hn⟩)
      (if (n + 1) % 25 = 0 then k2_pay1 (F := F) else acc2 c n (Nat.lt_of_succ_lt hn))

theorem acc2_reset (c : Dev nD) (t : Fin cfg2.N) (h : t.val % 25 = 0) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (k2_pay1 (F := F)) := by
  obtain ⟨n, hn⟩ := t
  cases n with
  | zero => rfl
  | succ n => exact congrArg (k2_pay2 _ _ _) (if_pos h)

theorem acc2_step (c : Dev nD) (t : Fin cfg2.N) (h : t.val % 25 ≠ 0) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (acc2 V c (t.val - 1) (by omega)) := by
  obtain ⟨n, hn⟩ := t
  cases n with
  | zero => exact absurd rfl h
  | succ n => exact congrArg (k2_pay2 _ _ _) (if_neg h)

-- Whatever the accumulator held before point `t` (what the point before left, if there is one), after it it holds `acc2` at `t`.
theorem acc2_next (c : Dev nD) (t : Fin cfg2.N) (xs : Vec F S2048x128 .f32)
    (hx : ∀ hz : t.val ≠ 0, xs = acc2 V c (t.val - 1) (by omega)) :
    acc2 V c t.val t.isLt = k2_pay2 (grid2.coords t) (iblk2 V c 1 t)
      (View.ld (iblk2 V c 0 t) (Rect.unit (s := S50000x128) (k2_off1 (grid2.coords t)) S2000x128.size (k2_off1_inb (grid2.coords t))))
      (if gatherReset (grid2.coords t) then k2_pay1 (F := F) else xs) := by
  by_cases h0 : t.val % 25 = 0
  · rw [acc2_reset V c t h0, if_pos ((gatherReset_iff t).mpr h0)]
  · rw [acc2_step V c t h0, if_neg (fun h => h0 ((gatherReset_iff t).mp h)), hx (fun e => h0 (by rw [e]))]

-- Between points the scratch accumulator is owned at some contents, which after a point are what that point left.
def Phi2 (c : Dev nD) (n : ℕ) (h : n ≤ cfg2.N) : sProp 𝕄 :=
  iprop(∃ xs, ⌜∀ hz : n ≠ 0, xs = acc2 V c (n - 1) (by omega)⌝
    ∗ owns (c : Thread nD τ) (Memref.whole cc2_scratch0) fullShare xs
    ∗ Pipeline.scopedRestBut (Ix := Unit) (Name := ℕ) (U := UR sig nD τ) (Lvl := ℕ) (Val := Elt F) spec2 c [cc2_scratch0]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem owed2 (c : Dev nD) (t : Fin (cfg2.N + 1)) : (dat2 V c).owed t = 0 := by dsimp only [dat2]
theorem share2 (c : Dev nD) (w : Fin cfg2.W) : (dat2 V c).q w = fullShare := by dsimp only [dat2]

theorem PhiA2_eq (c : Dev nD) :
    (Pipeline.ΦA spec2 c : sProp 𝕄)
      = iprop(iprop(iprop((∃ d, owns (c : Thread nD τ) (Memref.whole cc2_scratch0) fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [owns_whole]; try rfl

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

-- After point `t` the output block is the scaled accumulator where the store is taken (the points ≡ 24 mod 25), and as found elsewhere.
theorem leaves2_3 (c : Dev nD) (t : Fin cfg2.N) (xs : Vec F S2048x128 .f32)
    (hx : ∀ hz : t.val ≠ 0, xs = acc2 V c (t.val - 1) (by omega)) (d) :
    owns (c : Thread nD τ) (st2_3 t) fullShare (if gatherStore (grid2.coords t) then k2_pay3 (k2_pay2 (grid2.coords t) (iblk2 V c 1 t)
      (View.ld (iblk2 V c 0 t) (Rect.unit (s := S50000x128) (k2_off1 (grid2.coords t)) S2000x128.size (k2_off1_inb (grid2.coords t))))
      (if gatherReset (grid2.coords t) then k2_pay1 (F := F) else xs)) (iblk2 V c 2 t) else (dat2 V c).before 3 t d)
      ⊢ ((dat2 V c).leavesExact 3 t : sProp 𝕄) := by
  by_cases h1 : t.val % 25 = 24
  · have hc1 : gatherStore (grid2.coords t) := (gatherStore_iff t).mpr h1
    rw [if_pos hc1, ← acc2_next V c t xs hx, ← after2_3]
    unfold Dat.leavesExact
    rw [show cfg2.idle 3 (grid2.coords t) = false from by
      show (!(k2_cond2 (grid2.coords t) == 1#1)) = false
      rw [show k2_cond2 (grid2.coords t) = 1#1 from hc1]; rfl]
  · have hc1 : ¬gatherStore (grid2.coords t) := fun h => h1 ((gatherStore_iff t).mp h)
    rw [if_neg hc1, Dat.leavesExact_idle (dat2 V c) 3 t
      (show cfg2.idle 3 (grid2.coords t) = true from by
        show (!(k2_cond2 (grid2.coords t) == 1#1)) = true
        rw [Bool.not_eq_true', beq_eq_false_iff_ne]; exact hc1)
      (Bool.eq_false_iff.mpr fun hf => h1 ((flush2_3 t).mp hf))]
    iintro H; iexists _; iexact H

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 4000000 in
-- The body at any point: the invariant hands it the accumulator and takes it back at this point's contents.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [after2_0, after2_1, after2_2,
    show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl]
  unfold Phi2
  iintro ⟨⟨%xs, %hx, HS, Hrest, Hg⟩, Ho, ⟨%d0, H0⟩, ⟨%d1, H1⟩, ⟨%d2, H2⟩, ⟨%d3, H3⟩⟩
  iapply (gather_body c Set.univ (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (Memref.isWhole_whole _) (gather_excl t)
    (iblk2 V c 0 t) (iblk2 V c 1 t) (iblk2 V c 2 t) ((dat2 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · iexists _; isplitr; · ipureintro; exact fun _ => (acc2_next V c t xs hx).symm
    isplitl [HS]; · iexact HS
    isplitl [Hrest]; · iexact Hrest
    iexact Hg
  isplitl [Ho]; · iexact Ho
  isplitl [H0]; · iexact H0
  isplitl [H1]; · iexact H1
  isplitl [H2]; · iexact H2
  iapply (leaves2_3 V c t xs hx d3); iexact H3

theorem body_obligation2 (c : Dev nD) :
    BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [PhiA2_eq]; show _ ⊢ Phi2 V c 0 (Nat.zero_le _); unfold Phi2
  iintro ⟨⟨⟨%d, HS⟩, Hrest⟩, Hg⟩
  iexists d; isplitr; · ipureintro; exact fun hz => absurd rfl hz
  isplitl [HS]; · iexact HS
  isplitl [Hrest]; · iexact Hrest
  iexact Hg

theorem hout2 (c : Dev nD) : (dat2 V c).Φ (Fin.last cfg2.N) ⊢ (Pipeline.ΦA spec2 c : sProp 𝕄) := by
  rw [PhiA2_eq]; show Phi2 V c (Fin.last cfg2.N).val (Nat.le_of_lt_succ (Fin.last cfg2.N).isLt) ⊢ _; unfold Phi2
  iintro ⟨%xs, -, HS, Hrest, Hg⟩
  isplitl [HS Hrest]
  · isplitl [HS]
    · iexists _; iexact HS
    iexact Hrest
  iexact Hg

end Cert.KernelIdeal.Hand

end
-- ==== Proof.KI.Region3.lean ====
import proofs.«402943_j87462714016644_3_alg».proof.Proof.Gen.KernelIdeal.Launch
import proofs.«402943_j87462714016644_3_alg».proof.Proof.Gen.KernelIdeal.Skeleton
import proofs.«402943_j87462714016644_3_alg».proof.Proof.Gen.KernelIdeal.Points
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S2000x128 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩)
      (if (n + 1) % 293 = 0 then k3_pay1 (F := F) else acc3 c n (Nat.lt_of_succ_lt hn))

theorem acc3_reset (c : Dev nD) (t : Fin cfg3.N) (h : t.val % 293 = 0) :
    acc3 V c t.val t.isLt = k3_pay2 (grid3.coords t) (iblk3 V c 1 t) (iblk3 V c 0 t) (k3_pay1 (F := F)) := by
  obtain ⟨_ | n, hn⟩ := t
  · rfl
  · exact congrArg (k3_pay2 _ _ _) (if_pos h)

theorem acc3_step (c : Dev nD) (t : Fin cfg3.N) (h : t.val % 293 ≠ 0) :
    acc3 V c t.val t.isLt = k3_pay2 (grid3.coords t) (iblk3 V c 1 t) (iblk3 V c 0 t) (acc3 V c (t.val - 1) (by omega)) := by
  obtain ⟨_ | n, hn⟩ := t
  · exact absurd (Nat.zero_mod _) h
  · exact congrArg (k3_pay2 _ _ _) (if_neg h)

abbrev scM3 : Memref sig .tc .vmem S2000x128 .f32 := Memref.whole cc3_scratch0

def PhiS3_rest (c : Dev nD) : sProp 𝕄 :=
  iprop(Pipeline.scopedRestBut (Ix := Unit) (Name := ℕ) (U := UR sig nD τ) (Lvl := ℕ) (Val := Elt F) spec3 c [cc3_scratch0] ∗ (∃ r, prngReg c r))

-- the invariant before position n: the accumulator of the point before, once there is one
def PhiS3 (c : Dev nD) : (n : ℕ) → n ≤ cfg3.N → sProp 𝕄
  | 0, _ => Pipeline.ΦA spec3 c
  | n + 1, hn => iprop(owns (c : Thread nD τ) scM3 fullShare (acc3 V c n hn) ∗ PhiS3_rest c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (acc3 V c t.val t.isLt) (iblk3 V c 4 t) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_5 (c : Dev nD) (t : Fin cfg3.N) :
    (dat3 V c).after 5 t = k3_pay3 (acc3 V c t.val t.isLt) (iblk3 V c 4 t) (iblk3 V c 2 t) (iblk3 V c 3 t) := rfl

theorem owed3 (c : Dev nD) (t : Fin (cfg3.N + 1)) : (dat3 V c).owed t = 0 := rfl
theorem share3 (c : Dev nD) (w : Fin cfg3.W) : (dat3 V c).q w = fullShare := rfl

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin cfg3.N, cond3_0 (grid3.coords t) ↔ t.val % 293 = 0 :=
  (by decide +kernel : ∀ t : Fin grid3.N, cond3_0 (grid3.coords t) ↔ t.val % 293 = 0)
theorem hcond3_1 : ∀ t : Fin cfg3.N, cond3_1 (grid3.coords t) ↔ t.val % 293 = 292 :=
  (by decide +kernel : ∀ t : Fin grid3.N, cond3_1 (grid3.coords t) ↔ t.val % 293 = 292)

-- the accumulator after point t, from whatever the scratch held before it
theorem acc3_if (c : Dev nD) (t : Fin cfg3.N) (x : Vec F S2000x128 .f32) (hx : ∀ hz : t.val ≠ 0, x = acc3 V c (t.val - 1) (by omega)) :
    acc3 V c t.val t.isLt = k3_pay2 (grid3.coords t) (iblk3 V c 1 t) (iblk3 V c 0 t) (if cond3_0 (grid3.coords t) then k3_pay1 (F := F) else x) := by
  by_cases h : t.val % 293 = 0
  · rw [acc3_reset V c t h, if_pos ((hcond3_0 t).mpr h)]
  · rw [acc3_step V c t h, if_neg (mt (hcond3_0 t).mp h), hx fun hz => h (by rw [hz])]

theorem zoff3 : (![0, 0] : Fin 2 → Nat) = fun _ => 0 := by funext a; fin_cases a <;> rfl

-- a store that fills the whole buffer decides what it reads, whatever it held and whatever was stored before
theorem read_store_last3 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
-- the scratch ends at this tile's contribution added to zero (first edge tile) or to what it held; the output's buffer, at the last edge tile, at the finished block
theorem kernel3 (c : Dev nD) (E : Set ℕ) (i : grid3.Coords)
    (arg2 : Memref sig .tc .vmem S2048x128 .bf16) (harg2 : arg2.IsWhole) (arg3 : Memref sig .tc .vmem S1x2048 .i32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S2000x128 .f32) (harg6 : arg6.IsWhole) (arg7 : Memref sig .tc .vmem S2000x128 .f32) (harg7 : arg7.IsWhole)
    (arg8 : Memref sig .tc .vmem S2000x128 .f32) (harg8 : arg8.IsWhole)
    (x0 : Vec F S2048x128 .bf16) (x1 : Vec F S1x2048 .i32) (x2 : Vec F S128x128 .f32) (x3 : Vec F S1x128 .f32)
    (x4 xo xs s o : Vec F S2000x128 .f32)
    (hs : s = k3_pay2 i x1 x0 (if cond3_0 i then k3_pay1 (F := F) else xs))
    (ho : o = if cond3_1 i then k3_pay3 s x4 x2 x3 else xo) (hne : cond3_0 i → ¬cond3_1 i) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare o
        ∗ owns (c : Thread nD τ) arg8 fullShare s) -∗ K ⟨⟩))
      ⊢ wp frame (wpE (defs₀ (F := F)) Variants.none c none) E
          (cc3__scatter_kernel i arg2 harg2 arg3 harg3 arg4 harg4 arg5 harg5 arg6 harg6 arg7 harg7 arg8 harg8) K := by
  subst hs ho
  simp only [cc3__scatter_kernel_eq_skeleton]; unfold cc3__scatter_kernel_skel owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  by_cases hc0 : cond3_0 i <;> by_cases hc1 : cond3_1 i <;> first | exact absurd hc1 (hne hc0) | (
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H3]; swap; isplitl [H4]; swap; isplitl [HO]; swap
    all_goals
      iexists _; isplitr
      swap; · iassumption
      ipureintro
      first
      | with_reducible rfl
      | sl_unfold_words
        rw [read_store_last3 _ _ zoff3]
        simp only [View.readAt_eq_ld, View.ld_unit_zero (S := S1x2048) zoff3, View.ld_unit_zero (S := S2048x128) zoff3, View.ld_unit_zero (S := S2000x128) zoff3, View.ld_unit_zero (S := S128x128) zoff3, View.ld_unit_zero (S := S1x128) zoff3, View.readCov_unit_zero (S := S2000x128) _ zoff3])

theorem before3_in (c : Dev nD) : ∀ w : Fin 6, w ≠ 5 → ∀ (t : Fin cfg3.N) d, (dat3 V c).before w t d = (dat3 V c).after w t
  | 0, _, t, d | 1, _, t, d | 2, _, t, d | 3, _, t, d | 4, _, t, d =>
    ((dat3 V c).before_in_eq_fetched _ rfl (fun _ => rfl) (fun _ _ _ => rfl) (fun _ => rfl) t d).trans rfl
  | 5, h, _, _ => absurd rfl h
  | ⟨_ + 6, h⟩, _, _, _ => absurd h (by omega)

theorem after3_in (c : Dev nD) : ∀ w : Fin 6, w ≠ 5 → ∀ t : Fin cfg3.N,
    (dat3 V c).leavesExact w t = owns (c : Thread nD τ) ((cfg3.win w).stage (cfg3.slots t w)) fullShare ((dat3 V c).after w t)
  | 0, _, _ | 1, _, _ | 2, _, _ | 3, _, _ | 4, _, _ => rfl
  | 5, h, _ => absurd rfl h
  | ⟨_ + 6, h⟩, _, _ => absurd h (by omega)

theorem idleAt3_5 (i : grid3.Coords) (h : ¬cond3_1 i) : cfg3.idle 5 i = true := by
  show (!(k3_cond2 i == 1#1)) = true
  rw [Bool.not_eq_true', beq_eq_false_iff_ne]; exact h
theorem liveAt3_5 (i : grid3.Coords) (h : cond3_1 i) : cfg3.idle 5 i = false := by
  show (!(k3_cond2 i == 1#1)) = false
  rw [Bool.not_eq_false', beq_iff_eq]; exact h

-- the output window's buffer: at the finished block where the body stores it, as found elsewhere
theorem after3_out (c : Dev nD) (t : Fin cfg3.N) (d) :
    owns (c : Thread nD τ) (st3_5 t) fullShare (if cond3_1 (grid3.coords t) then (dat3 V c).after 5 t else (dat3 V c).before 5 t d)
      ⊢ (dat3 V c).leavesExact 5 t := by
  by_cases h : cond3_1 (grid3.coords t)
  · rw [if_pos h]; unfold Dat.leavesExact; rw [liveAt3_5 _ h]
  · rw [if_neg h, Dat.leavesExact_idle _ 5 t (idleAt3_5 _ h) (Bool.eq_false_iff.mpr (mt (flush3_5 t).mp (mt (hcond3_1 t).mpr h)))]
    iintro H; iexists d; iexact H

-- before any position the scratch is owned at some contents: what the point before left, once there is one
theorem PhiS3_open (c : Dev nD) (n : ℕ) (h : n ≤ cfg3.N) :
    PhiS3 V c n h ⊢ iprop(∃ x, ⌜∀ hz : n ≠ 0, x = acc3 V c (n - 1) (by omega)⌝ ∗ owns (c : Thread nD τ) scM3 fullShare x ∗ PhiS3_rest c) := by
  cases n with
  | zero =>
    show (Pipeline.ΦA spec3 c : sProp 𝕄) ⊢ _
    unfold Pipeline.ΦA PhiS3_rest; rw [scopedRest3_split]; simp only [scM3, owns_whole]
    iintro ⟨⟨⟨%d, HS⟩, Hrest⟩, Hg⟩
    iexists d; isplitr; · ipureintro; exact fun hz => absurd rfl hz
    isplitl [HS]; · iexact HS
    isplitl [Hrest]; · iexact Hrest
    iexact Hg
  | succ n =>
    rw [PhiS3]; iintro H; iexists acc3 V c n h; isplitr; · ipureintro; exact fun _ => rfl
    iexact H

-- and after any, the same with the accumulator's contents forgotten
theorem PhiS3_close (c : Dev nD) (n : ℕ) (h : n ≤ cfg3.N) : PhiS3 V c n h ⊢ (Pipeline.ΦA spec3 c : sProp 𝕄) := by
  cases n with
  | zero => exact .rfl
  | succ n =>
    rw [PhiS3]; unfold Pipeline.ΦA PhiS3_rest; rw [scopedRest3_split]; simp only [scM3, owns_whole]
    iintro ⟨HS, Hrest, Hg⟩
    isplitr [Hg]
    · isplitl [HS]; · iexists _; iexact HS
      iexact Hrest
    iexact Hg

def bodyPre3 (c : Dev nD) (t : Fin cfg3.N) (w : Fin 6) : sProp 𝕄 :=
  iprop(∃ d, owns (c : Thread nD τ) ((cfg3.win w).stage (cfg3.slots t w)) fullShare ((dat3 V c).before w t d))

set_option maxHeartbeats 4000000 in
theorem sound_body3 (c : Dev nD) (t : Fin cfg3.N) :
    iprop(PhiS3 V c t.val (Nat.le_of_lt t.isLt) ∗ (dat3 V c).owesAt () t.castSucc
      ∗ bodyPre3 V c t 0 ∗ bodyPre3 V c t 1 ∗ bodyPre3 V c t 2 ∗ bodyPre3 V c t 3 ∗ bodyPre3 V c t 4 ∗ bodyPre3 V c t 5)
      ⊢ wp frame (wpE (defs₀ (F := F)) Variants.none c none) Set.univ (bodyAt3 t) (fun _ =>
        iprop((owns (c : Thread nD τ) scM3 fullShare (acc3 V c t.val t.isLt) ∗ PhiS3_rest c) ∗ (dat3 V c).owesAt () t.castSucc
          ∗ (dat3 V c).leavesExact (0 : Fin 6) t ∗ (dat3 V c).leavesExact (1 : Fin 6) t ∗ (dat3 V c).leavesExact (2 : Fin 6) t
          ∗ (dat3 V c).leavesExact (3 : Fin 6) t ∗ (dat3 V c).leavesExact (4 : Fin 6) t ∗ (dat3 V c).leavesExact (5 : Fin 6) t)) := by
  simp (disch := decide) only [bodyPre3, before3_in V c, after3_in V c]
  iintro ⟨HΦ, Ho, ⟨%d0, H0⟩, ⟨%d1, H1⟩, ⟨%d2, H2⟩, ⟨%d3, H3⟩, ⟨%d4, H4⟩, ⟨%d5, H5⟩⟩
  ihave HΦ := (PhiS3_open V c t.val (Nat.le_of_lt t.isLt)) $$ HΦ
  icases HΦ with ⟨%x, %hx, HS, Hrest⟩
  iapply (kernel3 c Set.univ _ _ _ _ _ _ _ _ _ _ _ _ _ _ _
    (iblk3 V c 0 t) (iblk3 V c 1 t) (iblk3 V c 2 t) (iblk3 V c 3 t) (iblk3 V c 4 t) ((dat3 V c).before 5 t d5) x _
    (if cond3_1 (grid3.coords t) then (dat3 V c).after 5 t else (dat3 V c).before 5 t d5) (acc3_if V c t x hx) rfl
    (fun h0 h1 => by have := (hcond3_0 t).mp h0; have := (hcond3_1 t).mp h1; omega) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest]
  · isplitl [HS]; · iexact HS
    iexact Hrest
  isplitl [Ho]; · iexact Ho
  isplitl [H0]; · iexact H0
  isplitl [H1]; · iexact H1
  isplitl [H2]; · iexact H2
  isplitl [H3]; · iexact H3
  isplitl [H4]; · iexact H4
  iapply (after3_out V c t d5); iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := PhiS3_close V c cfg3.N le_rfl

end Cert.KernelIdeal.Hand

end
-- ==== Proof.KI.Region4.lean ====
import proofs.«402943_j87462714016644_3_alg».proof.Proof.Gen.KernelIdeal.Launch
import proofs.«402943_j87462714016644_3_alg».proof.Proof.Gen.KernelIdeal.Skeleton
import proofs.«402943_j87462714016644_3_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S100x128 .f32
  | 0, hn => k4_pay4 (iblk4 V c 1 ⟨0, hn⟩) (iblk4 V c 0 ⟨0, hn⟩) (k4_pay1 (F := F))
  | n + 1, hn => k4_pay4 (iblk4 V c 1 ⟨n + 1, hn⟩) (iblk4 V c 0 ⟨n + 1, hn⟩) (acc4 c n (Nat.lt_of_succ_lt hn))

def cnt4 (c : Dev nD) : (n : ℕ) → n < cfg4.N → Vec F S100x1 .f32
  | 0, hn => k4_pay5 (iblk4 V c 1 ⟨0, hn⟩) (k4_pay2 (F := F))
  | n + 1, hn => k4_pay5 (iblk4 V c 1 ⟨n + 1, hn⟩) (cnt4 c n (Nat.lt_of_succ_lt hn))

abbrev scM4_0 : Memref sig .tc .vmem S100x128 .f32 := Memref.whole cc4_scratch0
abbrev scM4_1 : Memref sig .tc .vmem S100x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

-- Before tile n the two running buffers hold what tile n - 1 left (anything before the first tile).
def Phi4 (c : Dev nD) (n : ℕ) : sProp 𝕄 :=
  iprop(∃ s0 s1, ⌜∀ m hm, n = m + 1 → s0 = acc4 V c m hm ∧ s1 = cnt4 V c m hm⌝
    ∗ owns (c : Thread nD τ) scM4_0 fullShare s0 ∗ owns (c : Thread nD τ) scM4_1 fullShare s1 ∗ rest4 c ∗ (∃ r, prngReg c r))

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay6 (acc4 V c t.val t.isLt) (cnt4 V c t.val t.isLt) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem share4 (c : Dev nD) (w : Fin cfg4.W) : (dat4 V c).q w = fullShare := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;> intro d <;>
    exact ((dat4 V c).before_in_eq_fetched _ rfl (fun _ => rfl) (fun _ _ _ => rfl)
      (fun t => by dsimp only [dat4]; unfold Dat.blockOf iblk4; try rfl) t d).trans
      (by unfold Dat.fetched Dat.blockOf iblk4; rw [A_eq4]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

-- One tile's step of the two running buffers, from zero where the reset is taken.
theorem step4 (c : Dev nD) (t : Fin cfg4.N) (s0 : Vec F S100x128 .f32) (s1 : Vec F S100x1 .f32)
    (hs : ∀ m hm, t.val = m + 1 → s0 = acc4 V c m hm ∧ s1 = cnt4 V c m hm) :
    k4_pay4 (iblk4 V c 1 t) (iblk4 V c 0 t) (if cond4_0 (grid4.coords t) then k4_pay1 (F := F) else s0) = acc4 V c t.val t.isLt
      ∧ k4_pay5 (iblk4 V c 1 t) (if cond4_0 (grid4.coords t) then k4_pay2 (F := F) else s1) = cnt4 V c t.val t.isLt := by
  obtain ⟨n, hn⟩ := t
  cases n with
  | zero => simp only [if_pos ((hcond4_0 ⟨0, hn⟩).mpr rfl)]; exact ⟨rfl, rfl⟩
  | succ n =>
    obtain ⟨rfl, rfl⟩ := hs n (Nat.lt_of_succ_lt hn) rfl
    simp only [if_neg fun h => Nat.succ_ne_zero n ((hcond4_0 ⟨n + 1, hn⟩).mp h)]; exact ⟨rfl, rfl⟩

theorem hz4 : (![0, 0] : Fin 2 → ℕ) = fun _ => 0 := funext fun a => by fin_cases a <;> rfl

-- After stores whose last one fills the whole buffer, the buffer reads that store's payload.
theorem read_store_last4 {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 4000000 in
-- The body's triple: the running buffers take the tile's step; the output's buffer changes only where the projection is taken.
theorem kernel4 (c : Dev nD) (E : Set ℕ) (i : grid4.Coords)
    (arg1 : Memref sig .tc .vmem S2048x128 .f32) (harg1 : arg1.IsWhole) (arg2 : Memref sig .tc .vmem S1x2048 .i32) (harg2 : arg2.IsWhole)
    (arg3 : Memref sig .tc .vmem S128x40 .f32) (harg3 : arg3.IsWhole) (arg4 : Memref sig .tc .vmem S1x40 .f32) (harg4 : arg4.IsWhole)
    (arg5 : Memref sig .tc .vmem S100x40 .f32) (harg5 : arg5.IsWhole) (arg6 : Memref sig .tc .vmem S100x128 .f32) (harg6 : arg6.IsWhole)
    (arg7 : Memref sig .tc .vmem S100x1 .f32) (harg7 : arg7.IsWhole) (hx : cond4_0 i → ¬cond4_1 i)
    (x0 : Vec F S2048x128 .f32) (x1 : Vec F S1x2048 .i32) (x2 : Vec F S128x40 .f32) (x3 : Vec F S1x40 .f32) (x4 : Vec F S100x40 .f32)
    (s0 : Vec F S100x128 .f32) (s1 : Vec F S100x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if cond4_1 i then k4_pay6 (k4_pay4 x1 x0 (if cond4_0 i then k4_pay1 (F := F) else s0)) (k4_pay5 x1 (if cond4_0 i then k4_pay2 (F := F) else s1)) x2 x3 else x4)
            ∗ owns (c : Thread nD τ) arg6 fullShare (k4_pay4 x1 x0 (if cond4_0 i then k4_pay1 (F := F) else s0)) ∗ owns (c : Thread nD τ) arg7 fullShare (k4_pay5 x1 (if cond4_0 i then k4_pay2 (F := F) else s1))) -∗ K ⟨⟩))
      ⊢ wp frame (wpE (defs₀ (F := F)) Variants.none c none) E
          (cc4__pool_kernel i arg1 harg1 arg2 harg2 arg3 harg3 arg4 harg4 arg5 harg5 arg6 harg6 arg7 harg7) K := by
  by_cases hc0 : cond4_0 i <;> by_cases hc1 : cond4_1 i
  · exact absurd hc1 (hx hc0)
  all_goals
    first | rw [if_pos hc1] | rw [if_neg hc1]
    first | rw [if_pos hc0, if_pos hc0] | rw [if_neg hc0, if_neg hc0]
    simp only [cc4__pool_kernel_eq_skeleton]; unfold cc4__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0 | exact hc1)
    sl_step
    iapply Hk
    isplitl [H1]; iexists _; isplitr; swap; · iexact H1
    ipureintro; rotate_left
    isplitl [H2]; iexists _; isplitr; swap; · iexact H2
    ipureintro; rotate_left
    isplitl [H3]; iexists _; isplitr; swap; · iexact H3
    ipureintro; rotate_left
    isplitl [H4]; iexists _; isplitr; swap; · iexact H4
    ipureintro; rotate_left
    isplitl [H5]; iexists _; isplitr; swap; · iexact H5
    ipureintro; rotate_left
    isplitl [H6]; iexists _; isplitr; swap; · iexact H6
    ipureintro; rotate_left
    iexists _; isplitr; swap; · iexact H7
    ipureintro
    all_goals first
      | (try sl_unfold_words
         rw [read_store_last4 _ _ hz4]
         simp only [View.readAt_eq_ld, Memref.IsWhole.read_unread, View.ld_unit_zero (S := S1x2048) hz4,
           View.ld_unit_zero (S := S2048x128) hz4, View.ld_unit_zero (S := S100x128) hz4, View.ld_unit_zero (S := S100x1) hz4,
           View.ld_unit_zero (S := S128x40) hz4, View.ld_unit_zero (S := S1x40) hz4, View.ld_unit_zero (S := S100x40) hz4,
           View.readCov_unit_zero (S := S100x128) (h := hz4), View.readCov_unit_zero (S := S100x1) (h := hz4)])
      | exact Memref.IsWhole.read_unread _ _

-- After the body the output block is the projected means at the last tile, and as found elsewhere.
theorem leaves4_4 (c : Dev nD) (t : Fin cfg4.N) (s0 : Vec F S100x128 .f32) (s1 : Vec F S100x1 .f32)
    (hs : ∀ m hm, t.val = m + 1 → s0 = acc4 V c m hm ∧ s1 = cnt4 V c m hm) (d) :
    owns (c : Thread nD τ) (st4_4 t) fullShare
        (if cond4_1 (grid4.coords t) then
          k4_pay6 (k4_pay4 (iblk4 V c 1 t) (iblk4 V c 0 t) (if cond4_0 (grid4.coords t) then k4_pay1 (F := F) else s0))
            (k4_pay5 (iblk4 V c 1 t) (if cond4_0 (grid4.coords t) then k4_pay2 (F := F) else s1)) (iblk4 V c 2 t) (iblk4 V c 3 t)
        else (dat4 V c).before 4 t d)
      ⊢ (dat4 V c).leavesExact 4 t := by
  rw [(step4 V c t s0 s1 hs).1, (step4 V c t s0 s1 hs).2]
  by_cases hc1 : cond4_1 (grid4.coords t)
  · rw [if_pos hc1, show (dat4 V c).leavesExact 4 t = owns (c : Thread nD τ) (st4_4 t) fullShare ((dat4 V c).after 4 t) from by
      unfold Dat.leavesExact; rw [liveAt4_4 t hc1]]
    exact Entails.refl _
  · rw [if_neg hc1, Dat.leavesExact_idle (dat4 V c) 4 t (idleAt4_4 t hc1) (noFlush4_4 t hc1)]
    iintro H; iexists _; iexact H

set_option maxHeartbeats 4000000 in
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d)))
        ⊢ wp frame (wpE (defs₀ (F := F)) Variants.none c none) Set.univ (bodyAt4 t) fun _ =>
          iprop((dat4 V c).Φ t.succ ∗ (dat4 V c).owesAt () t.succ
            ∗ (dat4 V c).leavesExact 0 t
            ∗ (dat4 V c).leavesExact 1 t
            ∗ (dat4 V c).leavesExact 2 t
            ∗ (dat4 V c).leavesExact 3 t
            ∗ (dat4 V c).leavesExact 4 t) := by
  unfold bodyAt4
  simp only [(before4 V c t).1, (before4 V c t).2.1, (before4 V c t).2.2.1, (before4 V c t).2.2.2]
  rw [show (dat4 V c).owesAt () t.succ = (dat4 V c).owesAt () t.castSucc from rfl,
    show (dat4 V c).Φ t.castSucc = Phi4 V c t.val from rfl, show (dat4 V c).Φ t.succ = Phi4 V c (t.val + 1) from rfl,
    show (dat4 V c).leavesExact 0 t = owns (c : Thread nD τ) (st4_0 t) fullShare (iblk4 V c 0 t) from rfl,
    show (dat4 V c).leavesExact 1 t = owns (c : Thread nD τ) (st4_1 t) fullShare (iblk4 V c 1 t) from rfl,
    show (dat4 V c).leavesExact 2 t = owns (c : Thread nD τ) (st4_2 t) fullShare (iblk4 V c 2 t) from rfl,
    show (dat4 V c).leavesExact 3 t = owns (c : Thread nD τ) (st4_3 t) fullShare (iblk4 V c 3 t) from rfl]
  unfold Phi4
  iintro ⟨⟨%s0, %s1, %hs, HS0, HS1, Hrest, Hg⟩, Ho, ⟨%d0, H0⟩, ⟨%d1, H1⟩, ⟨%d2, H2⟩, ⟨%d3, H3⟩, ⟨%d4, H4⟩⟩
  iapply (kernel4 c Set.univ (grid4.coords t) _ _ _ _ _ _ _ _ _ _ _ _ _ _
    (fun h0 h1 => by have := (hcond4_0 t).mp h0; have := (hcond4_1 t).mp h1; omega)
    (iblk4 V c 0 t) (iblk4 V c 1 t) (iblk4 V c 2 t) (iblk4 V c 3 t) ((dat4 V c).before 4 t d4) s0 s1 _)
  iframe H0 H1 H2 H3 H4 HS0 HS1
  iintro ⟨H0, H1, H2, H3, H4, HS0, HS1⟩
  iframe Ho H0 H1 H2 H3
  isplitr [H4]
  · iexists _, _; iframe
    ipureintro; intro m hm h; cases Nat.succ.inj h; exact step4 V c t s0 s1 hs
  iapply (leaves4_4 V c t s0 s1 hs d4); iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 from rfl, PhiA4_eq]; unfold Phi4
  iintro ⟨⟨⟨⟨%s0, HS0⟩, ⟨%s1, HS1⟩⟩, Hrest⟩, Hg⟩
  iexists s0, s1; iframe
  ipureintro; exact fun m _ h => absurd h.symm (Nat.succ_ne_zero m)

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val from rfl, PhiA4_eq]; unfold Phi4
  iintro ⟨%s0, %s1, -, HS0, HS1, Hrest, Hg⟩
  iframe Hrest Hg
  isplitl [HS0]; · iexists _; iexact HS0
  iexists _; iexact HS1

end Cert.KernelIdeal.Hand

end
-- ==== Proof.KI.Run.lean ====
import proofs.«402943_j87462714016644_3_alg».proof.Proof.Gen.KernelIdeal.Regions
import proofs.«402943_j87462714016644_3_alg».proof.Proof.KI.Region0
import proofs.«402943_j87462714016644_3_alg».proof.Proof.KI.Region1
import proofs.«402943_j87462714016644_3_alg».proof.Proof.KI.Region2
import proofs.«402943_j87462714016644_3_alg».proof.Proof.KI.Region3
import proofs.«402943_j87462714016644_3_alg».proof.Proof.KI.Region4
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 (c : Dev nD) : Valuation τ sig (Elt F) := StableHlo.after hostOps0 (W0 m c)
abbrev Vr1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev Vr2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev W4 (c : Dev nD) : Valuation τ sig (Elt F) := StableHlo.after hostOps2 (W3 m c)
abbrev Vr4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (Vr4 m) c).arrAt w cfg2.N
theorem W5_arr (c : Dev nD) (w : Fin cfg2.W) :
    W5 m c (Proc.devRef .tc (Pipeline.arrRef spec2 w)) = (dat2 (Vr4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb
abbrev Vr5 : (c : Dev nD) → (b : Ref sig .tc) → Buf (Elt F) ((c : Thread nD τ).loc b) := fun c b => W5 m c b

def W6 (c : Dev nD) : Valuation τ sig (Elt F) :=
  Pipeline.withArrays spec3 c (W5 m c) fun w => (dat3 (Vr5 m) c).arrAt w cfg3.N
theorem W6_arr (c : Dev nD) (w : Fin cfg3.W) :
    W6 m c (Proc.devRef .tc (Pipeline.arrRef spec3 w)) = (dat3 (Vr5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev W7 (c : Dev nD) : Valuation τ sig (Elt F) := StableHlo.after hostOps4 (W6 m c)
abbrev Vr7 : (c : Dev nD) → (b : Ref sig .tc) → Buf (Elt F) ((c : Thread nD τ).loc b) := fun c b => W7 m c b

def W8 (c : Dev nD) : Valuation τ sig (Elt F) :=
  Pipeline.withArrays spec4 c (W7 m c) fun w => (dat4 (Vr7 m) c).arrAt w cfg4.N

def pdats : (p : Fin 5) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr4 m) c
  | ⟨3, _⟩ => fun c => dat3 (Vr5 m) c
  | ⟨4, _⟩ => fun c => dat4 (Vr7 m) c
abbrev noL : GSem nD τ sig → Finset Unit := fun _ => ∅
abbrev noLv : GSem nD τ sig → Unit → ℕ := fun _ _ => 0
abbrev Rrun (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rrun
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- One kernel region as a segment of the run: entered with every buffer at `V`, left with its output arrays at what its points wrote.
def regOf (pd : (p : Fin 5) → (c : Dev nD) → Dat τ (Elt F) Unit ℕ (UR sig nD τ) ℕ (Pipeline.pin (pcfgs (F := F)) adm p) c)
    (p : Fin 5) (kit : Pipeline.LaunchFacts (nD := nD) (τ := τ) cfgs p) (V : Dev nD → Valuation τ sig (Elt F))
    (hb : ∀ c, BodyObligation (pd p c) (defs₀ (F := F)) Variants.none () Set.univ)
    (howed : ∀ c t, (pd p c).owed t = 0) (hrec : ∀ c, (pd p c).recorded 0 = Set.univ) (hq : ∀ c w, (pd p c).q w = fullShare)
    (hA : ∀ c w, (pd p c).A w = V c (Pipeline.arrRef (Pipeline.pin (pcfgs (F := F)) adm p).spec w))
    (hin : ∀ c, (Pipeline.ΦA (Pipeline.pin (pcfgs (F := F)) adm p).spec c : sProp 𝕄) ⊢ (pd p c).Φ 0)
    (hout : ∀ c, (pd p c).Φ (Fin.last (Pipeline.pin (pcfgs (F := F)) adm p).N) ⊢ (Pipeline.ΦA (Pipeline.pin (pcfgs (F := F)) adm p).spec c : sProp 𝕄)) :
    Pipeline.RegionSeg (pcfgs (F := F)) adm pd () defs₀ Variants.none noL noLv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ noL noLv p howed
  pre c := iprop(StableHlo.held (c : Thread nD τ) (Pipeline.ucRefs τ sig) (V c) ∗ Rrun c)
  post c := iprop(StableHlo.held (c : Thread nD τ) (Pipeline.ucRefs τ sig)
    (Pipeline.withArrays (Pipeline.pin (pcfgs (F := F)) adm p).spec c (V c) fun w => (pd p c).arrAt w (Pipeline.pin (pcfgs (F := F)) adm p).N) ∗ Rrun c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => V c b
  hentry c := by
    rw [Pipeline.ownSems0_none]
    have hsplit := Pipeline.arrays_of_unscopedBufs (p := p) (pcfgs (F := F)) adm pd kit.win kit.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [howed c 0]
    icases HO with ⟨%W, HO⟩; iexists W; iframe HO; ipureintro; exact fun _ _ => Or.inl (hrec c ▸ trivial)
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      kit.win kit.arr_whole c pd ((pd p c).share_full (hq c)) (fun b => V c b)
      (fun b => Pipeline.withArrays (Pipeline.pin (pcfgs (F := F)) adm p).spec c (V c) (fun w => (pd p c).arrAt w (Pipeline.pin (pcfgs (F := F)) adm p).N) b) ((pd p c).arrAt · (Pipeline.pin (pcfgs (F := F)) adm p).N)
      (fun w => (Pipeline.withArrays_arr (Pipeline.pin (pcfgs (F := F)) adm p).spec kit.win.arr_inj c (V c) (fun w => (pd p c).arrAt w (Pipeline.pin (pcfgs (F := F)) adm p).N) w).symm)
      (fun b hb => Pipeline.withArrays_of_ne (Pipeline.pin (pcfgs (F := F)) adm p).spec c (V c) (fun w => (pd p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev runSegs : List (Pipeline.Seg (pcfgs (F := F)) adm (pdats m) () defs₀ Variants.none noL noLv) :=
  [ .host (hseg hostOps0 hostOps0_sub hostOps0_fresh (W0 m)),
    .region (regOf (pdats m) 0 launch0 (W1 m) (body_obligation0 (Vr1 m)) (owed0 (Vr1 m)) (fun _ => rfl) (share0 (Vr1 m)) (A_eq0 (Vr1 m)) (hin0 (Vr1 m)) (hout0 (Vr1 m))),
    .region (regOf (pdats m) 1 launch1 (W2 m) (body_obligation1 (Vr2 m)) (owed1 (Vr2 m)) (fun _ => rfl) (share1 (Vr2 m)) (A_eq1 (Vr2 m)) (hin1 (Vr2 m)) (hout1 (Vr2 m))),
    .host (hseg hostOps2 hostOps2_sub hostOps2_fresh (W3 m)),
    .region (regOf (pdats m) 2 launch2 (W4 m) (body_obligation2 (Vr4 m)) (owed2 (Vr4 m)) (fun _ => rfl) (share2 (Vr4 m)) (A_eq2 (Vr4 m)) (hin2 (Vr4 m)) (hout2 (Vr4 m))),
    .region (regOf (pdats m) 3 launch3 (W5 m) (body_obligation3 (Vr5 m)) (owed3 (Vr5 m)) (fun _ => rfl) (share3 (Vr5 m)) (A_eq3 (Vr5 m)) (hin3 (Vr5 m)) (hout3 (Vr5 m))),
    .host (hseg hostOps4 hostOps4_sub hostOps4_fresh (W6 m)),
    .region (regOf (pdats m) 4 launch4 (W7 m) (body_obligation4 (Vr7 m)) (owed4 (Vr7 m)) (fun _ => rfl) (share4 (Vr7 m)) (A_eq4 (Vr7 m)) (hin4 (Vr7 m)) (hout4 (Vr7 m))) ]

set_option backward.isDefEq.respectTransparency.types false in
theorem run : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ Variants.none noL noLv m ρ main (runSegs m)
    (fun c Q => by
      rewrite [main_chain c, Pipeline.Seg.run_eq_chain]
      exact .rfl)
    (by simp only [runSegs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro; isplitl [Hu]; · iexact Hu
      iempintro)
    (T₀ := fun c => iprop(StableHlo.held (c : Thread nD τ) (Pipeline.ucRefs τ sig) (W0 m c) ∗ Rrun c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h
theorem W7_of (c : Dev nD) (r : Ref sig .tc) (h : r ∉ hostOps4_W) : W7 m c (Proc.devRef .tc r) = W6 m c (Proc.devRef .tc r) :=
  StableHlo.after_of_writes_sub hostOps4 _ hostOps4_writes h

/-- A region leaves every buffer that is no output window's array as it found it. -/
theorem keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((dat.arrAt_in w (hb w rfl) _).trans (hA w))
  · exact Pipeline.withArrays_of_ne _ c _ _ b fun w e => h ⟨w, e⟩

theorem W2_in (c : Dev nD) (w : Fin cfg0.W) (hin : (cfg0.win w).isOut = false) :
    W2 m c (Proc.devRef .tc (Pipeline.arrRef spec0 w)) = W1 m c (Proc.devRef .tc (Pipeline.arrRef spec0 w)) :=
  keep (dat0 (Vr1 m) c) launch0.win.arr_inj _ (A_eq0 (Vr1 m) c) _ fun _ e => launch0.win.arr_inj e ▸ hin
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  keep (dat1 (Vr2 m) c) launch1.win.arr_inj _ (A_eq1 (Vr2 m) c) _ fun _ e => launch1.win.arr_inj e ▸ hin

abbrev mainArgs : List (Ref sig .tc) :=
  [main_arg0, main_arg1, main_arg2, main_arg3, main_arg4, main_arg5, main_arg6, main_arg7, main_arg8]

/-- No host operation writes an argument and no region has one as an output window's array. -/
theorem W8_arg (c : Dev nD) (r : Ref sig .tc) (hr : r ∈ mainArgs) : W8 m c (Proc.devRef .tc r) = m ((c : Thread nD τ).loc r) :=
  (keep (dat4 (Vr7 m) c) launch4.win.arr_inj _ (A_eq4 (Vr7 m) c) r
    ((by decide : ∀ r ∈ mainArgs, ∀ w, Pipeline.arrRef spec4 w = r → (cfg4.win w).isOut = false) r hr)).trans <|
  (W7_of m c r ((by decide : ∀ r ∈ mainArgs, r ∉ hostOps4_W) r hr)).trans <|
  (keep (dat3 (Vr5 m) c) launch3.win.arr_inj _ (A_eq3 (Vr5 m) c) r
    ((by decide : ∀ r ∈ mainArgs, ∀ w, Pipeline.arrRef spec3 w = r → (cfg3.win w).isOut = false) r hr)).trans <|
  (keep (dat2 (Vr4 m) c) launch2.win.arr_inj _ (A_eq2 (Vr4 m) c) r
    ((by decide : ∀ r ∈ mainArgs, ∀ w, Pipeline.arrRef spec2 w = r → (cfg2.win w).isOut = false) r hr)).trans <|
  (W4_of m c r ((by decide : ∀ r ∈ mainArgs, r ∉ hostOps2_W) r hr)).trans <|
  (keep (dat1 (Vr2 m) c) launch1.win.arr_inj _ (A_eq1 (Vr2 m) c) r
    ((by decide : ∀ r ∈ mainArgs, ∀ w, Pipeline.arrRef spec1 w = r → (cfg1.win w).isOut = false) r hr)).trans <|
  (keep (dat0 (Vr1 m) c) launch0.win.arr_inj _ (A_eq0 (Vr1 m) c) r
    ((by decide : ∀ r ∈ mainArgs, ∀ w, Pipeline.arrRef spec0 w = r → (cfg0.win w).isOut = false) r hr)).trans <|
  W1_of m c r ((by decide : ∀ r ∈ mainArgs, r ∉ hostOps0_W) r hr)

/-- Every argument ends as launched, read off the last boundary's contents. -/
theorem args_kept (c : Dev nD) (s : MemSt nD τ sig (Elt F))
    (h : ∀ b ∈ Pipeline.ucRefs τ sig, s.mem (((c : Thread nD τ)).1, b) = W8 m c b) :
    mainArgs.Forall fun b => s.mem ((c.tc : Thread nD τ).loc b) = m ((c.tc : Thread nD τ).loc b) :=
  List.forall_iff_forall_mem.mpr fun b hb =>
    (h _ (mem_uc b ((by decide : ∀ b ∈ mainArgs, ¬ (Proc.devRef .tc b : DevRef τ sig).isScoped) b hb))).trans (W8_arg m c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W8 m c b)
    (fun r h c => args_kept m c r.2 (h c)) (run m ρ)

theorem W8_out (c : Dev nD) : W8 m c (Proc.devRef .tc main_v58) = (dat4 (Vr7 m) c).arrAt 4 cfg4.N :=
  Pipeline.withArrays_arr spec4 launch4.win.arr_inj c _ _ 4

end Cert.KernelIdeal.Hand

end
-- ==== Proof.LibGatherScatter.lean ====
import Idealize.ShloMosaic.PureOps.Ideal
import Idealize.ShloMosaic.Lib.ValueIdx

open scoped BigOperators

namespace Cert.Proof.GS

open Idealize.ShloMosaic Idealize.ShloMosaic.ValueIdx

abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

def row {N : Nat} (hN : 0 < N) {w : Nat} (b : BitVec w) : Fin N := ⟨min b.toInt.toNat (N - 1), by omega⟩

theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

theorem scatD_start1 : (scatD N E D wf).start (ix2 e q') idx 1 = 0 := by
  unfold ScatterDims.start
  rw [dif_neg (show (1 : Fin 2) ∉ ([0] : List (Fin 2)) by decide)]

theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

section ScatterAddAt
open Finset

theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Spec.lean ====
import Idealize.ShloMosaic.PureOps.Ideal
import proofs.«402943_j87462714016644_3_alg».proof.Proof.LibGatherScatter

open scoped BigOperators

noncomputable section

namespace Cert.Proof.Spec

open Idealize.ShloMosaic Cert.Proof.GS

abbrev one32 : EReal := Ideal.ofBits .f32 0x3F800000#32

def hits {m : Nat} (idx : Fin m → BitVec 32) (i : Nat) : Finset (Fin m) :=
  Finset.univ.filter fun e => (idx e).toInt = (i : Int)

def sel {n d : Nat} (H : Fin n → Fin d → EReal) (w : BitVec 32) (q : Fin d) : EReal :=
  if h : 0 ≤ w.toInt ∧ w.toInt < (n : Int) then H ⟨w.toInt.toNat, by omega⟩ q else 0

def wrap (w : BitVec 32) : BitVec 32 := if w.toInt < 0 then w + 50000#32 else w

def rowOf (w : BitVec 32) : Fin 50000 := row (N := 50000) (by decide) (wrap w)

def padTo {α : Type} (n p : Nat) (f : Fin n → α) (a : α) : Fin (n + p) → α :=
  fun e => if h : e.val < n then f ⟨e.val, h⟩ else a

def app {α : Type} (n p : Nat) (f : Fin n → α) (g : Fin p → α) : Fin (n + p) → α :=
  fun e => if h : e.val < n then f ⟨e.val, h⟩ else g ⟨e.val - n, by have := e.isLt; omega⟩

def gatherK {n m d : Nat} (H : Fin n → Fin d → EReal) (src : Fin m → BitVec 32) (nrm : Fin m → EReal)
    (e : Fin m) (q : Fin d) : EReal :=
  sel H (src e) q * nrm e

def scatterK {m n d d' : Nat} (Y : Fin m → Fin d → EReal) (dst : Fin m → BitVec 32) (W : Fin d → Fin d' → EReal)
    (b : Fin d' → EReal) (self : Fin n → Fin d → EReal) (i : Fin n) (q : Fin d') : EReal :=
  (∑ k, ((∑ e ∈ hits dst i.val, Y e k) + self i k) * W k q) + b q

def poolK {n g d d' : Nat} (H : Fin n → Fin d → EReal) (bat : Fin n → BitVec 32) (W : Fin d → Fin d' → EReal)
    (b : Fin d' → EReal) (j : Fin g) (o : Fin d') : EReal :=
  (∑ k, Ideal.div (∑ r ∈ hits bat j.val, H r k) (max (∑ r ∈ hits bat j.val, (1 : EReal)) 1) * W k o) + b o

open Idealize.ShloMosaic.ValueIdx in

def cur2 {α : Type} {a b : Nat} (f : (⟨2, ![a, b]⟩ : Shape).Idx → α) : Fin a → Fin b → α := fun i j => f (ix2 i j)

def unc2 {α : Type} {a b : Nat} (g : Fin a → Fin b → α) : (⟨2, ![a, b]⟩ : Shape).Idx → α := fun j => g (j 0) (j 1)
open Idealize.ShloMosaic.ValueIdx in

def cur1 {α : Type} {a : Nat} (f : (⟨1, ![a]⟩ : Shape).Idx → α) : Fin a → α := fun i => f (ix1 i)

def unc1 {α : Type} {a : Nat} (g : Fin a → α) : (⟨1, ![a]⟩ : Shape).Idx → α := fun j => g (j 0)

section Net

variable (x : Fin 50000 → Fin 128 → EReal) (W1 : Fin 128 → Fin 128 → EReal) (b1 : Fin 128 → EReal)
  (W2 : Fin 128 → Fin 128 → EReal) (b2 : Fin 128 → EReal) (linW : Fin 128 → Fin 40 → EReal) (linb : Fin 40 → EReal)
  (src dst : Fin 600000 → BitVec 32) (bat : Fin 50000 → BitVec 32)

def degK (i : Fin 50000) : EReal := ((0 : EReal) + ∑ _e ∈ hits dst i.val, one32) + one32
def dinvK (i : Fin 50000) : EReal := Ideal.rsqrt (max (degK dst i) one32)

def normK (e : Fin 600000) : EReal := dinvK dst (rowOf (src e)) * dinvK dst (rowOf (dst e))

def selfK (i : Fin 50000) : EReal := dinvK dst i * dinvK dst i

def srcP : Fin (600000 + 64) → BitVec 32 := padTo 600000 64 src (-1#32)
def dstP : Fin (600000 + 64) → BitVec 32 := padTo 600000 64 dst (-1#32)
def normP : Fin (600000 + 64) → EReal := padTo 600000 64 (normK src dst) 0

def h1K (i : Fin 50000) (q : Fin 128) : EReal :=
  max (scatterK (gatherK x (srcP src) (normP src dst)) (dstP dst) W1 b1 (fun i k => x i k * selfK dst i) i q) 0
def h2K (i : Fin 50000) (q : Fin 128) : EReal :=
  scatterK (gatherK (h1K x W1 b1 src dst) (srcP src) (normP src dst)) (dstP dst) W2 b2
    (fun i k => h1K x W1 b1 src dst i k * selfK dst i) i q
def kerOut (j : Fin 100) (o : Fin 40) : EReal :=
  poolK (n := 50000 + 1200) (fun r k => padTo 50000 1200 (fun i => h2K x W1 b1 W2 b2 src dst i k) 0 r)
    (padTo 50000 1200 bat (-1#32)) linW linb j o

def srcL : Fin (600000 + 50000) → BitVec 32 := app 600000 50000 src (fun j => BitVec.ofNat 32 j.val)
def dstL : Fin (600000 + 50000) → BitVec 32 := app 600000 50000 dst (fun j => BitVec.ofNat 32 j.val)
def degR (i : Fin 50000) : EReal := (0 : EReal) + ∑ _e ∈ hits (dstL dst) i.val, one32
def dinvR (i : Fin 50000) : EReal := if degR dst i > 0 then Ideal.rsqrt (max (degR dst i) one32) else 0
def normR (e : Fin (600000 + 50000)) : EReal := dinvR dst (rowOf (srcL src e)) * dinvR dst (rowOf (dstL dst e))

def layerR (H : Fin 50000 → Fin 128 → EReal) (W : Fin 128 → Fin 128 → EReal) (b : Fin 128 → EReal)
    (i : Fin 50000) (q : Fin 128) : EReal :=
  ((0 : EReal) + ∑ e ∈ hits (dstL dst) i.val, (∑ k, H (rowOf (srcL src e)) k * W k q) * normR src dst e) + b q
def h1R (i : Fin 50000) (q : Fin 128) : EReal := max (layerR src dst x W1 b1 i q) 0
def h2R (i : Fin 50000) (q : Fin 128) : EReal := layerR src dst (h1R x W1 b1 src dst) W2 b2 i q
def refOut (j : Fin 100) (o : Fin 40) : EReal :=
  (∑ k, Ideal.div ((0 : EReal) + ∑ r ∈ hits bat j.val, h2R x W1 b1 W2 b2 src dst r k)
      (max ((0 : EReal) + ∑ _r ∈ hits bat j.val, one32) one32) * linW k o) + linb o

end Net

end Cert.Proof.Spec

end
-- ==== Proof.KI.Pay0.lean ====
import proofs.«402943_j87462714016644_3_alg».proof.Proof.Gen.KernelIdeal.Skeleton
import proofs.«402943_j87462714016644_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Idealize.ShloMosaic Idealize.ShloMosaic.ValueIdx
open Cert.KernelIdeal Cert.KernelIdeal.Gen

theorem p0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k0_pay1_apply (e : Fin 2048) (k : Fin 128) : k0_pay1 (F := Ideal) (ix2 e k) = 0 := by
  unfold k0_pay1
  simp only [shapeCast_self]
  exact Ideal.ofBits_zero_f32

theorem k0_pay3_apply (v29 : Vec Ideal S2048x128 .f32) (v30 : Vec Ideal S2048x1 .f32) (e : Fin 2048) (k : Fin 128) :
    k0_pay3 v29 v30 (ix2 e k) = v29 (ix2 e k) * v30 (ix2 e 0) := by
  unfold k0_pay3
  simp only [shapeCast_self]
  show v29 (ix2 e k) * broadcastTo S2048x128 v30 broadcasts_S2048x1_S2048x128 (ix2 e k) = _
  rw [p0_broadcastTo_a1_ab_apply]

theorem p0_node_word (n r : ℕ) :
    IntOp.addi (Scalar.muli (BitVec.ofNat 32 n) 2000#32) (BitVec.ofNat 32 r) = BitVec.ofNat 32 (n * 2000 + r) := by
  show BitVec.ofNat 32 n * BitVec.ofNat 32 2000 + BitVec.ofNat 32 r = _
  rw [BitVec.ofNat_add, BitVec.ofNat_mul]

theorem p0_ofNat_eq_iff_toInt (N : ℕ) (hN : N < 2 ^ 31) (w : BitVec 32) : BitVec.ofNat 32 N = w ↔ w.toInt = (N : Int) := by
  have hT : (BitVec.ofNat 32 N).toInt = (N : Int) := by
    rw [BitVec.toInt_eq_toNat_of_lt (by rw [BitVec.toNat_ofNat]; omega), BitVec.toNat_ofNat]
    omega
  constructor
  · rintro rfl; exact hT
  · intro h; exact BitVec.eq_of_toInt_eq (hT.trans h.symm)

theorem p0_onehot_eq (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · rw [if_pos h, show (a == b) = true from beq_iff_eq.mpr h]
    show ((((1#1 : BitVec 1).setWidth 32).toInt : ℝ) : EReal) = 1
    rw [show ((1#1 : BitVec 1).setWidth 32).toInt = 1 by decide]
    norm_num
  · rw [if_neg h, show (a == b) = false from beq_eq_false_iff_ne.mpr h]
    show ((((0#1 : BitVec 1).setWidth 32).toInt : ℝ) : EReal) = 0
    rw [show ((0#1 : BitVec 1).setWidth 32).toInt = 0 by decide]
    norm_num

theorem p0_lhs_0 (i : S2048x128.Idx) (q : dot_S2000x2048_S2000x128_S2048x128_0_0_1_1_n_n.contr.Idx) :
    (dot_S2000x2048_S2000x128_S2048x128_0_0_1_1_n_n.lhsIdx i q 0).val = (q ⟨0, by decide⟩).val :=
  dot_S2000x2048_S2000x128_S2048x128_0_0_1_1_n_n.lhsIdx_val_of_single rfl i q
theorem p0_lhs_1 (i : S2048x128.Idx) (q : dot_S2000x2048_S2000x128_S2048x128_0_0_1_1_n_n.contr.Idx) :
    (dot_S2000x2048_S2000x128_S2048x128_0_0_1_1_n_n.lhsIdx i q 1).val = (i 0).val := by
  unfold DotDims.lhsIdx
  rw [dif_neg (show ¬(1 : Fin S2000x2048.rank) ∈ dot_S2000x2048_S2000x128_S2048x128_0_0_1_1_n_n.lhsBatch by decide), dif_pos (show (1 : Fin S2000x2048.rank) ∈ dot_S2000x2048_S2000x128_S2048x128_0_0_1_1_n_n.lhsNonContracting by decide)]
  rfl
theorem p0_rhs_0 (i : S2048x128.Idx) (q : dot_S2000x2048_S2000x128_S2048x128_0_0_1_1_n_n.contr.Idx) :
    (dot_S2000x2048_S2000x128_S2048x128_0_0_1_1_n_n.rhsIdx i q 0).val = (q ⟨0, by decide⟩).val :=
  dot_S2000x2048_S2000x128_S2048x128_0_0_1_1_n_n.rhsIdx_val_of_single rfl i q
theorem p0_rhs_1 (i : S2048x128.Idx) (q : dot_S2000x2048_S2000x128_S2048x128_0_0_1_1_n_n.contr.Idx) :
    (dot_S2000x2048_S2000x128_S2048x128_0_0_1_1_n_n.rhsIdx i q 1).val = (i 1).val := by
  unfold DotDims.rhsIdx
  rw [dif_neg (show ¬(1 : Fin S2000x128.rank) ∈ dot_S2000x2048_S2000x128_S2048x128_0_0_1_1_n_n.rhsBatch by decide), dif_pos (show (1 : Fin S2000x128.rank) ∈ dot_S2000x2048_S2000x128_S2048x128_0_0_1_1_n_n.rhsNonContracting by decide)]
  rfl

theorem p0_mm_apply (A : FVec Ideal S2000x2048 .bf16) (B : FVec Ideal S2000x128 .bf16) (e : Fin 2048) (k : Fin 128) :
    matmul dot_S2000x2048_S2000x128_S2048x128_0_0_1_1_n_n none A B (constant (F := Ideal) S2048x128 .f32 0x00000000#32) (ix2 e k)
      = ∑ r : Fin 2000, A (ix2 r e) * B (ix2 r k) := by
  refine (Ideal.matmul_constant_zero_apply dot_S2000x2048_S2000x128_S2048x128_0_0_1_1_n_n none A B (ix2 e k)).trans ?_
  rw [← Equiv.sum_comp (contrEquiv1 dot_S2000x2048_S2000x128_S2048x128_0_0_1_1_n_n 2000 rfl rfl).symm]
  refine Finset.sum_congr rfl fun r _ => ?_
  have hr := contrEquiv1_symm_val dot_S2000x2048_S2000x128_S2048x128_0_0_1_1_n_n 2000 rfl rfl r
  have el : dot_S2000x2048_S2000x128_S2048x128_0_0_1_1_n_n.lhsIdx (ix2 e k) ((contrEquiv1 dot_S2000x2048_S2000x128_S2048x128_0_0_1_1_n_n 2000 rfl rfl).symm r) = ix2 r e := funext fun a => Fin.ext (by
    match a with
    | ⟨0, _⟩ => exact (p0_lhs_0 _ _).trans hr
    | ⟨1, _⟩ => exact p0_lhs_1 _ _)
  have er : dot_S2000x2048_S2000x128_S2048x128_0_0_1_1_n_n.rhsIdx (ix2 e k) ((contrEquiv1 dot_S2000x2048_S2000x128_S2048x128_0_0_1_1_n_n 2000 rfl rfl).symm r) = ix2 r k := funext fun a => Fin.ext (by
    match a with
    | ⟨0, _⟩ => exact (p0_rhs_0 _ _).trans hr
    | ⟨1, _⟩ => exact p0_rhs_1 _ _)
  rw [el, er]

theorem k0_pay2_apply (i : grid0.Coords) (v7 : Vec Ideal S1x2048 .i32) (v18 : Vec Ideal S2000x128 .bf16)
    (v21 : Vec Ideal S2048x128 .f32) (e : Fin 2048) (k : Fin 128) :
    k0_pay2 i v7 v18 v21 (ix2 e k) = v21 (ix2 e k) + ∑ r : Fin 2000,
      (if (v7 (ix2 0 e)).toInt = (((i 1).val * 2000 + r.val : ℕ) : Int) then (1 : EReal) else 0) * v18 (ix2 r k) := by
  unfold k0_pay2
  simp only [shapeCast_self]
  refine congrArg (v21 (ix2 e k) + ·) ?_
  refine (p0_mm_apply _ _ e k).trans ?_
  refine Finset.sum_congr rfl fun r _ => ?_
  refine congrArg (· * v18 (ix2 r k)) ?_
  show FloatOps.sitofp (F := Ideal) .f32 ((IntOp.cmpi .eq
      (broadcastTo S2000x2048 (addi (broadcast S2000x1 (Scalar.muli (BitVec.ofNat 32 (i 1).val) 2000#32))
        (iota .tc S2000x1 32 [0] iota_S2000x1_d0_w32)) broadcasts_S2000x1_S2000x2048 (ix2 r e))
      (broadcastTo S2000x2048 v7 broadcasts_S1x2048_S2000x2048 (ix2 r e))).setWidth 32) = _
  rw [p0_broadcastTo_a1_ab_apply, broadcastTo_1b_ab_apply, p0_onehot_eq]
  have hw : addi (broadcast S2000x1 (Scalar.muli (BitVec.ofNat 32 (i 1).val) 2000#32))
      (iota .tc S2000x1 32 [0] iota_S2000x1_d0_w32) (ix2 r (0 : Fin 1)) = BitVec.ofNat 32 ((i 1).val * 2000 + r.val) := by
    show IntOp.addi (Scalar.muli (BitVec.ofNat 32 (i 1).val) 2000#32) (iota .tc S2000x1 32 [0] iota_S2000x1_d0_w32 (ix2 r (0 : Fin 1))) = _
    rw [iota_single_apply]
    exact p0_node_word _ _
  rw [hw]
  have hi : (i 1).val < 25 := (i 1).isLt
  have hr : r.val < 2000 := r.isLt
  exact if_congr (p0_ofNat_eq_iff_toInt _ (by omega) _) rfl rfl

end Cert.KernelIdeal.Hand

end
-- ==== Proof.KI.GatherVal.lean ====
import proofs.«402943_j87462714016644_3_alg».proof.KernelIdeal
import proofs.«402943_j87462714016644_3_alg».proof.Proof.Spec
import Idealize.ShloMosaic.Lib.ValueIdx

noncomputable section

open scoped BigOperators

namespace Cert.KernelIdeal.Hand

open Idealize.ShloMosaic Idealize.ShloMosaic.ValueIdx
open Cert.KernelIdeal Cert.Proof

-- Row `z` of a 50000-row table where `z` is a row number, zero elsewhere; and the same cut off at a bound `B`:
-- the part of a one-hot gather that the node tiles below `B` contribute.
def vrow (T : S50000x128.Idx → EReal) (z : ℤ) (k : Fin 128) : EReal :=
  if h : 0 ≤ z ∧ z < 50000 then T (ix2 (⟨z.toNat, by omega⟩ : Fin 50000) k) else 0

theorem vrow_neg (T : S50000x128.Idx → EReal) (z : ℤ) (k : Fin 128) (h : z < 0) : vrow T z k = 0 := by
  unfold vrow; rw [dif_neg (by omega)]

def vpart (T : S50000x128.Idx → EReal) (z : ℤ) (B : ℕ) (k : Fin 128) : EReal :=
  if z < (B : ℤ) then vrow T z k else 0

theorem vpart_zero (T : S50000x128.Idx → EReal) (z : ℤ) (k : Fin 128) : vpart T z 0 k = 0 := by
  unfold vpart
  split
  · exact vrow_neg T z k (by omega)
  · rfl

theorem vtile_sum (T : S50000x128.Idx → EReal) (z : ℤ) (n : ℕ) (hn : n < 25) (k : Fin 128) (X : Fin 2000 → EReal)
    (hX : ∀ (r : Fin 2000) (j : S50000x128.Idx), (j 0).val = 2000 * n + r.val → (j 1).val = k.val → X r = T j) :
    (∑ r : Fin 2000, (if z = ((n * 2000 + r.val : ℕ) : ℤ) then (1 : EReal) else 0) * X r)
      = if (2000 * n : ℤ) ≤ z ∧ z < 2000 * n + 2000 then vrow T z k else 0 := by
  by_cases h : (2000 * n : ℤ) ≤ z ∧ z < 2000 * n + 2000
  · rw [if_pos h]
    have hr0 : (z - 2000 * n).toNat < 2000 := by omega
    rw [Finset.sum_eq_single (⟨(z - 2000 * n).toNat, hr0⟩ : Fin 2000)]
    · rw [if_pos (by push_cast; omega), one_mul]
      unfold vrow
      rw [dif_pos (by omega)]
      exact hX _ _ (by show z.toNat = 2000 * n + (z - 2000 * n).toNat; omega) rfl
    · intro b _ hb
      rw [if_neg, zero_mul]
      intro hz
      exact hb (Fin.ext (by show b.val = (z - 2000 * n).toNat; push_cast at hz; omega))
    · intro hne; exact absurd (Finset.mem_univ _) hne
  · rw [if_neg h]
    refine Finset.sum_eq_zero fun r _ => ?_
    have hr := r.isLt
    rw [if_neg (by push_cast; omega), zero_mul]

theorem vpart_step (T : S50000x128.Idx → EReal) (z : ℤ) (n : ℕ) (k : Fin 128) :
    vpart T z (2000 * n) k + (if (2000 * n : ℤ) ≤ z ∧ z < 2000 * n + 2000 then vrow T z k else 0)
      = vpart T z (2000 * (n + 1)) k := by
  unfold vpart
  by_cases h1 : z < ((2000 * n : ℕ) : ℤ)
  · rw [if_pos h1, if_neg (by push_cast at h1; omega), if_pos (by push_cast at h1 ⊢; omega), add_zero]
  · rw [if_neg h1, zero_add]
    by_cases h2 : z < ((2000 * (n + 1) : ℕ) : ℤ)
    · rw [if_pos h2, if_pos (by push_cast at h1 h2; omega)]
    · rw [if_neg h2, if_neg (by push_cast at h1 h2; omega)]

theorem vpart_full (T : S50000x128.Idx → EReal) (w : BitVec 32) (k : Fin 128) :
    vpart T w.toInt 50000 k = Spec.sel (n := 50000) (d := 128) (Spec.cur2 T) w k := by
  unfold vpart vrow Spec.sel
  by_cases h : 0 ≤ w.toInt ∧ w.toInt < ((50000 : ℕ) : ℤ)
  · rw [if_pos h.2, dif_pos (by omega), dif_pos h]
    rfl
  · rw [dif_neg h]
    split
    · rw [dif_neg (by omega)]
    · rfl

end Cert.KernelIdeal.Hand

end
-- ==== Proof.KI.Val0.lean ====
import proofs.«402943_j87462714016644_3_alg».proof.Proof.KI.Region0
import proofs.«402943_j87462714016644_3_alg».proof.Proof.KI.Pay0
import proofs.«402943_j87462714016644_3_alg».proof.Proof.KI.GatherVal
import proofs.«402943_j87462714016644_3_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof

variable (V : (c : Dev nD) → (b : Ref sig .tc) → Buf (Elt Ideal) ((c : Thread nD τ).loc b))

abbrev vtab0 (c : Dev nD) : S50000x128.Idx → EReal := V c (Pipeline.arrRef spec0 0)

abbrev vsrc0 (c : Dev nD) : S1x600064.Idx → BitVec 32 := V c (Pipeline.arrRef spec0 1)

abbrev vwgt0 (c : Dev nD) : S600064x1.Idx → EReal := V c (Pipeline.arrRef spec0 2)

abbrev vout0 (c : Dev nD) : S600064x128.Idx → EReal :=
  Spec.unc2 (Spec.gatherK (n := 50000) (m := 600064) (d := 128) (Spec.cur2 (vtab0 V c))
    (fun e => vsrc0 V c (ix2 0 e)) (fun e => vwgt0 V c (ix2 e 0)))

theorem vidx0 : ∀ t : Fin cfg0.N,
    (win0_0.index t 0 = 0 ∧ win0_0.index t 1 = 0) ∧ (win0_1.index t 0 = 0 ∧ win0_1.index t 1 = t.val / 25)
    ∧ (win0_2.index t 0 = t.val / 25 ∧ win0_2.index t 1 = 0) ∧ (win0_3.index t 0 = t.val / 25 ∧ win0_3.index t 1 = 0) :=
  (by decide +kernel : ∀ t : Fin grid0.N, _)

theorem vcoords0 : ∀ t : Fin cfg0.N, ((grid0.coords t) 0).val = t.val / 25 ∧ ((grid0.coords t) 1).val = t.val % 25 :=
  (by decide +kernel : ∀ t : Fin grid0.N, _)

theorem viblk0_1 (c : Dev nD) (t : Fin cfg0.N) (x : S1x2048.Idx) (k : S1x600064.Idx)
    (hk0 : (k 0).val = (x 0).val) (hk1 : (k 1).val = 2048 * (t.val / 25) + (x 1).val) :
    (iblk0 V c 1 t : Vec Ideal S1x2048 .i32) x = vsrc0 V c k := by
  have hi := (vidx0 t).2.1
  unfold iblk0
  rw [View.read_apply]
  show V c (Pipeline.arrRef spec0 1) _ = V c (Pipeline.arrRef spec0 1) k
  congr 1
  funext a
  apply Fin.ext
  match a with
  | ⟨0, _⟩ => show win0_1.index t 0 * 1 + 1 * (x 0).val = (k 0).val; rw [hi.1, hk0]; omega
  | ⟨1, _⟩ => show win0_1.index t 1 * 2048 + 1 * (x 1).val = (k 1).val; rw [hi.2, hk1]; omega

theorem viblk0_2 (c : Dev nD) (t : Fin cfg0.N) (x : S2048x1.Idx) (k : S600064x1.Idx)
    (hk0 : (k 0).val = 2048 * (t.val / 25) + (x 0).val) (hk1 : (k 1).val = (x 1).val) :
    (iblk0 V c 2 t : Vec Ideal S2048x1 .f32) x = vwgt0 V c k := by
  have hi := (vidx0 t).2.2.1
  unfold iblk0
  rw [View.read_apply]
  show V c (Pipeline.arrRef spec0 2) _ = V c (Pipeline.arrRef spec0 2) k
  congr 1
  funext a
  apply Fin.ext
  match a with
  | ⟨0, _⟩ => show win0_2.index t 0 * 2048 + 1 * (x 0).val = (k 0).val; rw [hi.1, hk0]; omega
  | ⟨1, _⟩ => show win0_2.index t 1 * 1 + 1 * (x 1).val = (k 1).val; rw [hi.2, hk1]; omega

theorem viblk0_0 (c : Dev nD) (t : Fin cfg0.N) (x : S50000x128.Idx) :
    (iblk0 V c 0 t : Vec Ideal S50000x128 .bf16) x = vtab0 V c x := by
  have hi := (vidx0 t).1
  unfold iblk0
  rw [View.read_apply]
  show V c (Pipeline.arrRef spec0 0) _ = V c (Pipeline.arrRef spec0 0) x
  congr 1
  funext a
  apply Fin.ext
  match a with
  | ⟨0, _⟩ => show win0_0.index t 0 * 50000 + 1 * (x 0).val = (x 0).val; rw [hi.1]; omega
  | ⟨1, _⟩ => show win0_0.index t 1 * 128 + 1 * (x 1).val = (x 1).val; rw [hi.2]; omega

theorem vrows0_apply (c : Dev nD) (t : Fin cfg0.N) (r : Fin 2000) (k : Fin 128) (j : S50000x128.Idx)
    (hj0 : (j 0).val = 2000 * (t.val % 25) + r.val) (hj1 : (j 1).val = k.val) :
    rows0 V c t (ix2 r k) = vtab0 V c j := by
  show iblk0 V c 0 t _ = _
  rw [viblk0_0]
  congr 1
  funext a
  apply Fin.ext
  have hc := (vcoords0 t).2
  match a with
  | ⟨0, _⟩ =>
    show k0_off1 (grid0.coords t) 0 + 1 * r.val = (j 0).val
    rw [k0_off1_eq, hj0]
    show 2000 * ((grid0.coords t) 1).val + 1 * r.val = _
    rw [hc]; omega
  | ⟨1, _⟩ =>
    show k0_off1 (grid0.coords t) 1 + 1 * k.val = (j 1).val
    rw [k0_off1_eq, hj1]
    show 0 + 1 * k.val = _
    omega

def vedge0 (t : Fin cfg0.N) (e : Fin 2048) : Fin 600064 :=
  ⟨2048 * (t.val / 25) + e.val, by have := t.isLt; have : cfg0.N = 7325 := N_0; have := e.isLt; omega⟩

def vword0 (c : Dev nD) (t : Fin cfg0.N) (e : Fin 2048) : ℤ := (vsrc0 V c (ix2 (0 : Fin 1) (vedge0 t e))).toInt

theorem vpoint0 (c : Dev nD) (t : Fin cfg0.N) (A : Vec Ideal S2048x128 .f32) (e : Fin 2048) (k : Fin 128) :
    k0_pay2 (grid0.coords t) (iblk0 V c 1 t) (rows0 V c t) A (ix2 e k)
      = A (ix2 e k) + (if (2000 * (t.val % 25 : ℕ) : ℤ) ≤ vword0 V c t e ∧ vword0 V c t e < 2000 * (t.val % 25 : ℕ) + 2000
          then vrow (vtab0 V c) (vword0 V c t e) k else 0) := by
  refine (k0_pay2_apply _ _ _ _ e k).trans ?_
  refine congrArg (A (ix2 e k) + ·) ?_
  have hc := (vcoords0 t).2
  have hw : (iblk0 V c 1 t : Vec Ideal S1x2048 .i32) (ix2 (0 : Fin 1) e) = vsrc0 V c (ix2 (0 : Fin 1) (vedge0 t e)) :=
    viblk0_1 V c t _ _ rfl rfl
  rw [hw]
  have hlt : ((grid0.coords t) 1).val < 25 := by rw [hc]; omega
  refine (vtile_sum (vtab0 V c) _ ((grid0.coords t) 1).val hlt k _
    (fun r j h0 h1 => vrows0_apply V c t r k j (by rw [h0, hc]) h1)).trans ?_
  rw [hc]
  rfl

theorem vacc0_succ (c : Dev nD) (t : Fin cfg0.N) (A : Vec Ideal S2048x128 .f32) (e : Fin 2048) (k : Fin 128)
    (hA : A (ix2 e k) = vpart (vtab0 V c) (vword0 V c t e) (2000 * (t.val % 25)) k) :
    k0_pay2 (grid0.coords t) (iblk0 V c 1 t) (rows0 V c t) A (ix2 e k)
      = vpart (vtab0 V c) (vword0 V c t e) (2000 * (t.val % 25 + 1)) k := by
  rw [vpoint0, hA]
  exact vpart_step _ _ _ k

theorem vacc0_apply (c : Dev nD) : ∀ (n : ℕ) (hn : n < cfg0.N) (e : Fin 2048) (k : Fin 128),
    acc0 V c n hn (ix2 e k) = vpart (vtab0 V c) (vword0 V c ⟨n, hn⟩ e) (2000 * (n % 25 + 1)) k
  | 0, hn, e, k => by
    refine (congrFun (acc0_reset V c ⟨0, hn⟩ rfl) (ix2 e k)).trans ?_
    refine vacc0_succ V c ⟨0, hn⟩ _ e k ?_
    rw [k0_pay1_apply]
    exact (vpart_zero _ _ k).symm
  | n + 1, hn, e, k => by
    by_cases h : (n + 1) % 25 = 0
    · refine (congrFun (acc0_reset V c ⟨n + 1, hn⟩ h) (ix2 e k)).trans ?_
      refine vacc0_succ V c ⟨n + 1, hn⟩ _ e k ?_
      rw [k0_pay1_apply]
      show 0 = vpart _ _ (2000 * ((n + 1) % 25)) k
      rw [h]
      exact (vpart_zero _ _ k).symm
    · refine (congrFun (acc0_step V c ⟨n + 1, hn⟩ h) (ix2 e k)).trans ?_
      refine vacc0_succ V c ⟨n + 1, hn⟩ _ e k ?_
      show acc0 V c n _ (ix2 e k) = _
      rw [vacc0_apply c n _ e k]
      have h1 : n % 25 + 1 = (n + 1) % 25 := by omega
      have h2 : vedge0 ⟨n, Nat.lt_of_succ_lt hn⟩ e = vedge0 ⟨n + 1, hn⟩ e :=
        Fin.ext (by
          show 2048 * (n / 25) + e.val = 2048 * ((n + 1) / 25) + e.val
          have : n / 25 = (n + 1) / 25 := by omega
          rw [this])
      unfold vword0
      rw [h1, h2]

theorem vcut0_apply (t : Fin cfg0.N) (X : S2048x128.Idx → EReal) (e : Fin 2048) (k : Fin 128) :
    (cfg0.win 3).cut (grid0.coords t) X (ix2 e k) = X (ix2 e k) :=
  congrArg X (funext fun a => match a with | ⟨0, _⟩ => rfl | ⟨1, _⟩ => rfl)

theorem vlast0_apply (c : Dev nD) (t : Fin cfg0.N) (h24 : t.val % 25 = 24) (e : Fin 2048) (k : Fin 128) :
    k0_pay3 (acc0 V c t.val t.isLt) (iblk0 V c 2 t) (ix2 e k) = vout0 V c (ix2 (vedge0 t e) k) := by
  rw [k0_pay3_apply, vacc0_apply V c t.val t.isLt e k, viblk0_2 V c t (ix2 e (0 : Fin 1)) (ix2 (vedge0 t e) (0 : Fin 1)) rfl rfl,
    h24]
  show vpart (vtab0 V c) (vsrc0 V c (ix2 (0 : Fin 1) (vedge0 t e))).toInt 50000 k * _ = _
  rw [vpart_full]
  rfl

theorem vflushed0 (c : Dev nD) (t : Fin cfg0.N) (hf : (cfg0.win 3).flush t = true) :
    (dat0 (F := Ideal) V c).flushed 3 t = ((cfg0.win 3).blk t).view.read (Elt Ideal) (vout0 V c) := by
  have h24 : t.val % 25 = 24 := (flush0_3 t).mp hf
  have hi := (vidx0 t).2.2.2
  show (cfg0.win 3).cut (grid0.coords t) ((dat0 V c).after 3 t) = _
  rw [after0_3]
  funext y
  obtain ⟨e, k, rfl⟩ : ∃ (e : Fin 2048) (k : Fin 128), y = ix2 e k := ⟨y 0, y 1, eq_ix2 y⟩
  rw [vcut0_apply, vlast0_apply V c t h24, View.read_apply]
  show vout0 V c _ = vout0 V c _
  congr 1
  funext a
  apply Fin.ext
  match a with
  | ⟨0, _⟩ => show 2048 * (t.val / 25) + e.val = win0_3.index t 0 * 2048 + 1 * e.val; rw [hi.1]; omega
  | ⟨1, _⟩ => show k.val = win0_3.index t 1 * 128 + 1 * k.val; rw [hi.2]; omega

theorem varrAt0 (c : Dev nD) : (dat0 (F := Ideal) V c).arrAt 3 cfg0.N = vout0 V c :=
  (dat0 (F := Ideal) V c).arrAt_eq_of_cover 3 (vout0 V c) (vflushed0 V c) fun i => by
    have h0 : (i 0 : ℕ) < 600064 := (i 0).isLt
    have h1 : (i 1 : ℕ) < 128 := (i 1).isLt
    have hN : cfg0.N = 7325 := N_0
    let t : Fin cfg0.N := ⟨25 * ((i 0 : ℕ) / 2048) + 24, by omega⟩
    have hi := (vidx0 t).2.2.2
    refine ⟨t, (flush0_3 t).mpr (by show (25 * ((i 0 : ℕ) / 2048) + 24) % 25 = 24; omega), ?_⟩
    show i ∈ ((View.whole (Pipeline.arrRef spec0 3)).slice (win0_3.rect t)).set
    rw [View.set_slice_whole, Rect.mem_set_unit]
    intro a
    have ht : t.val / 25 = (i 0 : ℕ) / 2048 := by show (25 * ((i 0 : ℕ) / 2048) + 24) / 25 = _; omega
    match a with
    | ⟨0, _⟩ =>
      show win0_3.index t 0 * 2048 ≤ (i 0 : ℕ) ∧ (i 0 : ℕ) < win0_3.index t 0 * 2048 + 2048
      rw [hi.1, ht]; omega
    | ⟨1, _⟩ =>
      show win0_3.index t 1 * 128 ≤ (i 1 : ℕ) ∧ (i 1 : ℕ) < win0_3.index t 1 * 128 + 128
      rw [hi.2]; omega

theorem arrAt0_out (c : Dev nD) : (dat0 (F := Ideal) V c).arrAt 3 cfg0.N
    = Spec.unc2 (Spec.gatherK (n := 50000) (m := 600064) (d := 128)
        (Spec.cur2 (V c (Pipeline.arrRef spec0 0) : S50000x128.Idx → EReal))
        (fun e => (V c (Pipeline.arrRef spec0 1) : S1x600064.Idx → BitVec 32) (ix2 0 e))
        (fun e => (V c (Pipeline.arrRef spec0 2) : S600064x1.Idx → EReal) (ix2 e 0))) :=
  varrAt0 V c

end Cert.KernelIdeal.Hand

end
-- ==== Proof.KI.MatmulAt.lean ====
import Idealize.ShloMosaic.PureOps.Ideal.Laws
import Idealize.ShloMosaic.Lib.ValueIdx

open scoped BigOperators

noncomputable section

namespace Cert.KernelIdeal.Hand

open Idealize.ShloMosaic Idealize.ShloMosaic.ValueIdx

-- A product of an a × b by a b × c matrix into zero, at an entry: the sum over the one contracted axis.
theorem mm_apply {a b c : ℕ} (d : DotDims ⟨2, ![a, b]⟩ ⟨2, ![b, c]⟩ ⟨2, ![a, c]⟩) (hr : d.contr.rank = 1)
    (hs : d.contr.size ⟨0, by omega⟩ = b) (hl : d.lhsContracting = [1]) (hrc : d.rhsContracting = [0])
    (h0 : ∀ j q, (d.lhsIdx j q 0).val = (j 0).val) (h1 : ∀ j q, (d.rhsIdx j q 1).val = (j 1).val)
    (A : FVec Ideal ⟨2, ![a, b]⟩ .bf16) (B : FVec Ideal ⟨2, ![b, c]⟩ .bf16) (g : Fin a) (o : Fin c) :
    matmul d none A B (constant (F := Ideal) ⟨2, ![a, c]⟩ .f32 0x00000000#32) (ix2 g o) = ∑ k : Fin b, A (ix2 g k) * B (ix2 k o) := by
  simp only [matmul]
  rw [Ideal.matmul_constant_zero_apply, ← Equiv.sum_comp (contrEquiv1 d b hr hs).symm]
  refine Finset.sum_congr rfl fun k _ => ?_
  have hk := contrEquiv1_symm_val d b hr hs k
  have el : d.lhsIdx (ix2 g o) ((contrEquiv1 d b hr hs).symm k) = ix2 g k := funext fun x => Fin.ext (by
    match x with
    | ⟨0, _⟩ => exact h0 _ _
    | ⟨1, _⟩ => exact (d.lhsIdx_val_of_single hl _ _).trans hk)
  have er : d.rhsIdx (ix2 g o) ((contrEquiv1 d b hr hs).symm k) = ix2 k o := funext fun x => Fin.ext (by
    match x with
    | ⟨0, _⟩ => exact (d.rhsIdx_val_of_single hrc _ _).trans hk
    | ⟨1, _⟩ => exact h1 _ _)
  rw [el, er]

end Cert.KernelIdeal.Hand

end
-- ==== Proof.KI.Pay1.lean ====
import proofs.«402943_j87462714016644_3_alg».proof.Proof.Gen.KernelIdeal.Skeleton
import proofs.«402943_j87462714016644_3_alg».proof.Proof.Spec
import proofs.«402943_j87462714016644_3_alg».proof.Proof.KI.MatmulAt
import Idealize.ShloMosaic.PureOps.Ideal.Laws
import Idealize.ShloMosaic.Lib.ValueIdx
import Idealize.ShloMosaic.Lib.Pipeline.Value
import Idealize.ShloMosaic.Lib.ValueLayout

open scoped BigOperators

noncomputable section

namespace Cert.KernelIdeal.Hand

open Idealize.ShloMosaic Idealize.ShloMosaic.ValueIdx Cert.KernelIdeal Cert.KernelIdeal.Gen

theorem p1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem p1_ofNat_eq_iff_toInt (n : ℕ) (hn : n < 2 ^ 31) (w : BitVec 32) : BitVec.ofNat 32 n = w ↔ w.toInt = (n : ℤ) := by
  have hto : (BitVec.ofNat 32 n).toInt = (n : ℤ) := by
    rw [BitVec.toInt_ofNat']
    exact Int.bmod_eq_of_le (by omega) (by omega)
  constructor
  · intro h; rw [← h, hto]
  · intro h; exact BitVec.eq_of_toInt_eq (by rw [hto, h])

theorem p1_node_word (n r : ℕ) : BitVec.ofNat 32 n * 2000#32 + BitVec.ofNat 32 r = BitVec.ofNat 32 (n * 2000 + r) := by
  rw [BitVec.ofNat_add, BitVec.ofNat_mul]

theorem p1_onehot (a b : BitVec 32) :
    (FloatOps.sitofp (F := Ideal) .f32 ((IntOp.cmpi .eq a b).setWidth 32) : EReal) = if a = b then 1 else 0 := by
  show (((((BitVec.ofBool (a == b)).setWidth 32).toInt : ℝ)) : EReal) = _
  have key : ((BitVec.ofBool (a == b)).setWidth 32).toInt = if a = b then 1 else 0 := by
    by_cases h : a = b
    · have hb : (a == b) = true := beq_iff_eq.mpr h
      rw [hb, if_pos h]; decide
    · have hb : (a == b) = false := beq_eq_false_iff_ne.mpr h
      rw [hb, if_neg h]; decide
  rw [key]
  split <;> simp

theorem p1_matmul_hot_apply (A : FVec Ideal S2000x2048 .bf16) (B : FVec Ideal S2048x128 .bf16) (r : Fin 2000) (k : Fin 128) :
    matmul dot_S2000x2048_S2048x128_S2000x128_1_0_0_1_n_n none A B (constant (F := Ideal) S2000x128 .f32 0x00000000#32) (ix2 r k)
      = ∑ e : Fin 2048, A (ix2 r e) * B (ix2 e k) :=
  mm_apply dot_S2000x2048_S2048x128_S2000x128_1_0_0_1_n_n rfl rfl rfl rfl (fun _ _ => rfl) (fun _ _ => rfl) A B r k

theorem p1_matmul_wt_apply (A : FVec Ideal S2000x128 .bf16) (B : FVec Ideal S128x128 .bf16) (r : Fin 2000) (q : Fin 128) :
    matmul dot_S2000x128_S128x128_S2000x128_1_0_0_1_n_n none A B (constant (F := Ideal) S2000x128 .f32 0x00000000#32) (ix2 r q)
      = ∑ k : Fin 128, A (ix2 r k) * B (ix2 k q) :=
  mm_apply dot_S2000x128_S128x128_S2000x128_1_0_0_1_n_n rfl rfl rfl rfl (fun _ _ => rfl) (fun _ _ => rfl) A B r q

theorem p1_node_ids_apply (n : ℕ) (r : Fin 2000) (e : Fin 2048) :
    broadcastTo S2000x2048 (addi (broadcast S2000x1 (Scalar.muli (BitVec.ofNat 32 n) 2000#32)) (iota .tc S2000x1 32 [0] iota_S2000x1_d0_w32))
      broadcasts_S2000x1_S2000x2048 (ix2 r e) = BitVec.ofNat 32 (n * 2000 + r.val) := by
  refine (p1_broadcastTo_a1_ab_apply _ _ r e).trans ?_
  show IntOp.addi (Scalar.muli (BitVec.ofNat 32 n) 2000#32) (iota .tc S2000x1 32 [0] iota_S2000x1_d0_w32 (ix2 r (0 : Fin 1))) = _
  rw [iota_single_apply]
  exact p1_node_word n r.val

theorem p1_hot_apply (n : ℕ) (hn : n < 25) (w : IVec S1x2048 32) (r : Fin 2000) (e : Fin 2048) :
    (truncf .bf16 (sitofp (F := Ideal) .f32 (extui 32 (cmpi .eq
        (broadcastTo S2000x2048 (addi (broadcast S2000x1 (Scalar.muli (BitVec.ofNat 32 n) 2000#32)) (iota .tc S2000x1 32 [0] iota_S2000x1_d0_w32)) broadcasts_S2000x1_S2000x2048)
        (broadcastTo S2000x2048 w broadcasts_S1x2048_S2000x2048)) natLt_1_32)) bitsLt_bf16_f32 : FVec Ideal S2000x2048 .bf16) (ix2 r e)
      = if (w (ix2 0 e)).toInt = ((n * 2000 + r.val : ℕ) : ℤ) then (1 : EReal) else 0 := by
  show FloatOps.sitofp (F := Ideal) .f32 ((IntOp.cmpi .eq (broadcastTo S2000x2048 _ broadcasts_S2000x1_S2000x2048 (ix2 r e))
    (broadcastTo S2000x2048 w broadcasts_S1x2048_S2000x2048 (ix2 r e))).setWidth 32) = _
  rw [p1_node_ids_apply, broadcastTo_1b_ab_apply, p1_onehot]
  have hr := r.isLt
  exact if_congr (p1_ofNat_eq_iff_toInt _ (by omega) _) rfl rfl

variable (i : grid1.Coords) (v7 : Vec Ideal S1x2048 .i32) (v15 : Vec Ideal S2048x128 .bf16)
  (v18 v26 v27 : Vec Ideal S2000x128 .f32) (v31 : Vec Ideal S128x128 .f32) (v34 : Vec Ideal S1x128 .f32)

theorem k1_pay1_apply (r : Fin 2000) (k : Fin 128) : k1_pay1 (F := Ideal) (ix2 r k) = 0 := by
  unfold k1_pay1
  simp only [shapeCast_self]
  exact Ideal.ofBits_zero_f32

theorem k1_pay2_apply (r : Fin 2000) (k : Fin 128) :
    k1_pay2 i v7 v15 v18 (ix2 r k) = v18 (ix2 r k) + ∑ e : Fin 2048,
      (if (v7 (ix2 0 e)).toInt = (((i 0).val * 2000 + r.val : ℕ) : ℤ) then (1 : EReal) else 0) * v15 (ix2 e k) := by
  unfold k1_pay2
  simp only [shapeCast_self]
  refine (addf_apply _ _ _).trans ?_
  refine congrArg (v18 (ix2 r k) + ·) ?_
  refine (p1_matmul_hot_apply _ _ r k).trans ?_
  refine Finset.sum_congr rfl fun e _ => ?_
  refine congrArg (· * v15 (ix2 e k)) ?_
  exact p1_hot_apply (i 0).val (i 0).isLt v7 r e

theorem k1_pay3_apply (r : Fin 2000) (q : Fin 128) :
    k1_pay3 v26 v27 v31 v34 (ix2 r q)
      = max ((∑ k : Fin 128, (v26 (ix2 r k) + v27 (ix2 r k)) * v31 (ix2 k q)) + v34 (ix2 0 q)) 0 := by
  unfold k1_pay3
  simp only [shapeCast_self]
  refine (maximumf_apply _ _ _).trans ?_
  refine congrArg₂ max ?_ Ideal.ofBits_zero_f32
  refine (addf_apply _ _ _).trans ?_
  refine congrArg₂ (· + ·) ((p1_matmul_wt_apply _ _ r q).trans ?_) (broadcastTo_1b_ab_apply _ _ r q)
  rfl

end Cert.KernelIdeal.Hand

end
-- ==== Proof.KI.Idx1.lean ====
import proofs.«402943_j87462714016644_3_alg».proof.Proof.Gen.KernelIdeal
import Idealize.ShloMosaic.Lib.Pipeline.Kit

set_option Elab.async false

namespace Cert.KernelIdeal.Hand

open Idealize.ShloMosaic Cert.KernelIdeal Cert.KernelIdeal.Gen

theorem crd1 : ∀ t : Fin cfg1.N, (grid1.coords t 0).val = t.val / 293 ∧ (grid1.coords t 1).val = t.val % 293 :=
  (by decide +kernel : ∀ t : Fin grid1.N, (grid1.coords t 0).val = t.val / 293 ∧ (grid1.coords t 1).val = t.val % 293)
theorem idx1_0 : ∀ t : Fin cfg1.N, win1_0.index t (0 : Fin 2) = t.val % 293 ∧ win1_0.index t (1 : Fin 2) = 0 :=
  (by decide +kernel : ∀ t : Fin grid1.N, win1_0.index t (0 : Fin 2) = t.val % 293 ∧ win1_0.index t (1 : Fin 2) = 0)
theorem idx1_1 : ∀ t : Fin cfg1.N, win1_1.index t (0 : Fin 2) = 0 ∧ win1_1.index t (1 : Fin 2) = t.val % 293 :=
  (by decide +kernel : ∀ t : Fin grid1.N, win1_1.index t (0 : Fin 2) = 0 ∧ win1_1.index t (1 : Fin 2) = t.val % 293)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val / 293 ∧ win1_4.index t (1 : Fin 2) = 0 :=
  (by decide +kernel : ∀ t : Fin grid1.N, win1_4.index t (0 : Fin 2) = t.val / 293 ∧ win1_4.index t (1 : Fin 2) = 0)
theorem idx1_5 : ∀ t : Fin cfg1.N, win1_5.index t (0 : Fin 2) = t.val / 293 ∧ win1_5.index t (1 : Fin 2) = 0 :=
  (by decide +kernel : ∀ t : Fin grid1.N, win1_5.index t (0 : Fin 2) = t.val / 293 ∧ win1_5.index t (1 : Fin 2) = 0)

end Cert.KernelIdeal.Hand
-- ==== Proof.KI.ScatterVal.lean ====
import proofs.«402943_j87462714016644_3_alg».proof.Proof.Spec
import Idealize.ShloMosaic.Lib.ValueIdx

open scoped BigOperators

noncomputable section

namespace Cert.KernelIdeal.Hand

open Idealize.ShloMosaic Idealize.ShloMosaic.ValueIdx Cert.Proof

section

variable (Y : Fin 600064 → Fin 128 → EReal) (dst : Fin 600064 → BitVec 32)

def part (i J : ℕ) (k : Fin 128) : EReal :=
  ∑ e : Fin 600064, if e.val < 2048 * J ∧ (dst e).toInt = (i : ℤ) then Y e k else 0

theorem part_zero (i : ℕ) (k : Fin 128) : part Y dst i 0 k = 0 := by
  unfold part
  refine Finset.sum_eq_zero fun e _ => if_neg ?_
  intro h
  have := h.1
  omega

def edge (J : ℕ) (hJ : J < 293) (e : Fin 2048) : Fin 600064 := ⟨2048 * J + e.val, by have := e.isLt; omega⟩

theorem edge_val (J : ℕ) (hJ : J < 293) (e : Fin 2048) : (edge J hJ e).val = 2048 * J + e.val := rfl

theorem part_succ (i J : ℕ) (hJ : J < 293) (k : Fin 128) :
    part Y dst i (J + 1) k = part Y dst i J k
      + ∑ e : Fin 2048, (if (dst (edge J hJ e)).toInt = (i : ℤ) then (1 : EReal) else 0) * Y (edge J hJ e) k := by
  have hmap : (Finset.univ.filter fun e' : Fin 600064 => 2048 * J ≤ e'.val ∧ e'.val < 2048 * (J + 1))
      = Finset.univ.map ⟨edge J hJ, fun a b h => Fin.ext (by
          have := congrArg Fin.val h; rw [edge_val, edge_val] at this; omega)⟩ := by
    ext e'
    simp only [Finset.mem_filter, Finset.mem_univ, true_and, Finset.mem_map, Function.Embedding.coeFn_mk]
    constructor
    · intro h; exact ⟨⟨e'.val - 2048 * J, by omega⟩, Fin.ext (by show 2048 * J + (e'.val - 2048 * J) = e'.val; omega)⟩
    · rintro ⟨e, rfl⟩
      have := e.isLt
      show 2048 * J ≤ 2048 * J + e.val ∧ 2048 * J + e.val < 2048 * (J + 1)
      constructor <;> omega
  have hsplit : ∀ e' : Fin 600064, (if e'.val < 2048 * (J + 1) ∧ (dst e').toInt = (i : ℤ) then Y e' k else 0)
      = (if e'.val < 2048 * J ∧ (dst e').toInt = (i : ℤ) then Y e' k else 0)
        + (if 2048 * J ≤ e'.val ∧ e'.val < 2048 * (J + 1) then (if (dst e').toInt = (i : ℤ) then Y e' k else 0) else 0) := by
    intro e'
    by_cases hp : (dst e').toInt = (i : ℤ)
    · by_cases ha : e'.val < 2048 * J
      · have hb : ¬(2048 * J ≤ e'.val ∧ e'.val < 2048 * (J + 1)) := by omega
        rw [if_pos ⟨by omega, hp⟩, if_pos ⟨ha, hp⟩, if_neg hb, add_zero]
      · by_cases hc : e'.val < 2048 * (J + 1)
        · rw [if_pos ⟨hc, hp⟩, if_neg (fun h => ha h.1), if_pos ⟨by omega, hc⟩, if_pos hp, zero_add]
        · rw [if_neg (fun h => hc h.1), if_neg (fun h => ha h.1), if_neg (fun h => hc h.2), add_zero]
    · rw [if_neg (fun h => hp h.2), if_neg (fun h => hp h.2), if_neg hp]; simp
  unfold part
  rw [Finset.sum_congr rfl fun e' _ => hsplit e', Finset.sum_add_distrib]
  refine congrArg₂ (· + ·) rfl ?_
  rw [← Finset.sum_filter, hmap, Finset.sum_map]
  refine Finset.sum_congr rfl fun e _ => ?_
  show (if (dst (edge J hJ e)).toInt = (i : ℤ) then Y (edge J hJ e) k else 0) = _
  split <;> simp

theorem part_last (i : ℕ) (k : Fin 128) : part Y dst i 293 k = ∑ e ∈ Spec.hits dst i, Y e k := by
  unfold part Spec.hits
  rw [Finset.sum_filter]
  refine Finset.sum_congr rfl fun e _ => ?_
  have := e.isLt
  exact if_congr ⟨fun h => h.2, fun h => ⟨by omega, h⟩⟩ rfl rfl

end

theorem ext_ix2 {α : Type} {a b : ℕ} {f g : (⟨2, ![a, b]⟩ : Shape).Idx → α} (h : ∀ r q, f (ix2 r q) = g (ix2 r q)) :
    f = g :=
  funext fun y => by rw [eq_ix2 y]; exact h _ _

end Cert.KernelIdeal.Hand

end
-- ==== Proof.KI.Val1.lean ====
import proofs.«402943_j87462714016644_3_alg».proof.Proof.KI.Region1
import proofs.«402943_j87462714016644_3_alg».proof.Proof.KI.Pay1
import proofs.«402943_j87462714016644_3_alg».proof.Proof.KI.Idx1
import proofs.«402943_j87462714016644_3_alg».proof.Proof.KI.ScatterVal
import Idealize.ShloMosaic.Lib.Pipeline.Value
import Idealize.ShloMosaic.Lib.ValueIdx

open scoped BigOperators

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Proof

variable (V : (c : Dev nD) → (b : Ref sig .tc) → Buf (Elt Ideal) ((c : Thread nD τ).loc b))

abbrev earr1 (c : Dev nD) : Vec Ideal S600064x128 .bf16 := V c (Pipeline.arrRef spec1 0)
abbrev warr1 (c : Dev nD) : Vec Ideal S1x600064 .i32 := V c (Pipeline.arrRef spec1 1)
abbrev marr1 (c : Dev nD) : Vec Ideal S128x128 .f32 := V c (Pipeline.arrRef spec1 2)
abbrev barr1 (c : Dev nD) : Vec Ideal S1x128 .f32 := V c (Pipeline.arrRef spec1 3)
abbrev sarr1 (c : Dev nD) : Vec Ideal S50000x128 .f32 := V c (Pipeline.arrRef spec1 4)

abbrev eblk1 (c : Dev nD) (t : Fin cfg1.N) : Vec Ideal S2048x128 .bf16 := iblk1 V c 0 t
abbrev wblk1 (c : Dev nD) (t : Fin cfg1.N) : Vec Ideal S1x2048 .i32 := iblk1 V c 1 t
abbrev mblk1 (c : Dev nD) (t : Fin cfg1.N) : Vec Ideal S128x128 .f32 := iblk1 V c 2 t
abbrev bblk1 (c : Dev nD) (t : Fin cfg1.N) : Vec Ideal S1x128 .f32 := iblk1 V c 3 t
abbrev sblk1 (c : Dev nD) (t : Fin cfg1.N) : Vec Ideal S2000x128 .f32 := iblk1 V c 4 t

theorem eblk1_apply (c : Dev nD) (t : Fin cfg1.N) (e : Fin 2048) (k : Fin 128) (e' : Fin 600064)
    (he : e'.val = 2048 * (t.val % 293) + e.val) : eblk1 V c t (ix2 e k) = earr1 V c (ix2 e' k) := by
  obtain ⟨ha, hb⟩ := idx1_0 t
  show ((cfg1.win 0).blk t).view.read (Elt Ideal) (V c (Pipeline.arrRef spec1 0)) (ix2 e k) = _
  rw [View.read_apply]
  show earr1 V c _ = earr1 V c _
  refine congrArg (earr1 V c) (funext fun a => Fin.ext ?_)
  match a with
  | ⟨0, _⟩ => show win1_0.index t (0 : Fin 2) * 2048 + 1 * e.val = e'.val; rw [ha, he]; omega
  | ⟨1, _⟩ => show win1_0.index t (1 : Fin 2) * 128 + 1 * k.val = k.val; rw [hb]; omega

theorem wblk1_apply (c : Dev nD) (t : Fin cfg1.N) (e : Fin 2048) (e' : Fin 600064)
    (he : e'.val = 2048 * (t.val % 293) + e.val) : wblk1 V c t (ix2 0 e) = warr1 V c (ix2 0 e') := by
  obtain ⟨ha, hb⟩ := idx1_1 t
  show ((cfg1.win 1).blk t).view.read (Elt Ideal) (V c (Pipeline.arrRef spec1 1)) (ix2 0 e) = _
  rw [View.read_apply]
  show warr1 V c _ = warr1 V c _
  refine congrArg (warr1 V c) (funext fun a => Fin.ext ?_)
  match a with
  | ⟨0, _⟩ => show win1_1.index t (0 : Fin 2) * 1 + 1 * 0 = 0; rw [ha]
  | ⟨1, _⟩ => show win1_1.index t (1 : Fin 2) * 2048 + 1 * e.val = e'.val; rw [hb, he]; omega

theorem mblk1_apply (c : Dev nD) (t : Fin cfg1.N) (k q : Fin 128) : mblk1 V c t (ix2 k q) = marr1 V c (ix2 k q) := by
  obtain ⟨ha, hb⟩ := idx1_2 t
  show ((cfg1.win 2).blk t).view.read (Elt Ideal) (V c (Pipeline.arrRef spec1 2)) (ix2 k q) = _
  rw [View.read_apply]
  show marr1 V c _ = marr1 V c _
  refine congrArg (marr1 V c) (funext fun a => Fin.ext ?_)
  match a with
  | ⟨0, _⟩ => show win1_2.index t (0 : Fin 2) * 128 + 1 * k.val = k.val; rw [ha]; omega
  | ⟨1, _⟩ => show win1_2.index t (1 : Fin 2) * 128 + 1 * q.val = q.val; rw [hb]; omega

theorem bblk1_apply (c : Dev nD) (t : Fin cfg1.N) (q : Fin 128) : bblk1 V c t (ix2 0 q) = barr1 V c (ix2 0 q) := by
  obtain ⟨ha, hb⟩ := idx1_3 t
  show ((cfg1.win 3).blk t).view.read (Elt Ideal) (V c (Pipeline.arrRef spec1 3)) (ix2 0 q) = _
  rw [View.read_apply]
  show barr1 V c _ = barr1 V c _
  refine congrArg (barr1 V c) (funext fun a => Fin.ext ?_)
  match a with
  | ⟨0, _⟩ => show win1_3.index t (0 : Fin 2) * 1 + 1 * 0 = 0; rw [ha]
  | ⟨1, _⟩ => show win1_3.index t (1 : Fin 2) * 128 + 1 * q.val = q.val; rw [hb]; omega

theorem sblk1_apply (c : Dev nD) (t : Fin cfg1.N) (r : Fin 2000) (k : Fin 128) (i : Fin 50000)
    (hi : i.val = t.val / 293 * 2000 + r.val) : sblk1 V c t (ix2 r k) = sarr1 V c (ix2 i k) := by
  obtain ⟨ha, hb⟩ := idx1_4 t
  show ((cfg1.win 4).blk t).view.read (Elt Ideal) (V c (Pipeline.arrRef spec1 4)) (ix2 r k) = _
  rw [View.read_apply]
  show sarr1 V c _ = sarr1 V c _
  refine congrArg (sarr1 V c) (funext fun a => Fin.ext ?_)
  match a with
  | ⟨0, _⟩ => show win1_4.index t (0 : Fin 2) * 2000 + 1 * r.val = i.val; rw [ha, hi]; omega
  | ⟨1, _⟩ => show win1_4.index t (1 : Fin 2) * 128 + 1 * k.val = k.val; rw [hb]; omega

abbrev dstOf1 (c : Dev nD) : Fin 600064 → BitVec 32 := fun e => warr1 V c (ix2 0 e)
abbrev rowsOf1 (c : Dev nD) : Fin 600064 → Fin 128 → EReal := Spec.cur2 (earr1 V c)

theorem tile1_apply (c : Dev nD) (t : Fin cfg1.N) (hJ : t.val % 293 < 293) (X : Vec Ideal S2000x128 .f32)
    (r : Fin 2000) (k : Fin 128) :
    k1_pay2 (grid1.coords t) (wblk1 V c t) (eblk1 V c t) X (ix2 r k)
      = X (ix2 r k) + ∑ e : Fin 2048,
          (if (dstOf1 V c (edge (t.val % 293) hJ e)).toInt = ((t.val / 293 * 2000 + r.val : ℕ) : ℤ) then (1 : EReal) else 0)
            * rowsOf1 V c (edge (t.val % 293) hJ e) k := by
  refine (k1_pay2_apply (grid1.coords t) (wblk1 V c t) (eblk1 V c t) X r k).trans ?_
  have hc : (grid1.coords t 0).val = t.val / 293 := (crd1 t).1
  refine congrArg (X (ix2 r k) + ·) (Finset.sum_congr rfl fun e _ => ?_)
  rw [hc, wblk1_apply V c t e (edge (t.val % 293) hJ e) rfl, eblk1_apply V c t e k (edge (t.val % 293) hJ e) rfl]
  rfl

theorem acc1_apply (c : Dev nD) (r : Fin 2000) (k : Fin 128) (v : ℕ) : ∀ hv : v < cfg1.N,
    acc1 V c v hv (ix2 r k) = part (rowsOf1 V c) (dstOf1 V c) (v / 293 * 2000 + r.val) (v % 293 + 1) k := by
  induction v using Nat.strong_induction_on with
  | _ v ih =>
    intro hv
    have hJ : v % 293 < 293 := Nat.mod_lt _ (by decide)
    by_cases hm : v % 293 = 0
    · refine (congrFun (acc1_reset V c ⟨v, hv⟩ hm) (ix2 r k)).trans ?_
      refine (tile1_apply V c ⟨v, hv⟩ hJ (k1_pay1 (F := Ideal)) r k).trans ?_
      rw [part_succ (rowsOf1 V c) (dstOf1 V c) (v / 293 * 2000 + r.val) (v % 293) hJ k]
      refine congrArg₂ (· + ·) ?_ rfl
      rw [k1_pay1_apply r k, hm, part_zero]
    · refine (congrFun (acc1_step V c ⟨v, hv⟩ hm) (ix2 r k)).trans ?_
      refine (tile1_apply V c ⟨v, hv⟩ hJ (acc1 V c (v - 1) (by omega)) r k).trans ?_
      rw [part_succ (rowsOf1 V c) (dstOf1 V c) (v / 293 * 2000 + r.val) (v % 293) hJ k]
      refine congrArg₂ (· + ·) ?_ rfl
      rw [ih (v - 1) (by omega) (by omega)]
      have ea : (v - 1) / 293 = v / 293 := by omega
      have eb : (v - 1) % 293 + 1 = v % 293 := by omega
      rw [ea, eb]

abbrev fin1 (x : EReal) : EReal := max x 0

theorem out1_apply (X S : Vec Ideal S2000x128 .f32) (M : Vec Ideal S128x128 .f32) (B : Vec Ideal S1x128 .f32)
    (r : Fin 2000) (q : Fin 128) :
    k1_pay3 X S M B (ix2 r q) = fin1 ((∑ k : Fin 128, (X (ix2 r k) + S (ix2 r k)) * M (ix2 k q)) + B (ix2 0 q)) :=
  k1_pay3_apply X S M B r q

abbrev G1 (c : Dev nD) : Vec Ideal S50000x128 .f32 :=
  Spec.unc2 (fun i q => fin1 (Spec.scatterK (m := 600064) (n := 50000) (d := 128) (d' := 128) (rowsOf1 V c) (dstOf1 V c)
    (Spec.cur2 (marr1 V c)) (fun q => barr1 V c (ix2 0 q)) (Spec.cur2 (sarr1 V c)) i q))

theorem cell1 (c : Dev nD) (t : Fin cfg1.N) (hm : t.val % 293 = 292) (r : Fin 2000) (q : Fin 128) (j : S50000x128.Idx)
    (hjr : (j 0).val = t.val / 293 * 2000 + r.val) (hjq : (j 1).val = q.val) :
    k1_pay3 (acc1 V c t.val t.isLt) (sblk1 V c t) (mblk1 V c t) (bblk1 V c t) (ix2 r q) = G1 V c j := by
  obtain ⟨i, q', rfl⟩ : ∃ (i : Fin 50000) (q' : Fin 128), j = ix2 i q' := ⟨j 0, j 1, eq_ix2 j⟩
  have hi : i.val = t.val / 293 * 2000 + r.val := hjr
  obtain rfl : q' = q := Fin.ext hjq
  refine (out1_apply (acc1 V c t.val t.isLt) (sblk1 V c t) (mblk1 V c t) (bblk1 V c t) r q').trans ?_
  show fin1 _ = fin1 (Spec.scatterK (rowsOf1 V c) (dstOf1 V c) (Spec.cur2 (marr1 V c)) (fun q => barr1 V c (ix2 0 q))
    (Spec.cur2 (sarr1 V c)) i q')
  unfold Spec.scatterK
  refine congrArg fin1 (congrArg₂ (· + ·) (Finset.sum_congr rfl fun k _ => ?_) (bblk1_apply V c t q'))
  refine congrArg₂ (· * ·) (congrArg₂ (· + ·) ?_ (sblk1_apply V c t r k i hi)) (mblk1_apply V c t k q')
  rw [acc1_apply V c r k t.val t.isLt, hm, ← hi]
  exact part_last (rowsOf1 V c) (dstOf1 V c) i.val k

theorem flushed1_eq (c : Dev nD) (t : Fin cfg1.N) (hf : (cfg1.win 5).flush t = true) :
    (dat1 (F := Ideal) V c).flushed 5 t = ((cfg1.win 5).blk t).view.read (Elt Ideal) (G1 V c) := by
  have hm : t.val % 293 = 292 := (flush1_5 t).mp hf
  obtain ⟨ha, hb⟩ := idx1_5 t
  show (cfg1.win 5).cut (grid1.coords t) ((dat1 (F := Ideal) V c).after 5 t) = _
  rw [after1_5]
  refine ext_ix2 (a := 2000) (b := 128) fun r q => ?_
  rw [View.read_apply]
  show k1_pay3 (acc1 V c t.val t.isLt) (sblk1 V c t) (mblk1 V c t) (bblk1 V c t) (ix2 r q) = G1 V c _
  refine cell1 V c t hm r q _ ?_ ?_
  · show win1_5.index t (0 : Fin 2) * 2000 + 1 * r.val = t.val / 293 * 2000 + r.val
    rw [ha]; omega
  · show win1_5.index t (1 : Fin 2) * 128 + 1 * q.val = q.val
    rw [hb]; omega

theorem mem_blk1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole (Pipeline.arrRef spec1 5)).slice (win1_5.rect t)).set ↔ _
  rw [View.set_slice_whole, Rect.mem_set_unit]
  exact Iff.rfl

theorem cover1 (i : S50000x128.Idx) :
    ∃ t : Fin cfg1.N, (cfg1.win 5).flush t = true ∧ i ∈ ((cfg1.win 5).blk t).view.set := by
  have hx : (i 0).val < 50000 := (i 0).isLt
  have hy : (i 1).val < 128 := (i 1).isLt
  have hN : cfg1.N = 7325 := N_1
  have hv : (i 0).val / 2000 * 293 + 292 < cfg1.N := by rw [hN]; omega
  refine ⟨⟨(i 0).val / 2000 * 293 + 292, hv⟩, (flush1_5 _).mpr (by show ((i 0).val / 2000 * 293 + 292) % 293 = 292; omega), ?_⟩
  obtain ⟨ha, hb⟩ := idx1_5 ⟨(i 0).val / 2000 * 293 + 292, hv⟩
  rw [mem_blk1]
  intro a
  match a with
  | ⟨0, _⟩ =>
    show win1_5.index ⟨(i 0).val / 2000 * 293 + 292, hv⟩ (0 : Fin 2) * 2000 ≤ (i 0).val
      ∧ (i 0).val < win1_5.index ⟨(i 0).val / 2000 * 293 + 292, hv⟩ (0 : Fin 2) * 2000 + 2000
    rw [ha]
    show ((i 0).val / 2000 * 293 + 292) / 293 * 2000 ≤ (i 0).val ∧ (i 0).val < ((i 0).val / 2000 * 293 + 292) / 293 * 2000 + 2000
    omega
  | ⟨1, _⟩ =>
    show win1_5.index ⟨(i 0).val / 2000 * 293 + 292, hv⟩ (1 : Fin 2) * 128 ≤ (i 1).val
      ∧ (i 1).val < win1_5.index ⟨(i 0).val / 2000 * 293 + 292, hv⟩ (1 : Fin 2) * 128 + 128
    rw [hb]; omega

theorem arrAt1_out (c : Dev nD) : (dat1 (F := Ideal) V c).arrAt 5 cfg1.N = Spec.unc2 (fun i q => max (Spec.scatterK (m := 600064) (n := 50000) (d := 128) (d' := 128) (Spec.cur2 (V c (Pipeline.arrRef spec1 0))) (fun e => V c (Pipeline.arrRef spec1 1) (ix2 0 e)) (Spec.cur2 (V c (Pipeline.arrRef spec1 2))) (fun q => V c (Pipeline.arrRef spec1 3) (ix2 0 q)) (Spec.cur2 (V c (Pipeline.arrRef spec1 4))) i q) 0) :=
  (dat1 (F := Ideal) V c).arrAt_eq_of_cover 5 (G1 V c) (flushed1_eq V c) cover1

end Cert.KernelIdeal.Hand

end
-- ==== Proof.KI.Pay2.lean ====
import proofs.«402943_j87462714016644_3_alg».proof.Proof.KI.Pay0

noncomputable section

namespace Cert.KernelIdeal.Hand

open Idealize.ShloMosaic Idealize.ShloMosaic.ValueIdx
open Cert.KernelIdeal Cert.KernelIdeal.Gen

-- The second gather region runs the first one's kernel function: its payloads are the same terms.
theorem k2_pay1_apply (e : Fin 2048) (k : Fin 128) : k2_pay1 (F := Ideal) (ix2 e k) = 0 := k0_pay1_apply e k

theorem k2_pay3_apply (v29 : Vec Ideal S2048x128 .f32) (v30 : Vec Ideal S2048x1 .f32) (e : Fin 2048) (k : Fin 128) :
    k2_pay3 v29 v30 (ix2 e k) = v29 (ix2 e k) * v30 (ix2 e 0) := k0_pay3_apply v29 v30 e k

theorem k2_pay2_apply (i : grid2.Coords) (v7 : Vec Ideal S1x2048 .i32) (v18 : Vec Ideal S2000x128 .bf16)
    (v21 : Vec Ideal S2048x128 .f32) (e : Fin 2048) (k : Fin 128) :
    k2_pay2 i v7 v18 v21 (ix2 e k) = v21 (ix2 e k) + ∑ r : Fin 2000,
      (if (v7 (ix2 0 e)).toInt = (((i 1).val * 2000 + r.val : ℕ) : Int) then (1 : EReal) else 0) * v18 (ix2 r k) :=
  k0_pay2_apply i v7 v18 v21 e k

end Cert.KernelIdeal.Hand

end
-- ==== Proof.KI.Val2.lean ====
import proofs.«402943_j87462714016644_3_alg».proof.Proof.KI.Region2
import proofs.«402943_j87462714016644_3_alg».proof.Proof.KI.Pay2
import proofs.«402943_j87462714016644_3_alg».proof.Proof.KI.GatherVal
import proofs.«402943_j87462714016644_3_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Proof

variable (V : (c : Dev nD) → (b : Ref sig .tc) → Buf (Elt Ideal) ((c : Thread nD τ).loc b))

abbrev vtab2 (c : Dev nD) : S50000x128.Idx → EReal := V c (Pipeline.arrRef spec2 0)

abbrev vsrc2 (c : Dev nD) : S1x600064.Idx → BitVec 32 := V c (Pipeline.arrRef spec2 1)

abbrev vwgt2 (c : Dev nD) : S600064x1.Idx → EReal := V c (Pipeline.arrRef spec2 2)

abbrev vout2 (c : Dev nD) : S600064x128.Idx → EReal :=
  Spec.unc2 (Spec.gatherK (n := 50000) (m := 600064) (d := 128) (Spec.cur2 (vtab2 V c))
    (fun e => vsrc2 V c (ix2 0 e)) (fun e => vwgt2 V c (ix2 e 0)))

theorem vidx2 : ∀ t : Fin cfg2.N,
    (win2_0.index t 0 = 0 ∧ win2_0.index t 1 = 0) ∧ (win2_1.index t 0 = 0 ∧ win2_1.index t 1 = t.val / 25)
    ∧ (win2_2.index t 0 = t.val / 25 ∧ win2_2.index t 1 = 0) ∧ (win2_3.index t 0 = t.val / 25 ∧ win2_3.index t 1 = 0) :=
  (by decide +kernel : ∀ t : Fin grid2.N, _)

theorem vcoords2 : ∀ t : Fin cfg2.N, ((grid2.coords t) 0).val = t.val / 25 ∧ ((grid2.coords t) 1).val = t.val % 25 :=
  (by decide +kernel : ∀ t : Fin grid2.N, _)

theorem viblk2_1 (c : Dev nD) (t : Fin cfg2.N) (x : S1x2048.Idx) (k : S1x600064.Idx)
    (hk0 : (k 0).val = (x 0).val) (hk1 : (k 1).val = 2048 * (t.val / 25) + (x 1).val) :
    (iblk2 V c 1 t : Vec Ideal S1x2048 .i32) x = vsrc2 V c k := by
  have hi := (vidx2 t).2.1
  unfold iblk2
  rw [View.read_apply]
  show V c (Pipeline.arrRef spec2 1) _ = V c (Pipeline.arrRef spec2 1) k
  congr 1
  funext a
  apply Fin.ext
  match a with
  | ⟨0, _⟩ => show win2_1.index t 0 * 1 + 1 * (x 0).val = (k 0).val; rw [hi.1, hk0]; omega
  | ⟨1, _⟩ => show win2_1.index t 1 * 2048 + 1 * (x 1).val = (k 1).val; rw [hi.2, hk1]; omega

theorem viblk2_2 (c : Dev nD) (t : Fin cfg2.N) (x : S2048x1.Idx) (k : S600064x1.Idx)
    (hk0 : (k 0).val = 2048 * (t.val / 25) + (x 0).val) (hk1 : (k 1).val = (x 1).val) :
    (iblk2 V c 2 t : Vec Ideal S2048x1 .f32) x = vwgt2 V c k := by
  have hi := (vidx2 t).2.2.1
  unfold iblk2
  rw [View.read_apply]
  show V c (Pipeline.arrRef spec2 2) _ = V c (Pipeline.arrRef spec2 2) k
  congr 1
  funext a
  apply Fin.ext
  match a with
  | ⟨0, _⟩ => show win2_2.index t 0 * 2048 + 1 * (x 0).val = (k 0).val; rw [hi.1, hk0]; omega
  | ⟨1, _⟩ => show win2_2.index t 1 * 1 + 1 * (x 1).val = (k 1).val; rw [hi.2, hk1]; omega

theorem viblk2_0 (c : Dev nD) (t : Fin cfg2.N) (x : S50000x128.Idx) :
    (iblk2 V c 0 t : Vec Ideal S50000x128 .bf16) x = vtab2 V c x := by
  have hi := (vidx2 t).1
  unfold iblk2
  rw [View.read_apply]
  show V c (Pipeline.arrRef spec2 0) _ = V c (Pipeline.arrRef spec2 0) x
  congr 1
  funext a
  apply Fin.ext
  match a with
  | ⟨0, _⟩ => show win2_0.index t 0 * 50000 + 1 * (x 0).val = (x 0).val; rw [hi.1]; omega
  | ⟨1, _⟩ => show win2_0.index t 1 * 128 + 1 * (x 1).val = (x 1).val; rw [hi.2]; omega

theorem vrows2_apply (c : Dev nD) (t : Fin cfg2.N) (r : Fin 2000) (k : Fin 128) (j : S50000x128.Idx)
    (hj0 : (j 0).val = 2000 * (t.val % 25) + r.val) (hj1 : (j 1).val = k.val) :
    rows2 V c t (ix2 r k) = vtab2 V c j := by
  show iblk2 V c 0 t _ = _
  rw [viblk2_0]
  congr 1
  funext a
  apply Fin.ext
  have hc := (vcoords2 t).2
  match a with
  | ⟨0, _⟩ =>
    show k2_off1 (grid2.coords t) 0 + 1 * r.val = (j 0).val
    rw [k2_off1_eq, hj0]
    show 2000 * ((grid2.coords t) 1).val + 1 * r.val = _
    rw [hc]; omega
  | ⟨1, _⟩ =>
    show k2_off1 (grid2.coords t) 1 + 1 * k.val = (j 1).val
    rw [k2_off1_eq, hj1]
    show 0 + 1 * k.val = _
    omega

def vedge2 (t : Fin cfg2.N) (e : Fin 2048) : Fin 600064 :=
  ⟨2048 * (t.val / 25) + e.val, by have := t.isLt; have : cfg2.N = 7325 := N_2; have := e.isLt; omega⟩

def vword2 (c : Dev nD) (t : Fin cfg2.N) (e : Fin 2048) : ℤ := (vsrc2 V c (ix2 (0 : Fin 1) (vedge2 t e))).toInt

theorem vpoint2 (c : Dev nD) (t : Fin cfg2.N) (A : Vec Ideal S2048x128 .f32) (e : Fin 2048) (k : Fin 128) :
    k2_pay2 (grid2.coords t) (iblk2 V c 1 t) (rows2 V c t) A (ix2 e k)
      = A (ix2 e k) + (if (2000 * (t.val % 25 : ℕ) : ℤ) ≤ vword2 V c t e ∧ vword2 V c t e < 2000 * (t.val % 25 : ℕ) + 2000
          then vrow (vtab2 V c) (vword2 V c t e) k else 0) := by
  refine (k2_pay2_apply _ _ _ _ e k).trans ?_
  refine congrArg (A (ix2 e k) + ·) ?_
  have hc := (vcoords2 t).2
  have hw : (iblk2 V c 1 t : Vec Ideal S1x2048 .i32) (ix2 (0 : Fin 1) e) = vsrc2 V c (ix2 (0 : Fin 1) (vedge2 t e)) :=
    viblk2_1 V c t _ _ rfl rfl
  rw [hw]
  have hlt : ((grid2.coords t) 1).val < 25 := by rw [hc]; omega
  refine (vtile_sum (vtab2 V c) _ ((grid2.coords t) 1).val hlt k _
    (fun r j h0 h1 => vrows2_apply V c t r k j (by rw [h0, hc]) h1)).trans ?_
  rw [hc]
  rfl

theorem vacc2_succ (c : Dev nD) (t : Fin cfg2.N) (A : Vec Ideal S2048x128 .f32) (e : Fin 2048) (k : Fin 128)
    (hA : A (ix2 e k) = vpart (vtab2 V c) (vword2 V c t e) (2000 * (t.val % 25)) k) :
    k2_pay2 (grid2.coords t) (iblk2 V c 1 t) (rows2 V c t) A (ix2 e k)
      = vpart (vtab2 V c) (vword2 V c t e) (2000 * (t.val % 25 + 1)) k := by
  rw [vpoint2, hA]
  exact vpart_step _ _ _ k

theorem vacc2_apply (c : Dev nD) : ∀ (n : ℕ) (hn : n < cfg2.N) (e : Fin 2048) (k : Fin 128),
    acc2 V c n hn (ix2 e k) = vpart (vtab2 V c) (vword2 V c ⟨n, hn⟩ e) (2000 * (n % 25 + 1)) k
  | 0, hn, e, k => by
    refine (congrFun (acc2_reset V c ⟨0, hn⟩ rfl) (ix2 e k)).trans ?_
    refine vacc2_succ V c ⟨0, hn⟩ _ e k ?_
    rw [k2_pay1_apply]
    exact (vpart_zero _ _ k).symm
  | n + 1, hn, e, k => by
    by_cases h : (n + 1) % 25 = 0
    · refine (congrFun (acc2_reset V c ⟨n + 1, hn⟩ h) (ix2 e k)).trans ?_
      refine vacc2_succ V c ⟨n + 1, hn⟩ _ e k ?_
      rw [k2_pay1_apply]
      show 0 = vpart _ _ (2000 * ((n + 1) % 25)) k
      rw [h]
      exact (vpart_zero _ _ k).symm
    · refine (congrFun (acc2_step V c ⟨n + 1, hn⟩ h) (ix2 e k)).trans ?_
      refine vacc2_succ V c ⟨n + 1, hn⟩ _ e k ?_
      show acc2 V c n _ (ix2 e k) = _
      rw [vacc2_apply c n _ e k]
      have h1 : n % 25 + 1 = (n + 1) % 25 := by omega
      have h2 : vedge2 ⟨n, Nat.lt_of_succ_lt hn⟩ e = vedge2 ⟨n + 1, hn⟩ e :=
        Fin.ext (by
          show 2048 * (n / 25) + e.val = 2048 * ((n + 1) / 25) + e.val
          have : n / 25 = (n + 1) / 25 := by omega
          rw [this])
      unfold vword2
      rw [h1, h2]

theorem vcut2_apply (t : Fin cfg2.N) (X : S2048x128.Idx → EReal) (e : Fin 2048) (k : Fin 128) :
    (cfg2.win 3).cut (grid2.coords t) X (ix2 e k) = X (ix2 e k) :=
  congrArg X (funext fun a => match a with | ⟨0, _⟩ => rfl | ⟨1, _⟩ => rfl)

theorem vlast2_apply (c : Dev nD) (t : Fin cfg2.N) (h24 : t.val % 25 = 24) (e : Fin 2048) (k : Fin 128) :
    k2_pay3 (acc2 V c t.val t.isLt) (iblk2 V c 2 t) (ix2 e k) = vout2 V c (ix2 (vedge2 t e) k) := by
  rw [k2_pay3_apply, vacc2_apply V c t.val t.isLt e k, viblk2_2 V c t (ix2 e (0 : Fin 1)) (ix2 (vedge2 t e) (0 : Fin 1)) rfl rfl,
    h24]
  show vpart (vtab2 V c) (vsrc2 V c (ix2 (0 : Fin 1) (vedge2 t e))).toInt 50000 k * _ = _
  rw [vpart_full]
  rfl

theorem vflushed2 (c : Dev nD) (t : Fin cfg2.N) (hf : (cfg2.win 3).flush t = true) :
    (dat2 (F := Ideal) V c).flushed 3 t = ((cfg2.win 3).blk t).view.read (Elt Ideal) (vout2 V c) := by
  have h24 : t.val % 25 = 24 := (flush2_3 t).mp hf
  have hi := (vidx2 t).2.2.2
  show (cfg2.win 3).cut (grid2.coords t) ((dat2 V c).after 3 t) = _
  rw [after2_3]
  funext y
  obtain ⟨e, k, rfl⟩ : ∃ (e : Fin 2048) (k : Fin 128), y = ix2 e k := ⟨y 0, y 1, eq_ix2 y⟩
  rw [vcut2_apply, vlast2_apply V c t h24, View.read_apply]
  show vout2 V c _ = vout2 V c _
  congr 1
  funext a
  apply Fin.ext
  match a with
  | ⟨0, _⟩ => show 2048 * (t.val / 25) + e.val = win2_3.index t 0 * 2048 + 1 * e.val; rw [hi.1]; omega
  | ⟨1, _⟩ => show k.val = win2_3.index t 1 * 128 + 1 * k.val; rw [hi.2]; omega

theorem varrAt2 (c : Dev nD) : (dat2 (F := Ideal) V c).arrAt 3 cfg2.N = vout2 V c :=
  (dat2 (F := Ideal) V c).arrAt_eq_of_cover 3 (vout2 V c) (vflushed2 V c) fun i => by
    have h0 : (i 0 : ℕ) < 600064 := (i 0).isLt
    have h1 : (i 1 : ℕ) < 128 := (i 1).isLt
    have hN : cfg2.N = 7325 := N_2
    let t : Fin cfg2.N := ⟨25 * ((i 0 : ℕ) / 2048) + 24, by omega⟩
    have hi := (vidx2 t).2.2.2
    refine ⟨t, (flush2_3 t).mpr (by show (25 * ((i 0 : ℕ) / 2048) + 24) % 25 = 24; omega), ?_⟩
    show i ∈ ((View.whole (Pipeline.arrRef spec2 3)).slice (win2_3.rect t)).set
    rw [View.set_slice_whole, Rect.mem_set_unit]
    intro a
    have ht : t.val / 25 = (i 0 : ℕ) / 2048 := by show (25 * ((i 0 : ℕ) / 2048) + 24) / 25 = _; omega
    match a with
    | ⟨0, _⟩ =>
      show win2_3.index t 0 * 2048 ≤ (i 0 : ℕ) ∧ (i 0 : ℕ) < win2_3.index t 0 * 2048 + 2048
      rw [hi.1, ht]; omega
    | ⟨1, _⟩ =>
      show win2_3.index t 1 * 128 ≤ (i 1 : ℕ) ∧ (i 1 : ℕ) < win2_3.index t 1 * 128 + 128
      rw [hi.2]; omega

theorem arrAt2_out (c : Dev nD) : (dat2 (F := Ideal) V c).arrAt 3 cfg2.N
    = Spec.unc2 (Spec.gatherK (n := 50000) (m := 600064) (d := 128)
        (Spec.cur2 (V c (Pipeline.arrRef spec2 0) : S50000x128.Idx → EReal))
        (fun e => (V c (Pipeline.arrRef spec2 1) : S1x600064.Idx → BitVec 32) (ix2 0 e))
        (fun e => (V c (Pipeline.arrRef spec2 2) : S600064x1.Idx → EReal) (ix2 e 0))) :=
  varrAt2 V c

end Cert.KernelIdeal.Hand

end
-- ==== Proof.KI.Pay3.lean ====
import proofs.«402943_j87462714016644_3_alg».proof.Proof.KI.Pay1

open scoped BigOperators

noncomputable section

namespace Cert.KernelIdeal.Hand

open Idealize.ShloMosaic Idealize.ShloMosaic.ValueIdx Cert.KernelIdeal Cert.KernelIdeal.Gen

variable (i : grid3.Coords) (v7 : Vec Ideal S1x2048 .i32) (v15 : Vec Ideal S2048x128 .bf16)
  (v18 v26 v27 : Vec Ideal S2000x128 .f32) (v31 : Vec Ideal S128x128 .f32) (v34 : Vec Ideal S1x128 .f32)

theorem k3_pay1_apply (r : Fin 2000) (k : Fin 128) : k3_pay1 (F := Ideal) (ix2 r k) = 0 := by
  unfold k3_pay1
  simp only [shapeCast_self]
  exact Ideal.ofBits_zero_f32

theorem k3_pay2_apply (r : Fin 2000) (k : Fin 128) :
    k3_pay2 i v7 v15 v18 (ix2 r k) = v18 (ix2 r k) + ∑ e : Fin 2048,
      (if (v7 (ix2 0 e)).toInt = (((i 0).val * 2000 + r.val : ℕ) : ℤ) then (1 : EReal) else 0) * v15 (ix2 e k) := by
  unfold k3_pay2
  simp only [shapeCast_self]
  refine (addf_apply _ _ _).trans ?_
  refine congrArg (v18 (ix2 r k) + ·) ?_
  refine (p1_matmul_hot_apply _ _ r k).trans ?_
  refine Finset.sum_congr rfl fun e _ => ?_
  refine congrArg (· * v15 (ix2 e k)) ?_
  exact p1_hot_apply (i 0).val (i 0).isLt v7 r e

theorem k3_pay3_apply (r : Fin 2000) (q : Fin 128) :
    k3_pay3 v26 v27 v31 v34 (ix2 r q)
      = (∑ k : Fin 128, (v26 (ix2 r k) + v27 (ix2 r k)) * v31 (ix2 k q)) + v34 (ix2 0 q) := by
  unfold k3_pay3
  simp only [shapeCast_self]
  refine (addf_apply _ _ _).trans ?_
  refine congrArg₂ (· + ·) ((p1_matmul_wt_apply _ _ r q).trans ?_) (broadcastTo_1b_ab_apply _ _ r q)
  rfl

end Cert.KernelIdeal.Hand

end
-- ==== Proof.KI.Idx3.lean ====
import proofs.«402943_j87462714016644_3_alg».proof.Proof.Gen.KernelIdeal
import Idealize.ShloMosaic.Lib.Pipeline.Kit

set_option Elab.async false

namespace Cert.KernelIdeal.Hand

open Idealize.ShloMosaic Cert.KernelIdeal Cert.KernelIdeal.Gen

theorem crd3 : ∀ t : Fin cfg3.N, (grid3.coords t 0).val = t.val / 293 ∧ (grid3.coords t 1).val = t.val % 293 :=
  (by decide +kernel : ∀ t : Fin grid3.N, (grid3.coords t 0).val = t.val / 293 ∧ (grid3.coords t 1).val = t.val % 293)
theorem idx3_0 : ∀ t : Fin cfg3.N, win3_0.index t (0 : Fin 2) = t.val % 293 ∧ win3_0.index t (1 : Fin 2) = 0 :=
  (by decide +kernel : ∀ t : Fin grid3.N, win3_0.index t (0 : Fin 2) = t.val % 293 ∧ win3_0.index t (1 : Fin 2) = 0)
theorem idx3_1 : ∀ t : Fin cfg3.N, win3_1.index t (0 : Fin 2) = 0 ∧ win3_1.index t (1 : Fin 2) = t.val % 293 :=
  (by decide +kernel : ∀ t : Fin grid3.N, win3_1.index t (0 : Fin 2) = 0 ∧ win3_1.index t (1 : Fin 2) = t.val % 293)
theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = t.val / 293 ∧ win3_4.index t (1 : Fin 2) = 0 :=
  (by decide +kernel : ∀ t : Fin grid3.N, win3_4.index t (0 : Fin 2) = t.val / 293 ∧ win3_4.index t (1 : Fin 2) = 0)
theorem idx3_5 : ∀ t : Fin cfg3.N, win3_5.index t (0 : Fin 2) = t.val / 293 ∧ win3_5.index t (1 : Fin 2) = 0 :=
  (by decide +kernel : ∀ t : Fin grid3.N, win3_5.index t (0 : Fin 2) = t.val / 293 ∧ win3_5.index t (1 : Fin 2) = 0)

end Cert.KernelIdeal.Hand
-- ==== Proof.KI.Val3.lean ====
import proofs.«402943_j87462714016644_3_alg».proof.Proof.KI.Region3
import proofs.«402943_j87462714016644_3_alg».proof.Proof.KI.Pay3
import proofs.«402943_j87462714016644_3_alg».proof.Proof.KI.Idx3
import proofs.«402943_j87462714016644_3_alg».proof.Proof.KI.ScatterVal
import Idealize.ShloMosaic.Lib.Pipeline.Value
import Idealize.ShloMosaic.Lib.ValueIdx

open scoped BigOperators

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Proof

variable (V : (c : Dev nD) → (b : Ref sig .tc) → Buf (Elt Ideal) ((c : Thread nD τ).loc b))

abbrev earr3 (c : Dev nD) : Vec Ideal S600064x128 .bf16 := V c (Pipeline.arrRef spec3 0)
abbrev warr3 (c : Dev nD) : Vec Ideal S1x600064 .i32 := V c (Pipeline.arrRef spec3 1)
abbrev marr3 (c : Dev nD) : Vec Ideal S128x128 .f32 := V c (Pipeline.arrRef spec3 2)
abbrev barr3 (c : Dev nD) : Vec Ideal S1x128 .f32 := V c (Pipeline.arrRef spec3 3)
abbrev sarr3 (c : Dev nD) : Vec Ideal S50000x128 .f32 := V c (Pipeline.arrRef spec3 4)

abbrev eblk3 (c : Dev nD) (t : Fin cfg3.N) : Vec Ideal S2048x128 .bf16 := iblk3 V c 0 t
abbrev wblk3 (c : Dev nD) (t : Fin cfg3.N) : Vec Ideal S1x2048 .i32 := iblk3 V c 1 t
abbrev mblk3 (c : Dev nD) (t : Fin cfg3.N) : Vec Ideal S128x128 .f32 := iblk3 V c 2 t
abbrev bblk3 (c : Dev nD) (t : Fin cfg3.N) : Vec Ideal S1x128 .f32 := iblk3 V c 3 t
abbrev sblk3 (c : Dev nD) (t : Fin cfg3.N) : Vec Ideal S2000x128 .f32 := iblk3 V c 4 t

theorem eblk3_apply (c : Dev nD) (t : Fin cfg3.N) (e : Fin 2048) (k : Fin 128) (e' : Fin 600064)
    (he : e'.val = 2048 * (t.val % 293) + e.val) : eblk3 V c t (ix2 e k) = earr3 V c (ix2 e' k) := by
  obtain ⟨ha, hb⟩ := idx3_0 t
  show ((cfg3.win 0).blk t).view.read (Elt Ideal) (V c (Pipeline.arrRef spec3 0)) (ix2 e k) = _
  rw [View.read_apply]
  show earr3 V c _ = earr3 V c _
  refine congrArg (earr3 V c) (funext fun a => Fin.ext ?_)
  match a with
  | ⟨0, _⟩ => show win3_0.index t (0 : Fin 2) * 2048 + 1 * e.val = e'.val; rw [ha, he]; omega
  | ⟨1, _⟩ => show win3_0.index t (1 : Fin 2) * 128 + 1 * k.val = k.val; rw [hb]; omega

theorem wblk3_apply (c : Dev nD) (t : Fin cfg3.N) (e : Fin 2048) (e' : Fin 600064)
    (he : e'.val = 2048 * (t.val % 293) + e.val) : wblk3 V c t (ix2 0 e) = warr3 V c (ix2 0 e') := by
  obtain ⟨ha, hb⟩ := idx3_1 t
  show ((cfg3.win 1).blk t).view.read (Elt Ideal) (V c (Pipeline.arrRef spec3 1)) (ix2 0 e) = _
  rw [View.read_apply]
  show warr3 V c _ = warr3 V c _
  refine congrArg (warr3 V c) (funext fun a => Fin.ext ?_)
  match a with
  | ⟨0, _⟩ => show win3_1.index t (0 : Fin 2) * 1 + 1 * 0 = 0; rw [ha]
  | ⟨1, _⟩ => show win3_1.index t (1 : Fin 2) * 2048 + 1 * e.val = e'.val; rw [hb, he]; omega

theorem mblk3_apply (c : Dev nD) (t : Fin cfg3.N) (k q : Fin 128) : mblk3 V c t (ix2 k q) = marr3 V c (ix2 k q) := by
  obtain ⟨ha, hb⟩ := idx3_2 t
  show ((cfg3.win 2).blk t).view.read (Elt Ideal) (V c (Pipeline.arrRef spec3 2)) (ix2 k q) = _
  rw [View.read_apply]
  show marr3 V c _ = marr3 V c _
  refine congrArg (marr3 V c) (funext fun a => Fin.ext ?_)
  match a with
  | ⟨0, _⟩ => show win3_2.index t (0 : Fin 2) * 128 + 1 * k.val = k.val; rw [ha]; omega
  | ⟨1, _⟩ => show win3_2.index t (1 : Fin 2) * 128 + 1 * q.val = q.val; rw [hb]; omega

theorem bblk3_apply (c : Dev nD) (t : Fin cfg3.N) (q : Fin 128) : bblk3 V c t (ix2 0 q) = barr3 V c (ix2 0 q) := by
  obtain ⟨ha, hb⟩ := idx3_3 t
  show ((cfg3.win 3).blk t).view.read (Elt Ideal) (V c (Pipeline.arrRef spec3 3)) (ix2 0 q) = _
  rw [View.read_apply]
  show barr3 V c _ = barr3 V c _
  refine congrArg (barr3 V c) (funext fun a => Fin.ext ?_)
  match a with
  | ⟨0, _⟩ => show win3_3.index t (0 : Fin 2) * 1 + 1 * 0 = 0; rw [ha]
  | ⟨1, _⟩ => show win3_3.index t (1 : Fin 2) * 128 + 1 * q.val = q.val; rw [hb]; omega

theorem sblk3_apply (c : Dev nD) (t : Fin cfg3.N) (r : Fin 2000) (k : Fin 128) (i : Fin 50000)
    (hi : i.val = t.val / 293 * 2000 + r.val) : sblk3 V c t (ix2 r k) = sarr3 V c (ix2 i k) := by
  obtain ⟨ha, hb⟩ := idx3_4 t
  show ((cfg3.win 4).blk t).view.read (Elt Ideal) (V c (Pipeline.arrRef spec3 4)) (ix2 r k) = _
  rw [View.read_apply]
  show sarr3 V c _ = sarr3 V c _
  refine congrArg (sarr3 V c) (funext fun a => Fin.ext ?_)
  match a with
  | ⟨0, _⟩ => show win3_4.index t (0 : Fin 2) * 2000 + 1 * r.val = i.val; rw [ha, hi]; omega
  | ⟨1, _⟩ => show win3_4.index t (1 : Fin 2) * 128 + 1 * k.val = k.val; rw [hb]; omega

abbrev dstOf3 (c : Dev nD) : Fin 600064 → BitVec 32 := fun e => warr3 V c (ix2 0 e)
abbrev rowsOf3 (c : Dev nD) : Fin 600064 → Fin 128 → EReal := Spec.cur2 (earr3 V c)

theorem tile3_apply (c : Dev nD) (t : Fin cfg3.N) (hJ : t.val % 293 < 293) (X : Vec Ideal S2000x128 .f32)
    (r : Fin 2000) (k : Fin 128) :
    k3_pay2 (grid3.coords t) (wblk3 V c t) (eblk3 V c t) X (ix2 r k)
      = X (ix2 r k) + ∑ e : Fin 2048,
          (if (dstOf3 V c (edge (t.val % 293) hJ e)).toInt = ((t.val / 293 * 2000 + r.val : ℕ) : ℤ) then (1 : EReal) else 0)
            * rowsOf3 V c (edge (t.val % 293) hJ e) k := by
  refine (k3_pay2_apply (grid3.coords t) (wblk3 V c t) (eblk3 V c t) X r k).trans ?_
  have hc : (grid3.coords t 0).val = t.val / 293 := (crd3 t).1
  refine congrArg (X (ix2 r k) + ·) (Finset.sum_congr rfl fun e _ => ?_)
  rw [hc, wblk3_apply V c t e (edge (t.val % 293) hJ e) rfl, eblk3_apply V c t e k (edge (t.val % 293) hJ e) rfl]
  rfl

theorem acc3_apply (c : Dev nD) (r : Fin 2000) (k : Fin 128) (v : ℕ) : ∀ hv : v < cfg3.N,
    acc3 V c v hv (ix2 r k) = part (rowsOf3 V c) (dstOf3 V c) (v / 293 * 2000 + r.val) (v % 293 + 1) k := by
  induction v using Nat.strong_induction_on with
  | _ v ih =>
    intro hv
    have hJ : v % 293 < 293 := Nat.mod_lt _ (by decide)
    by_cases hm : v % 293 = 0
    · refine (congrFun (acc3_reset V c ⟨v, hv⟩ hm) (ix2 r k)).trans ?_
      refine (tile3_apply V c ⟨v, hv⟩ hJ (k3_pay1 (F := Ideal)) r k).trans ?_
      rw [part_succ (rowsOf3 V c) (dstOf3 V c) (v / 293 * 2000 + r.val) (v % 293) hJ k]
      refine congrArg₂ (· + ·) ?_ rfl
      rw [k3_pay1_apply r k, hm, part_zero]
    · refine (congrFun (acc3_step V c ⟨v, hv⟩ hm) (ix2 r k)).trans ?_
      refine (tile3_apply V c ⟨v, hv⟩ hJ (acc3 V c (v - 1) (by omega)) r k).trans ?_
      rw [part_succ (rowsOf3 V c) (dstOf3 V c) (v / 293 * 2000 + r.val) (v % 293) hJ k]
      refine congrArg₂ (· + ·) ?_ rfl
      rw [ih (v - 1) (by omega) (by omega)]
      have ea : (v - 1) / 293 = v / 293 := by omega
      have eb : (v - 1) % 293 + 1 = v % 293 := by omega
      rw [ea, eb]

abbrev fin3 (x : EReal) : EReal := x

theorem out3_apply (X S : Vec Ideal S2000x128 .f32) (M : Vec Ideal S128x128 .f32) (B : Vec Ideal S1x128 .f32)
    (r : Fin 2000) (q : Fin 128) :
    k3_pay3 X S M B (ix2 r q) = fin3 ((∑ k : Fin 128, (X (ix2 r k) + S (ix2 r k)) * M (ix2 k q)) + B (ix2 0 q)) :=
  k3_pay3_apply X S M B r q

abbrev G3 (c : Dev nD) : Vec Ideal S50000x128 .f32 :=
  Spec.unc2 (fun i q => fin3 (Spec.scatterK (m := 600064) (n := 50000) (d := 128) (d' := 128) (rowsOf3 V c) (dstOf3 V c)
    (Spec.cur2 (marr3 V c)) (fun q => barr3 V c (ix2 0 q)) (Spec.cur2 (sarr3 V c)) i q))

theorem cell3 (c : Dev nD) (t : Fin cfg3.N) (hm : t.val % 293 = 292) (r : Fin 2000) (q : Fin 128) (j : S50000x128.Idx)
    (hjr : (j 0).val = t.val / 293 * 2000 + r.val) (hjq : (j 1).val = q.val) :
    k3_pay3 (acc3 V c t.val t.isLt) (sblk3 V c t) (mblk3 V c t) (bblk3 V c t) (ix2 r q) = G3 V c j := by
  obtain ⟨i, q', rfl⟩ : ∃ (i : Fin 50000) (q' : Fin 128), j = ix2 i q' := ⟨j 0, j 1, eq_ix2 j⟩
  have hi : i.val = t.val / 293 * 2000 + r.val := hjr
  obtain rfl : q' = q := Fin.ext hjq
  refine (out3_apply (acc3 V c t.val t.isLt) (sblk3 V c t) (mblk3 V c t) (bblk3 V c t) r q').trans ?_
  show fin3 _ = fin3 (Spec.scatterK (rowsOf3 V c) (dstOf3 V c) (Spec.cur2 (marr3 V c)) (fun q => barr3 V c (ix2 0 q))
    (Spec.cur2 (sarr3 V c)) i q')
  unfold Spec.scatterK
  refine congrArg fin3 (congrArg₂ (· + ·) (Finset.sum_congr rfl fun k _ => ?_) (bblk3_apply V c t q'))
  refine congrArg₂ (· * ·) (congrArg₂ (· + ·) ?_ (sblk3_apply V c t r k i hi)) (mblk3_apply V c t k q')
  rw [acc3_apply V c r k t.val t.isLt, hm, ← hi]
  exact part_last (rowsOf3 V c) (dstOf3 V c) i.val k

theorem flushed3_eq (c : Dev nD) (t : Fin cfg3.N) (hf : (cfg3.win 5).flush t = true) :
    (dat3 (F := Ideal) V c).flushed 5 t = ((cfg3.win 5).blk t).view.read (Elt Ideal) (G3 V c) := by
  have hm : t.val % 293 = 292 := (flush3_5 t).mp hf
  obtain ⟨ha, hb⟩ := idx3_5 t
  show (cfg3.win 5).cut (grid3.coords t) ((dat3 (F := Ideal) V c).after 5 t) = _
  rw [after3_5]
  refine ext_ix2 (a := 2000) (b := 128) fun r q => ?_
  rw [View.read_apply]
  show k3_pay3 (acc3 V c t.val t.isLt) (sblk3 V c t) (mblk3 V c t) (bblk3 V c t) (ix2 r q) = G3 V c _
  refine cell3 V c t hm r q _ ?_ ?_
  · show win3_5.index t (0 : Fin 2) * 2000 + 1 * r.val = t.val / 293 * 2000 + r.val
    rw [ha]; omega
  · show win3_5.index t (1 : Fin 2) * 128 + 1 * q.val = q.val
    rw [hb]; omega

theorem mem_blk3 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole (Pipeline.arrRef spec3 5)).slice (win3_5.rect t)).set ↔ _
  rw [View.set_slice_whole, Rect.mem_set_unit]
  exact Iff.rfl

theorem cover3 (i : S50000x128.Idx) :
    ∃ t : Fin cfg3.N, (cfg3.win 5).flush t = true ∧ i ∈ ((cfg3.win 5).blk t).view.set := by
  have hx : (i 0).val < 50000 := (i 0).isLt
  have hy : (i 1).val < 128 := (i 1).isLt
  have hN : cfg3.N = 7325 := N_3
  have hv : (i 0).val / 2000 * 293 + 292 < cfg3.N := by rw [hN]; omega
  refine ⟨⟨(i 0).val / 2000 * 293 + 292, hv⟩, (flush3_5 _).mpr (by show ((i 0).val / 2000 * 293 + 292) % 293 = 292; omega), ?_⟩
  obtain ⟨ha, hb⟩ := idx3_5 ⟨(i 0).val / 2000 * 293 + 292, hv⟩
  rw [mem_blk3]
  intro a
  match a with
  | ⟨0, _⟩ =>
    show win3_5.index ⟨(i 0).val / 2000 * 293 + 292, hv⟩ (0 : Fin 2) * 2000 ≤ (i 0).val
      ∧ (i 0).val < win3_5.index ⟨(i 0).val / 2000 * 293 + 292, hv⟩ (0 : Fin 2) * 2000 + 2000
    rw [ha]
    show ((i 0).val / 2000 * 293 + 292) / 293 * 2000 ≤ (i 0).val ∧ (i 0).val < ((i 0).val / 2000 * 293 + 292) / 293 * 2000 + 2000
    omega
  | ⟨1, _⟩ =>
    show win3_5.index ⟨(i 0).val / 2000 * 293 + 292, hv⟩ (1 : Fin 2) * 128 ≤ (i 1).val
      ∧ (i 1).val < win3_5.index ⟨(i 0).val / 2000 * 293 + 292, hv⟩ (1 : Fin 2) * 128 + 128
    rw [hb]; omega

theorem arrAt3_out (c : Dev nD) : (dat3 (F := Ideal) V c).arrAt 5 cfg3.N = Spec.unc2 (Spec.scatterK (m := 600064) (n := 50000) (d := 128) (d' := 128) (Spec.cur2 (V c (Pipeline.arrRef spec3 0))) (fun e => V c (Pipeline.arrRef spec3 1) (ix2 0 e)) (Spec.cur2 (V c (Pipeline.arrRef spec3 2))) (fun q => V c (Pipeline.arrRef spec3 3) (ix2 0 q)) (Spec.cur2 (V c (Pipeline.arrRef spec3 4)))) :=
  (dat3 (F := Ideal) V c).arrAt_eq_of_cover 5 (G3 V c) (flushed3_eq V c) cover3

end Cert.KernelIdeal.Hand

end
-- ==== Proof.KI.Pay4.lean ====
import proofs.«402943_j87462714016644_3_alg».proof.Proof.Gen.KernelIdeal.Skeleton
import proofs.«402943_j87462714016644_3_alg».proof.Proof.KI.MatmulAt
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate

set_option maxRecDepth 16384

open scoped BigOperators

noncomputable section

namespace Cert.KernelIdeal.Hand

open Idealize.ShloMosaic Idealize.ShloMosaic.ValueIdx
open Cert.KernelIdeal Cert.KernelIdeal.Gen

theorem p4_bit_to_float (c : BitVec 1) :
    (FloatOps.sitofp (F := Ideal) .f32 (c.setWidth 32) : EReal) = if c = 1#1 then 1 else 0 := by
  rcases BitVec.eq_zero_or_eq_one c with rfl | rfl
  · show ((((0#1 : BitVec 1).setWidth 32).toInt : ℝ) : EReal) = _
    have e : ((0#1 : BitVec 1).setWidth 32).toInt = 0 := by decide
    rw [e, if_neg (by decide)]; simp
  · show ((((1#1 : BitVec 1).setWidth 32).toInt : ℝ) : EReal) = _
    have e : ((1#1 : BitVec 1).setWidth 32).toInt = 1 := by decide
    rw [e, if_pos rfl]; simp

theorem p4_ofNat_eq_iff (n : ℕ) (hn : n < 2 ^ 31) (w : BitVec 32) : BitVec.ofNat 32 n = w ↔ w.toInt = (n : Int) := by
  constructor
  · rintro rfl
    exact StableHlo.Predicate.toInt_ofNat_small n hn
  · intro h
    apply BitVec.eq_of_toInt_eq
    rw [h, StableHlo.Predicate.toInt_ofNat_small n hn]

theorem p4_hot (g : ℕ) (hg : g < 2 ^ 31) (w : BitVec 32) :
    (FloatOps.sitofp (F := Ideal) .f32 ((IntOp.cmpi .eq (BitVec.ofNat 32 g) w).setWidth 32) : EReal)
      = if w.toInt = (g : Int) then 1 else 0 := by
  rw [p4_bit_to_float]
  by_cases h : w.toInt = (g : Int)
  · rw [if_pos h, if_pos (StableHlo.Predicate.cmpi_eq_iff.2 ((p4_ofNat_eq_iff g hg w).2 h))]
  · rw [if_neg h, if_neg (fun hc => h ((p4_ofNat_eq_iff g hg w).1 (StableHlo.Predicate.cmpi_eq_iff.1 hc)))]

theorem p4_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem p4_shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

theorem p4_pay3_apply (v4 : Vec Ideal S1x2048 .i32) (g : Fin 100) (r : Fin 2048) :
    k4_pay3 (F := Ideal) v4 (ix2 g r) = IntOp.cmpi .eq (BitVec.ofNat 32 g.val) (v4 (ix2 (0 : Fin 1) r)) := by
  unfold k4_pay3
  show IntOp.cmpi .eq (broadcastTo S100x2048 (iota .tc S100x1 32 [0] _) _ (ix2 g r))
      (broadcastTo S100x2048 (shapeCast S1x2048 v4 _) _ (ix2 g r)) = _
  rw [p4_broadcastTo_a1_ab_apply, broadcastTo_1b_ab_apply, shapeCast_self]
  show IntOp.cmpi .eq (BitVec.ofNat 32 (0 * 100 + g.val)) _ = _
  rw [Nat.zero_mul, Nat.zero_add]

theorem p4_hot_apply (v4 : Vec Ideal S1x2048 .i32) (h1 : 1 < 32) (g : Fin 100) (r : Fin 2048) :
    (sitofp .f32 (extui 32 (k4_pay3 (F := Ideal) v4) h1) : FVec Ideal S100x2048 .f32) (ix2 g r)
      = if (v4 (ix2 (0 : Fin 1) r)).toInt = (g.val : Int) then 1 else 0 := by
  show (FloatOps.sitofp (F := Ideal) .f32 ((k4_pay3 (F := Ideal) v4 (ix2 g r)).setWidth 32) : EReal) = _
  rw [p4_pay3_apply]
  exact p4_hot g.val (by have := g.isLt; omega) _

theorem p4_mm1_apply (A : FVec Ideal S100x2048 .bf16) (B : FVec Ideal S2048x128 .bf16) (g : Fin 100) (k : Fin 128) :
    matmul dot_S100x2048_S2048x128_S100x128_1_0_0_1_n_n none A B (constant (F := Ideal) S100x128 .f32 0x00000000#32) (ix2 g k)
      = ∑ r : Fin 2048, A (ix2 g r) * B (ix2 r k) :=
  mm_apply dot_S100x2048_S2048x128_S100x128_1_0_0_1_n_n rfl rfl rfl rfl (fun _ _ => rfl) (fun _ _ => rfl) A B g k

theorem p4_mm2_apply (A : FVec Ideal S100x128 .bf16) (B : FVec Ideal S128x40 .bf16) (g : Fin 100) (o : Fin 40) :
    matmul dot_S100x128_S128x40_S100x40_1_0_0_1_n_n none A B (constant (F := Ideal) S100x40 .f32 0x00000000#32) (ix2 g o)
      = ∑ k : Fin 128, A (ix2 g k) * B (ix2 k o) :=
  mm_apply dot_S100x128_S128x40_S100x40_1_0_0_1_n_n rfl rfl rfl rfl (fun _ _ => rfl) (fun _ _ => rfl) A B g o

theorem p4_rowsum_apply (X : FVec Ideal S100x2048 .f32) (h : S100x2048.Reduces [1] S100) (hφ : FKind.Formats .f32)
    (hacc : (0x00000000#32 : BitVec 32) = FKind.add.neutral .f32 hφ) (g : Fin 100) :
    multiReduction (F := Ideal) .add [1] S100 X 0x00000000#32 h hφ hacc (ix1 g) = ∑ r : Fin 2048, X (ix2 g r) := by
  refine (Ideal.multiReduction_add_single X 0x00000000#32 h hφ hacc (ix1 g)).trans ?_
  refine Finset.sum_congr rfl fun r _ => congrArg X (funext fun a => Fin.ext ?_)
  match a with
  | ⟨0, _⟩ => rfl
  | ⟨1, _⟩ => rfl

theorem k4_pay1_apply (g : Fin 100) (k : Fin 128) : k4_pay1 (F := Ideal) (ix2 g k) = 0 := by
  unfold k4_pay1
  rw [shapeCast_self]
  exact Ideal.ofBits_zero_f32

theorem k4_pay2_apply (g : Fin 100) : k4_pay2 (F := Ideal) (ix2 g (0 : Fin 1)) = 0 := by
  unfold k4_pay2
  rw [shapeCast_self]
  exact Ideal.ofBits_zero_f32

theorem k4_pay4_apply (v4 : Vec Ideal S1x2048 .i32) (v14 : Vec Ideal S2048x128 .f32) (v18 : Vec Ideal S100x128 .f32)
    (g : Fin 100) (k : Fin 128) :
    k4_pay4 (F := Ideal) v4 v14 v18 (ix2 g k)
      = v18 (ix2 g k) + ∑ r : Fin 2048,
          (if (v4 (ix2 (0 : Fin 1) r)).toInt = (g.val : Int) then (1 : EReal) else 0) * v14 (ix2 r k) := by
  unfold k4_pay4
  rw [shapeCast_self]
  show v18 (ix2 g k) + matmul dot_S100x2048_S2048x128_S100x128_1_0_0_1_n_n none _ _ (constant (F := Ideal) S100x128 .f32 0x00000000#32) (ix2 g k) = _
  rw [p4_mm1_apply]
  refine congrArg (v18 (ix2 g k) + ·) (Finset.sum_congr rfl fun r _ => ?_)
  show (sitofp .f32 (extui 32 (k4_pay3 (F := Ideal) v4) _) : FVec Ideal S100x2048 .f32) (ix2 g r) * shapeCast S2048x128 v14 _ (ix2 r k) = _
  rw [p4_hot_apply, shapeCast_self]

theorem k4_pay5_apply (v4 : Vec Ideal S1x2048 .i32) (v23 : Vec Ideal S100x1 .f32) (g : Fin 100) :
    k4_pay5 (F := Ideal) v4 v23 (ix2 g (0 : Fin 1))
      = v23 (ix2 g (0 : Fin 1)) + ∑ r : Fin 2048,
          (if (v4 (ix2 (0 : Fin 1) r)).toInt = (g.val : Int) then (1 : EReal) else 0) := by
  unfold k4_pay5
  rw [shapeCast_self]
  show v23 (ix2 g (0 : Fin 1)) + shapeCast S100x1 (multiReduction (F := Ideal) .add [1] S100 _ 0x00000000#32 _ _ _) _ (ix2 g (0 : Fin 1)) = _
  rw [p4_shapeCast_a_a1_apply]
  refine congrArg (v23 (ix2 g (0 : Fin 1)) + ·) ((p4_rowsum_apply _ _ _ _ g).trans ?_)
  refine Finset.sum_congr rfl fun r _ => ?_
  rw [p4_hot_apply]

theorem k4_pay6_apply (v33 : Vec Ideal S100x128 .f32) (v34 : Vec Ideal S100x1 .f32) (v40 : Vec Ideal S128x40 .f32)
    (v43 : Vec Ideal S1x40 .f32) (g : Fin 100) (o : Fin 40) :
    k4_pay6 (F := Ideal) v33 v34 v40 v43 (ix2 g o)
      = (∑ k : Fin 128, Ideal.div (v33 (ix2 g k)) (max (v34 (ix2 g (0 : Fin 1))) 1) * v40 (ix2 k o))
          + v43 (ix2 (0 : Fin 1) o) := by
  unfold k4_pay6
  show matmul dot_S100x128_S128x40_S100x40_1_0_0_1_n_n none _ _ (constant (F := Ideal) S100x40 .f32 0x00000000#32) (ix2 g o)
      + broadcastTo S100x40 (shapeCast S1x40 v43 _) _ (ix2 g o) = _
  rw [p4_mm2_apply, broadcastTo_1b_ab_apply, shapeCast_self]
  refine congrArg (· + v43 (ix2 (0 : Fin 1) o)) (Finset.sum_congr rfl fun k _ => ?_)
  show Ideal.div (v33 (ix2 g k))
        (broadcastTo S100x128 (maximumf (F := Ideal) v34 (broadcast S100x1 (Scalar.ofBits (F := Ideal) .f32 0x3F800000#32))) _ (ix2 g k))
      * v40 (ix2 k o) = _
  rw [p4_broadcastTo_a1_ab_apply]
  show Ideal.div (v33 (ix2 g k)) (max (v34 (ix2 g (0 : Fin 1))) (Ideal.ofBits .f32 0x3F800000#32)) * v40 (ix2 k o) = _
  rw [Ideal.ofBits_one_f32]

end Cert.KernelIdeal.Hand

end
-- ==== Proof.KI.Val4.lean ====
import proofs.«402943_j87462714016644_3_alg».proof.Proof.KI.Region4
import proofs.«402943_j87462714016644_3_alg».proof.Proof.KI.Pay4
import proofs.«402943_j87462714016644_3_alg».proof.Proof.Spec
import Idealize.ShloMosaic.Lib.Pipeline.Value
import Idealize.ShloMosaic.Lib.ValueIdx

set_option maxRecDepth 16384

open scoped BigOperators

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Proof

variable (V : (c : Dev nD) → (b : Ref sig .tc) → Buf (Elt Ideal) ((c : Thread nD τ).loc b))

theorem v4_sum_tiles {M : Type} [AddCommMonoid M] (f : Fin 51200 → M) :
    ∑ m : Fin 25, ∑ r : Fin 2048, f ⟨2048 * m.val + r.val, by have := m.isLt; have := r.isLt; omega⟩ = ∑ i : Fin 51200, f i := by
  rw [← Equiv.sum_comp (finProdFinEquiv (m := 25) (n := 2048)) f, Fintype.sum_prod_type]
  refine Finset.sum_congr rfl fun m _ => Finset.sum_congr rfl fun r _ => congrArg f (Fin.ext ?_)
  show 2048 * m.val + r.val = r.val + 2048 * m.val
  omega

theorem v4_sum_hits {m : ℕ} (bat : Fin m → BitVec 32) (g : ℕ) (x : Fin m → EReal) :
    ∑ i : Fin m, (if (bat i).toInt = (g : Int) then (1 : EReal) else 0) * x i = ∑ i ∈ Spec.hits bat g, x i := by
  unfold Spec.hits
  rw [Finset.sum_filter]
  refine Finset.sum_congr rfl fun i _ => ?_
  split_ifs
  · rw [one_mul]
  · rw [zero_mul]

theorem v4_count_hits {m : ℕ} (bat : Fin m → BitVec 32) (g : ℕ) :
    ∑ i : Fin m, (if (bat i).toInt = (g : Int) then (1 : EReal) else 0) = ∑ _i ∈ Spec.hits bat g, (1 : EReal) := by
  unfold Spec.hits
  rw [Finset.sum_filter]

theorem v4_idx : ∀ t : Fin cfg4.N,
    (win4_0.index t 0 = t.val ∧ win4_0.index t 1 = 0) ∧ (win4_1.index t 0 = 0 ∧ win4_1.index t 1 = t.val)
    ∧ (win4_2.index t 0 = 0 ∧ win4_2.index t 1 = 0) ∧ (win4_3.index t 0 = 0 ∧ win4_3.index t 1 = 0)
    ∧ (win4_4.index t 0 = 0 ∧ win4_4.index t 1 = 0) :=
  (by decide +kernel : ∀ t : Fin grid4.N, _)

theorem v4_iblk0 (c : Dev nD) (t : Fin cfg4.N) (r : Fin 2048) (k : Fin 128) (i : Fin 51200) (hi : i.val = 2048 * t.val + r.val) :
    (iblk4 V c 0 t : Vec Ideal S2048x128 .f32) (ix2 r k) = (V c (Pipeline.arrRef spec4 0) : S51200x128.Idx → EReal) (ix2 i k) := by
  have hidx := (v4_idx t).1
  unfold iblk4
  rw [View.read_apply]
  refine congrArg (V c (Pipeline.arrRef spec4 0)) (funext fun a => Fin.ext ?_)
  match a with
  | ⟨0, _⟩ => show win4_0.index t 0 * 2048 + 1 * r.val = i.val; rw [hidx.1, hi]; omega
  | ⟨1, _⟩ => show win4_0.index t 1 * 128 + 1 * k.val = k.val; rw [hidx.2]; omega

theorem v4_iblk1 (c : Dev nD) (t : Fin cfg4.N) (r : Fin 2048) (i : Fin 51200) (hi : i.val = 2048 * t.val + r.val) :
    (iblk4 V c 1 t : Vec Ideal S1x2048 .i32) (ix2 (0 : Fin 1) r) = (V c (Pipeline.arrRef spec4 1) : S1x51200.Idx → BitVec 32) (ix2 (0 : Fin 1) i) := by
  have hidx := (v4_idx t).2.1
  unfold iblk4
  rw [View.read_apply]
  refine congrArg (V c (Pipeline.arrRef spec4 1)) (funext fun a => Fin.ext ?_)
  match a with
  | ⟨0, _⟩ => show win4_1.index t 0 * 1 + 1 * 0 = 0; rw [hidx.1]
  | ⟨1, _⟩ => show win4_1.index t 1 * 2048 + 1 * r.val = i.val; rw [hidx.2, hi]; omega

theorem v4_iblk2 (c : Dev nD) (t : Fin cfg4.N) (k : Fin 128) (o : Fin 40) :
    (iblk4 V c 2 t : Vec Ideal S128x40 .f32) (ix2 k o) = (V c (Pipeline.arrRef spec4 2) : S128x40.Idx → EReal) (ix2 k o) := by
  have hidx := (v4_idx t).2.2.1
  unfold iblk4
  rw [View.read_apply]
  refine congrArg (V c (Pipeline.arrRef spec4 2)) (funext fun a => Fin.ext ?_)
  match a with
  | ⟨0, _⟩ => show win4_2.index t 0 * 128 + 1 * k.val = k.val; rw [hidx.1]; omega
  | ⟨1, _⟩ => show win4_2.index t 1 * 40 + 1 * o.val = o.val; rw [hidx.2]; omega

theorem v4_iblk3 (c : Dev nD) (t : Fin cfg4.N) (o : Fin 40) :
    (iblk4 V c 3 t : Vec Ideal S1x40 .f32) (ix2 (0 : Fin 1) o) = (V c (Pipeline.arrRef spec4 3) : S1x40.Idx → EReal) (ix2 (0 : Fin 1) o) := by
  have hidx := (v4_idx t).2.2.2.1
  unfold iblk4
  rw [View.read_apply]
  refine congrArg (V c (Pipeline.arrRef spec4 3)) (funext fun a => Fin.ext ?_)
  match a with
  | ⟨0, _⟩ => show win4_3.index t 0 * 1 + 1 * 0 = 0; rw [hidx.1]
  | ⟨1, _⟩ => show win4_3.index t 1 * 40 + 1 * o.val = o.val; rw [hidx.2]; omega

abbrev v4X (c : Dev nD) : Fin 51200 → Fin 128 → EReal := Spec.cur2 (V c (Pipeline.arrRef spec4 0) : S51200x128.Idx → EReal)
abbrev v4bat (c : Dev nD) : Fin 51200 → BitVec 32 := fun r => (V c (Pipeline.arrRef spec4 1) : S1x51200.Idx → BitVec 32) (ix2 (0 : Fin 1) r)

abbrev v4row (m : Fin 25) (r : Fin 2048) : Fin 51200 := ⟨2048 * m.val + r.val, by have := m.isLt; have := r.isLt; omega⟩

def v4tile (c : Dev nD) (g : Fin 100) (k : Fin 128) (m : ℕ) : EReal :=
  if h : m < 25 then
    ∑ r : Fin 2048, (if (v4bat V c (v4row ⟨m, h⟩ r)).toInt = (g.val : Int) then (1 : EReal) else 0) * v4X V c (v4row ⟨m, h⟩ r) k
  else 0

def v4tileCnt (c : Dev nD) (g : Fin 100) (m : ℕ) : EReal :=
  if h : m < 25 then ∑ r : Fin 2048, (if (v4bat V c (v4row ⟨m, h⟩ r)).toInt = (g.val : Int) then (1 : EReal) else 0) else 0

theorem v4_step_acc (c : Dev nD) (n : ℕ) (hn : n < cfg4.N) (A : Vec Ideal S100x128 .f32) (g : Fin 100) (k : Fin 128) :
    k4_pay4 (F := Ideal) (iblk4 V c 1 ⟨n, hn⟩) (iblk4 V c 0 ⟨n, hn⟩) A (ix2 g k) = A (ix2 g k) + v4tile V c g k n := by
  have h25 : n < 25 := by have e : cfg4.N = 25 := N_4; omega
  refine (k4_pay4_apply (iblk4 V c 1 ⟨n, hn⟩) (iblk4 V c 0 ⟨n, hn⟩) A g k).trans ?_
  unfold v4tile
  rw [dif_pos h25]
  refine congrArg (A (ix2 g k) + ·) (Finset.sum_congr rfl fun r _ => ?_)
  have e1 := v4_iblk1 V c ⟨n, hn⟩ r (v4row ⟨n, h25⟩ r) rfl
  have e0 := v4_iblk0 V c ⟨n, hn⟩ r k (v4row ⟨n, h25⟩ r) rfl
  rw [e1, e0]
  rfl

theorem v4_step_cnt (c : Dev nD) (n : ℕ) (hn : n < cfg4.N) (B : Vec Ideal S100x1 .f32) (g : Fin 100) :
    k4_pay5 (F := Ideal) (iblk4 V c 1 ⟨n, hn⟩) B (ix2 g (0 : Fin 1)) = B (ix2 g (0 : Fin 1)) + v4tileCnt V c g n := by
  have h25 : n < 25 := by have e : cfg4.N = 25 := N_4; omega
  refine (k4_pay5_apply (iblk4 V c 1 ⟨n, hn⟩) B g).trans ?_
  unfold v4tileCnt
  rw [dif_pos h25]
  refine congrArg (B (ix2 g (0 : Fin 1)) + ·) (Finset.sum_congr rfl fun r _ => ?_)
  have e1 := v4_iblk1 V c ⟨n, hn⟩ r (v4row ⟨n, h25⟩ r) rfl
  rw [e1]

theorem v4_acc (c : Dev nD) (g : Fin 100) (k : Fin 128) : ∀ (n : ℕ) (hn : n < cfg4.N),
    acc4 (F := Ideal) V c n hn (ix2 g k) = ∑ m ∈ Finset.range (n + 1), v4tile V c g k m
  | 0, hn => by
    show k4_pay4 (F := Ideal) (iblk4 V c 1 ⟨0, hn⟩) (iblk4 V c 0 ⟨0, hn⟩) (k4_pay1 (F := Ideal)) (ix2 g k) = _
    rw [v4_step_acc, k4_pay1_apply, zero_add, Finset.sum_range_one]
  | n + 1, hn => by
    show k4_pay4 (F := Ideal) (iblk4 V c 1 ⟨n + 1, hn⟩) (iblk4 V c 0 ⟨n + 1, hn⟩) (acc4 V c n (Nat.lt_of_succ_lt hn)) (ix2 g k) = _
    rw [v4_step_acc, v4_acc c g k n (Nat.lt_of_succ_lt hn)]
    exact (Finset.sum_range_succ _ (n + 1)).symm

theorem v4_cnt (c : Dev nD) (g : Fin 100) : ∀ (n : ℕ) (hn : n < cfg4.N),
    cnt4 (F := Ideal) V c n hn (ix2 g (0 : Fin 1)) = ∑ m ∈ Finset.range (n + 1), v4tileCnt V c g m
  | 0, hn => by
    show k4_pay5 (F := Ideal) (iblk4 V c 1 ⟨0, hn⟩) (k4_pay2 (F := Ideal)) (ix2 g (0 : Fin 1)) = _
    rw [v4_step_cnt, k4_pay2_apply, zero_add, Finset.sum_range_one]
  | n + 1, hn => by
    show k4_pay5 (F := Ideal) (iblk4 V c 1 ⟨n + 1, hn⟩) (cnt4 V c n (Nat.lt_of_succ_lt hn)) (ix2 g (0 : Fin 1)) = _
    rw [v4_step_cnt, v4_cnt c g n (Nat.lt_of_succ_lt hn)]
    exact (Finset.sum_range_succ _ (n + 1)).symm

theorem v4_total_acc (c : Dev nD) (g : Fin 100) (k : Fin 128) :
    ∑ m ∈ Finset.range 25, v4tile V c g k m = ∑ i ∈ Spec.hits (v4bat V c) g.val, v4X V c i k := by
  rw [Finset.sum_range]
  refine Eq.trans ?_ ((v4_sum_tiles (fun i : Fin 51200 =>
    (if (v4bat V c i).toInt = (g.val : Int) then (1 : EReal) else 0) * v4X V c i k)).trans
      (v4_sum_hits (v4bat V c) g.val (fun i => v4X V c i k)))
  refine Finset.sum_congr rfl fun m _ => ?_
  unfold v4tile
  rw [dif_pos m.isLt]

theorem v4_total_cnt (c : Dev nD) (g : Fin 100) :
    ∑ m ∈ Finset.range 25, v4tileCnt V c g m = ∑ _i ∈ Spec.hits (v4bat V c) g.val, (1 : EReal) := by
  rw [Finset.sum_range]
  refine Eq.trans ?_ ((v4_sum_tiles (fun i : Fin 51200 =>
    (if (v4bat V c i).toInt = (g.val : Int) then (1 : EReal) else 0))).trans (v4_count_hits (v4bat V c) g.val))
  refine Finset.sum_congr rfl fun m _ => ?_
  unfold v4tileCnt
  rw [dif_pos m.isLt]

abbrev v4pool (c : Dev nD) : S100x40.Idx → EReal :=
  Spec.unc2 (Spec.poolK (n := 51200) (g := 100)
    (Spec.cur2 (V c (Pipeline.arrRef spec4 0) : S51200x128.Idx → EReal))
    (fun r => (V c (Pipeline.arrRef spec4 1) : S1x51200.Idx → BitVec 32) (ix2 (0 : Fin 1) r))
    (Spec.cur2 (V c (Pipeline.arrRef spec4 2) : S128x40.Idx → EReal))
    (fun o => (V c (Pipeline.arrRef spec4 3) : S1x40.Idx → EReal) (ix2 (0 : Fin 1) o)))

theorem v4_last (c : Dev nD) (t : Fin cfg4.N) (ht : t.val = 24) :
    (k4_pay6 (F := Ideal) (acc4 V c t.val t.isLt) (cnt4 V c t.val t.isLt) (iblk4 V c 2 t) (iblk4 V c 3 t) : S100x40.Idx → EReal)
      = v4pool V c := by
  funext j
  obtain ⟨g, o, rfl⟩ : ∃ (g : Fin 100) (o : Fin 40), j = ix2 g o := ⟨j 0, j 1, eq_ix2 j⟩
  refine (k4_pay6_apply (acc4 V c t.val t.isLt) (cnt4 V c t.val t.isLt) (iblk4 V c 2 t) (iblk4 V c 3 t) g o).trans ?_
  have hA : ∀ k : Fin 128, acc4 (F := Ideal) V c t.val t.isLt (ix2 g k) = ∑ i ∈ Spec.hits (v4bat V c) g.val, v4X V c i k := fun k => by
    rw [v4_acc V c g k t.val t.isLt, ht]
    exact v4_total_acc V c g k
  have hB : cnt4 (F := Ideal) V c t.val t.isLt (ix2 g (0 : Fin 1)) = ∑ _i ∈ Spec.hits (v4bat V c) g.val, (1 : EReal) := by
    rw [v4_cnt V c g t.val t.isLt, ht]
    exact v4_total_cnt V c g
  have e3 := v4_iblk3 V c t o
  have hk : ∀ k : Fin 128,
      Ideal.div (acc4 (F := Ideal) V c t.val t.isLt (ix2 g k)) (max (cnt4 (F := Ideal) V c t.val t.isLt (ix2 g (0 : Fin 1))) 1)
          * (iblk4 V c 2 t : Vec Ideal S128x40 .f32) (ix2 k o)
        = Ideal.div (∑ i ∈ Spec.hits (v4bat V c) g.val, v4X V c i k) (max (∑ _i ∈ Spec.hits (v4bat V c) g.val, (1 : EReal)) 1)
          * (V c (Pipeline.arrRef spec4 2) : S128x40.Idx → EReal) (ix2 k o) := fun k => by
    rw [hA k, hB, v4_iblk2 V c t k o]
  rw [Finset.sum_congr rfl (fun k _ => hk k), e3]
  rfl

abbrev v4tLast : Fin cfg4.N := ⟨24, by have e : cfg4.N = 25 := N_4; omega⟩

theorem v4_hz : (fun a => win4_4.index v4tLast a * main_v58.ty.shape.size a) = fun _ => 0 :=
  funext fun a => by fin_cases a <;> decide +kernel

theorem v4_flushed (c : Dev nD) (t : Fin cfg4.N) (hf : (cfg4.win 4).flush t = true) :
    (dat4 (F := Ideal) V c).flushed 4 t = ((cfg4.win 4).blk t).view.read (Elt Ideal) (v4pool V c) := by
  have hN : cfg4.N = 25 := N_4
  have h24 : t.val = 24 := by have := (flush4_4 t).mp hf; have := t.isLt; omega
  show (cfg4.win 4).cut (grid4.coords t) ((dat4 (F := Ideal) V c).after 4 t) = _
  show (cfg4.win 4).cut (grid4.coords t)
      (k4_pay6 (F := Ideal) (acc4 V c t.val t.isLt) (cnt4 V c t.val t.isLt) (iblk4 V c 2 t) (iblk4 V c 3 t)) = _
  rw [v4_last V c t h24]
  obtain rfl : t = v4tLast := Fin.ext h24
  exact (Memref.read_access_unit_zero (Elt Ideal) main_v58 v4_hz (fun a => by rw [congrFun v4_hz a]; simp) (v4pool V c)).symm

theorem arrAt4_out (c : Dev nD) :
    (dat4 (F := Ideal) V c).arrAt 4 cfg4.N
      = Spec.unc2 (Spec.poolK (n := 51200) (g := 100)
          (Spec.cur2 (V c (Pipeline.arrRef spec4 0) : S51200x128.Idx → EReal))
          (fun r => (V c (Pipeline.arrRef spec4 1) : S1x51200.Idx → BitVec 32) (ix2 (0 : Fin 1) r))
          (Spec.cur2 (V c (Pipeline.arrRef spec4 2) : S128x40.Idx → EReal))
          (fun o => (V c (Pipeline.arrRef spec4 3) : S1x40.Idx → EReal) (ix2 (0 : Fin 1) o))) := by
  refine (dat4 (F := Ideal) V c).arrAt_eq_of_cover 4 (v4pool V c) (v4_flushed V c) fun i => ?_
  refine ⟨v4tLast, (flush4_4 v4tLast).mpr rfl, ?_⟩
  show i ∈ ((View.whole main_v58).slice (win4_4.rect v4tLast)).set
  rw [View.set_slice_whole, Rect.mem_set_unit]
  intro a
  have h0 : (i 0 : Nat) < 100 := (i 0).isLt
  have h1 : (i 1 : Nat) < 40 := (i 1).isLt
  match a with
  | ⟨0, _⟩ =>
    show win4_4.index v4tLast 0 * win4_4.size 0 ≤ (i 0 : Nat) ∧ (i 0 : Nat) < win4_4.index v4tLast 0 * win4_4.size 0 + win4_4.xsize (grid4.coords v4tLast) 0
    rw [show win4_4.index v4tLast 0 * win4_4.size 0 = 0 from by decide +kernel, show win4_4.xsize (grid4.coords v4tLast) 0 = 100 from by decide +kernel]; omega
  | ⟨1, _⟩ =>
    show win4_4.index v4tLast 1 * win4_4.size 1 ≤ (i 1 : Nat) ∧ (i 1 : Nat) < win4_4.index v4tLast 1 * win4_4.size 1 + win4_4.xsize (grid4.coords v4tLast) 1
    rw [show win4_4.index v4tLast 1 * win4_4.size 1 = 0 from by decide +kernel, show win4_4.xsize (grid4.coords v4tLast) 1 = 40 from by decide +kernel]; omega

end Cert.KernelIdeal.Hand

end
-- ==== Proof.KI.HostTerms.lean ====
import proofs.«402943_j87462714016644_3_alg».proof.Proof.Gen.KernelIdeal.Launch
import proofs.«402943_j87462714016644_3_alg».proof.Proof.Spec
import proofs.«402943_j87462714016644_3_alg».proof.Proof.LibGatherScatter
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof

def tRow0 (ea : IVec S2x600000 32) : IVec S600000 32 :=
  shapeCast S600000 (extractStridedSlice S1x600000 ![0, 0] ea slices_S2x600000_S1x600000_0_0) shapeCasts_S1x600000_S600000

def tRow1 (ea : IVec S2x600000 32) : IVec S600000 32 :=
  shapeCast S600000 (extractStridedSlice S1x600000 ![1, 0] ea slices_S2x600000_S1x600000_1_0) shapeCasts_S1x600000_S600000

def tWrap (w : IVec S600000 32) : IVec S600000 32 :=
  select (cmpi .slt w (broadcastInDim S600000 ![] bcast_S_S600000 (constantI S_ 32 0#32)))
    (addi w (broadcastInDim S600000 ![] bcast_S_S600000 (constantI S_ 32 50000#32))) w

def tPadI (w : IVec S600000 32) : IVec S600064 32 :=
  concatenate S600064 0 [⟨S600000, w⟩, ⟨S64, broadcastInDim S64 ![] bcast_S_S64 (constantI S_ 32 4294967295#32)⟩]
    concatenates_S600000_S64_S600064_d0

section Terms
variable {F : FTy → Type} [FloatOps F]

def tDeg (ea : IVec S2x600000 32) : FVec F S50000 .f32 :=
  Host.scatterAdd scatter_S50000_S600000x1_S600000_n_0_0_1
    (broadcastInDim S50000 ![] bcast_S_S50000 (constant (F := F) S_ .f32 0x00000000#32))
    (broadcastInDim S600000x1 ![0] bcast_S600000_S600000x1_0 (tRow1 ea))
    (broadcastInDim S600000 ![] bcast_S_S600000 (constant (F := F) S_ .f32 0x3F800000#32))

def tDinv (ea : IVec S2x600000 32) : FVec F S50000 .f32 :=
  Host.rsqrt (maximumf (addf (tDeg (F := F) ea) (broadcastInDim S50000 ![] bcast_S_S50000 (constant (F := F) S_ .f32 0x3F800000#32)))
    (broadcastInDim S50000 ![] bcast_S_S50000 (constant (F := F) S_ .f32 0x3F800000#32)))

def tGath (ea : IVec S2x600000 32) (w : IVec S600000 32) : FVec F S600000 .f32 :=
  Host.gather gather_S50000_S600000x1_S600000_n_0_n_n_0_1_1 (tDinv (F := F) ea)
    (broadcastInDim S600000x1 ![0] bcast_S600000_S600000x1_0 (tWrap w))

def tNorm (ea : IVec S2x600000 32) : FVec F S600000 .f32 :=
  mulf (tGath (F := F) ea (tRow0 ea)) (tGath (F := F) ea (tRow1 ea))

def tSelf (ea : IVec S2x600000 32) : FVec F S50000 .f32 :=
  mulf (tDinv (F := F) ea) (tDinv (F := F) ea)

def tPadF (w : FVec F S600000 .f32) : FVec F S600064 .f32 :=
  concatenate S600064 0 [⟨S600000, w⟩, ⟨S64, broadcastInDim S64 ![] bcast_S_S64 (constant (F := F) S_ .f32 0x00000000#32)⟩]
    concatenates_S600000_S64_S600064_d0

end Terms

end Cert.KernelIdeal.HostVals
-- ==== Proof.KI.HostFunA.lean ====
import proofs.«402943_j87462714016644_3_alg».proof.Proof.KI.HostTerms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof

section Funs
variable {F : FTy → Type} [FloatOps F] (V : Valuation τ sig (Elt F))

theorem v28_fun : StableHlo.after (hostOps0 (F := F)) V (Proc.devRef .tc main_v28) = tSelf (F := F) (V (Proc.devRef .tc main_arg7)) := by
  after_results_simp <;> rfl

theorem v35_fun : StableHlo.after (hostOps0 (F := F)) V (Proc.devRef .tc main_v35)
    = shapeCast S1x600064 (tPadI (tRow0 (V (Proc.devRef .tc main_arg7)))) shapeCasts_S600064_S1x600064 := by
  after_results_simp <;> rfl

theorem v36_fun : StableHlo.after (hostOps0 (F := F)) V (Proc.devRef .tc main_v36)
    = shapeCast S1x600064 (tPadI (tRow1 (V (Proc.devRef .tc main_arg7)))) shapeCasts_S600064_S1x600064 := by
  after_results_simp <;> rfl

end Funs

end Cert.KernelIdeal.HostVals
-- ==== Proof.KI.HostFunB.lean ====
import proofs.«402943_j87462714016644_3_alg».proof.Proof.KI.HostTerms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof

section Funs
variable {F : FTy → Type} [FloatOps F] (V : Valuation τ sig (Elt F))

theorem v37_fun : StableHlo.after (hostOps0 (F := F)) V (Proc.devRef .tc main_v37)
    = shapeCast S600064x1 (tPadF (F := F) (tNorm (F := F) (V (Proc.devRef .tc main_arg7)))) shapeCasts_S600064_S600064x1 := by
  after_results_simp <;> rfl

end Funs

end Cert.KernelIdeal.HostVals
-- ==== Proof.KI.HostFunC.lean ====
import proofs.«402943_j87462714016644_3_alg».proof.Proof.KI.HostTerms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof

section Funs
variable {F : FTy → Type} [FloatOps F] (V : Valuation τ sig (Elt F))

theorem v38_fun : StableHlo.after (hostOps0 (F := F)) V (Proc.devRef .tc main_v38)
    = shapeCast S1x128 (V (Proc.devRef .tc main_arg2) : FVec F S128 .f32) shapeCasts_S128_S1x128 := by
  after_results_simp <;> rfl

theorem v39_fun : StableHlo.after (hostOps0 (F := F)) V (Proc.devRef .tc main_v39)
    = shapeCast S1x128 (V (Proc.devRef .tc main_arg4) : FVec F S128 .f32) shapeCasts_S128_S1x128 := by
  after_results_simp <;> rfl

theorem v42_fun : StableHlo.after (hostOps0 (F := F)) V (Proc.devRef .tc main_v42)
    = mulf (V (Proc.devRef .tc main_arg0) : FVec F S50000x128 .f32)
        (broadcastInDim S50000x128 ![0, 1] bcast_S50000x1_S50000x128_0_1
          (broadcastInDim S50000x1 ![0] bcast_S50000_S50000x1_0 (tSelf (F := F) (V (Proc.devRef .tc main_arg7))))) := by
  after_results_simp <;> rfl

theorem v43_fun : StableHlo.after (hostOps0 (F := F)) V (Proc.devRef .tc main_v43)
    = (truncf .bf16 (V (Proc.devRef .tc main_arg0) : FVec F S50000x128 .f32) bitsLt_bf16_f32 : FVec F S50000x128 .bf16) := by
  after_results_simp <;> rfl

end Funs

end Cert.KernelIdeal.HostVals
-- ==== Proof.KI.HostLay.lean ====
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals.Lay

open Idealize.ShloMosaic Idealize.ShloMosaic.ValueIdx

variable {α : Type}

theorem bcast_col_apply {n : Nat} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) :=
  broadcastInDim_apply _ h x _ _ fun a => by
    match a with
    | ⟨0, _⟩ =>
      show e.val = if n = 1 then 0 else e.val
      split
      · have := e.isLt; omega
      · rfl

theorem bcast_colmat_apply {n d : Nat} (h : (⟨2, ![n, 1]⟩ : Shape).BroadcastsInDim ⟨2, ![n, d]⟩ ![0, 1])
    (x : (⟨2, ![n, 1]⟩ : Shape).Idx → α) (i : Fin n) (k : Fin d) :
    broadcastInDim ⟨2, ![n, d]⟩ ![0, 1] h x (ix2 i k) = x (ix2 i (0 : Fin 1)) :=
  broadcastInDim_apply _ h x _ _ fun a => by
    match a with
    | ⟨0, _⟩ =>
      show i.val = if n = 1 then 0 else i.val
      split
      · have := i.isLt; omega
      · rfl
    | ⟨1, _⟩ => rfl

theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem concat1_left {n p t : Nat} (x₁ : (⟨1, ![n]⟩ : Shape).Idx → α) (x₂ : (⟨1, ![p]⟩ : Shape).Idx → α)
    (h : Shape.Concatenates [(⟨1, ![n]⟩ : Shape), ⟨1, ![p]⟩] ⟨1, ![t]⟩ 0) (e : Fin t) (he : e.val < n) :
    concatenate ⟨1, ![t]⟩ 0 [⟨⟨1, ![n]⟩, x₁⟩, ⟨⟨1, ![p]⟩, x₂⟩] h (ix1 e) = x₁ (ix1 ⟨e.val, he⟩) :=
  concatenate_pair_apply_left 0 x₁ x₂ h (ix1 e) rfl (ix1 ⟨e.val, he⟩) fun b => by
    match b with
    | ⟨0, _⟩ => rfl

theorem concat1_right {n p t : Nat} (x₁ : (⟨1, ![n]⟩ : Shape).Idx → α) (x₂ : (⟨1, ![p]⟩ : Shape).Idx → α)
    (h : Shape.Concatenates [(⟨1, ![n]⟩ : Shape), ⟨1, ![p]⟩] ⟨1, ![t]⟩ 0) (e : Fin t) (q : Fin p) (hq : q.val + n = e.val) :
    concatenate ⟨1, ![t]⟩ 0 [⟨⟨1, ![n]⟩, x₁⟩, ⟨⟨1, ![p]⟩, x₂⟩] h (ix1 e) = x₂ (ix1 q) :=
  concatenate_pair_apply_right 0 x₁ x₂ h (ix1 e) rfl rfl (ix1 q)
    (fun b hb => by
      match b with
      | ⟨0, _⟩ => exact absurd rfl hb)
    hq

theorem concat2_left {n p t d : Nat} (x₁ : (⟨2, ![n, d]⟩ : Shape).Idx → α) (x₂ : (⟨2, ![p, d]⟩ : Shape).Idx → α)
    (h : Shape.Concatenates [(⟨2, ![n, d]⟩ : Shape), ⟨2, ![p, d]⟩] ⟨2, ![t, d]⟩ 0) (r : Fin t) (k : Fin d) (hr : r.val < n) :
    concatenate ⟨2, ![t, d]⟩ 0 [⟨⟨2, ![n, d]⟩, x₁⟩, ⟨⟨2, ![p, d]⟩, x₂⟩] h (ix2 r k) = x₁ (ix2 ⟨r.val, hr⟩ k) :=
  concatenate_pair_apply_left 0 x₁ x₂ h (ix2 r k) rfl (ix2 ⟨r.val, hr⟩ k) fun b => by
    match b with
    | ⟨0, _⟩ => rfl
    | ⟨1, _⟩ => rfl

theorem concat2_right {n p t d : Nat} (x₁ : (⟨2, ![n, d]⟩ : Shape).Idx → α) (x₂ : (⟨2, ![p, d]⟩ : Shape).Idx → α)
    (h : Shape.Concatenates [(⟨2, ![n, d]⟩ : Shape), ⟨2, ![p, d]⟩] ⟨2, ![t, d]⟩ 0) (r : Fin t) (k : Fin d) (q : Fin p)
    (hq : q.val + n = r.val) :
    concatenate ⟨2, ![t, d]⟩ 0 [⟨⟨2, ![n, d]⟩, x₁⟩, ⟨⟨2, ![p, d]⟩, x₂⟩] h (ix2 r k) = x₂ (ix2 q k) :=
  concatenate_pair_apply_right 0 x₁ x₂ h (ix2 r k) rfl rfl (ix2 q k)
    (fun b hb => by
      match b with
      | ⟨0, _⟩ => exact absurd rfl hb
      | ⟨1, _⟩ => rfl)
    hq

end Cert.KernelIdeal.HostVals.Lay
-- ==== Proof.KI.HostRead.lean ====
import proofs.«402943_j87462714016644_3_alg».proof.Proof.KI.HostTerms
import proofs.«402943_j87462714016644_3_alg».proof.Proof.KI.HostLay
import proofs.«402943_j87462714016644_3_alg».proof.Proof.Gen.KernelIdeal.Launch
import proofs.«402943_j87462714016644_3_alg».proof.Proof.Spec
import proofs.«402943_j87462714016644_3_alg».proof.Proof.LibGatherScatter
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof Cert.KernelIdeal.HostVals.Lay

section Steps

theorem one_bcast_apply (i : Fin 50000) :
    (broadcastInDim S50000 ![] bcast_S_S50000 (constant (F := Ideal) S_ .f32 0x3F800000#32) : FVec Ideal S50000 .f32) (ix1 i)
      = Spec.one32 := rfl

theorem rsqrt_apply (x : FVec Ideal S50000 .f32) (i : Fin 50000) : Host.rsqrt x (ix1 i) = Ideal.rsqrt (x (ix1 i)) := rfl

theorem rsqrt_max_add_apply (d : FVec Ideal S50000 .f32) (i : Fin 50000) :
    Host.rsqrt (maximumf (addf d (broadcastInDim S50000 ![] bcast_S_S50000 (constant (F := Ideal) S_ .f32 0x3F800000#32)))
      (broadcastInDim S50000 ![] bcast_S_S50000 (constant (F := Ideal) S_ .f32 0x3F800000#32))) (ix1 i)
      = Ideal.rsqrt (max (d (ix1 i) + Spec.one32) Spec.one32) := by
  rw [rsqrt_apply, maximumf_apply, addf_apply, one_bcast_apply]

theorem scat_apply (x : FVec Ideal S50000 .f32) (idx : IVec S600000x1 32) (upd : FVec Ideal S600000 .f32) (i : Fin 50000) :
    Host.scatterAdd scatter_S50000_S600000x1_S600000_n_0_0_1 x idx upd (ix1 i)
      = x (ix1 i) + ∑ e ∈ Finset.univ.filter (fun e : Fin 600000 => (idx (ix2 e (0 : Fin 1))).toInt = (i.val : Int)), upd (ix1 e) :=
  GS.scatterAdd_scat1_apply (N := 50000) (E := 600000) scatter_S50000_S600000x1_S600000_n_0_0_1.wf x idx upd i

theorem gath_apply (d : FVec Ideal S50000 .f32) (idx : IVec S600000x1 32) (e : Fin 600000) :
    Host.gather gather_S50000_S600000x1_S600000_n_0_n_n_0_1_1 d idx (ix1 e)
      = d (ix1 (GS.row (N := 50000) (by decide) (idx (ix2 e (0 : Fin 1))))) :=
  GS.gather_gath1_apply (N := 50000) (E := 600000) (by decide) gather_S50000_S600000x1_S600000_n_0_n_n_0_1_1.wf d idx e

theorem wrap_word (b : BitVec 32) :
    Scalar.select (IntOp.cmpi .slt b 0#32) (IntOp.addi b 50000#32) b = Spec.wrap b := by
  unfold Spec.wrap Scalar.select IntOp.cmpi IntOp.addi
  by_cases h : b.toInt < 0
  · have hs : b.slt 0#32 = true := by simp [BitVec.slt, h]
    simp [hs, h]
  · have hs : b.slt 0#32 = false := by simp [BitVec.slt, h]
    simp [hs, h]

end Steps

section AtIdeal

variable (ea : IVec S2x600000 32)

abbrev srcW : Fin 600000 → BitVec 32 := Spec.cur2 (α := BitVec 32) ea 0

abbrev dstW : Fin 600000 → BitVec 32 := Spec.cur2 (α := BitVec 32) ea 1

theorem tRow0_apply (e : Fin 600000) : tRow0 ea (ix1 e) = srcW ea e := by
  unfold tRow0
  refine (shapeCast_1a_a_apply _ shapeCasts_S1x600000_S600000 e).trans ?_
  exact slice2_axis0_apply 0 ea slices_S2x600000_S1x600000_0_0 (0 : Fin 1) e (0 : Fin 2) rfl

theorem tRow1_apply (e : Fin 600000) : tRow1 ea (ix1 e) = dstW ea e := by
  unfold tRow1
  refine (shapeCast_1a_a_apply _ shapeCasts_S1x600000_S600000 e).trans ?_
  exact slice2_axis0_apply 1 ea slices_S2x600000_S1x600000_1_0 (0 : Fin 1) e (1 : Fin 2) rfl

theorem tWrap_apply (w : IVec S600000 32) (e : Fin 600000) : tWrap w (ix1 e) = Spec.wrap (w (ix1 e)) :=
  wrap_word (w (ix1 e))

theorem tDeg_apply (i : Fin 50000) :
    tDeg (F := Ideal) ea (ix1 i) = (0 : EReal) + ∑ _e ∈ Spec.hits (dstW ea) i.val, Spec.one32 := by
  unfold tDeg
  refine (scat_apply _ _ _ i).trans ?_
  have hidx : ∀ e : Fin 600000,
      (broadcastInDim S600000x1 ![0] bcast_S600000_S600000x1_0 (tRow1 ea)) (ix2 e (0 : Fin 1)) = dstW ea e :=
    fun e => (bcast_col_apply bcast_S600000_S600000x1_0 _ e 0).trans (tRow1_apply ea e)
  simp only [hidx]
  generalize dstW ea = dst
  unfold Spec.hits
  congr 1
  exact Ideal.ofBits_zero_f32

theorem tDinv_apply (i : Fin 50000) : tDinv (F := Ideal) ea (ix1 i) = Spec.dinvK (dstW ea) i := by
  unfold tDinv Spec.dinvK Spec.degK
  rw [rsqrt_max_add_apply, tDeg_apply]

theorem tGath_apply (w : IVec S600000 32) (e : Fin 600000) :
    tGath (F := Ideal) ea w (ix1 e) = Spec.dinvK (dstW ea) (Spec.rowOf (w (ix1 e))) := by
  unfold tGath Spec.rowOf
  rw [gath_apply, bcast_col_apply bcast_S600000_S600000x1_0, tWrap_apply, tDinv_apply]

theorem tNorm_apply (e : Fin 600000) : tNorm (F := Ideal) ea (ix1 e) = Spec.normK (srcW ea) (dstW ea) e := by
  unfold tNorm Spec.normK
  rw [mulf_apply, tGath_apply, tGath_apply, tRow0_apply, tRow1_apply]

theorem tSelf_apply (i : Fin 50000) : tSelf (F := Ideal) ea (ix1 i) = Spec.selfK (dstW ea) i := by
  unfold tSelf Spec.selfK
  rw [mulf_apply, tDinv_apply]

theorem tPadI_apply (w : IVec S600000 32) (e : Fin (600000 + 64)) :
    tPadI w (ix1 e) = Spec.padTo 600000 64 (Spec.cur1 (α := BitVec 32) w) (-1#32) e := by
  unfold tPadI Spec.padTo
  split
  · next h => exact concat1_left _ _ concatenates_S600000_S64_S600064_d0 e h
  · next h =>
    have he := e.isLt
    refine (concat1_right _ _ concatenates_S600000_S64_S600064_d0 e ⟨e.val - 600000, by omega⟩
      (by show e.val - 600000 + 600000 = e.val; omega)).trans ?_
    rfl

theorem tPadF_apply (w : FVec Ideal S600000 .f32) (e : Fin (600000 + 64)) :
    tPadF (F := Ideal) w (ix1 e) = Spec.padTo 600000 64 (Spec.cur1 (α := EReal) w) 0 e := by
  unfold tPadF Spec.padTo
  split
  · next h => exact concat1_left _ _ concatenates_S600000_S64_S600064_d0 e h
  · next h =>
    have he := e.isLt
    refine (concat1_right _ _ concatenates_S600000_S64_S600064_d0 e ⟨e.val - 600000, by omega⟩
      (by show e.val - 600000 + 600000 = e.val; omega)).trans ?_
    exact Ideal.ofBits_zero_f32

end AtIdeal

end Cert.KernelIdeal.HostVals
-- ==== Proof.KI.HostVals0.lean ====
import proofs.«402943_j87462714016644_3_alg».proof.Proof.KI.HostFunA
import proofs.«402943_j87462714016644_3_alg».proof.Proof.KI.HostFunB
import proofs.«402943_j87462714016644_3_alg».proof.Proof.KI.HostFunC
import proofs.«402943_j87462714016644_3_alg».proof.Proof.KI.HostRead

open scoped BigOperators

noncomputable section

namespace Cert.KernelIdeal.HostVals

open Idealize.ShloMosaic Idealize.ShloMosaic.ValueIdx Idealize.ShloMosaic.StableHlo
open Cert.KernelIdeal Cert.KernelIdeal.Gen Cert.Proof Cert.KernelIdeal.HostVals.Lay

section First

variable (V : Valuation τ sig (Elt Ideal))

abbrev srcV : Fin 600000 → BitVec 32 := srcW (V (Proc.devRef .tc main_arg7))

abbrev dstV : Fin 600000 → BitVec 32 := dstW (V (Proc.devRef .tc main_arg7))

theorem v35_apply (e : Fin (600000 + 64)) :
    (StableHlo.after (hostOps0 (F := Ideal)) V (Proc.devRef .tc main_v35) : S1x600064.Idx → BitVec 32) (ix2 (0 : Fin 1) e)
      = Spec.srcP (srcV V) e := by
  rw [v35_fun]
  refine (shapeCast_a_1a_apply _ shapeCasts_S600064_S1x600064 0 e).trans ?_
  rw [tPadI_apply]
  unfold Spec.srcP Spec.padTo
  split
  · next h => exact tRow0_apply _ _
  · rfl

theorem v36_apply (e : Fin (600000 + 64)) :
    (StableHlo.after (hostOps0 (F := Ideal)) V (Proc.devRef .tc main_v36) : S1x600064.Idx → BitVec 32) (ix2 (0 : Fin 1) e)
      = Spec.dstP (dstV V) e := by
  rw [v36_fun]
  refine (shapeCast_a_1a_apply _ shapeCasts_S600064_S1x600064 0 e).trans ?_
  rw [tPadI_apply]
  unfold Spec.dstP Spec.padTo
  split
  · next h => exact tRow1_apply _ _
  · rfl

theorem v37_apply (e : Fin (600000 + 64)) :
    (StableHlo.after (hostOps0 (F := Ideal)) V (Proc.devRef .tc main_v37) : S600064x1.Idx → EReal) (ix2 e (0 : Fin 1))
      = Spec.normP (srcV V) (dstV V) e := by
  rw [v37_fun]
  refine (shapeCast_a_a1_apply _ shapeCasts_S600064_S600064x1 e 0).trans ?_
  rw [tPadF_apply]
  unfold Spec.normP Spec.padTo
  split
  · next h => exact tNorm_apply _ _
  · rfl

theorem v38_apply (q : Fin 128) :
    (StableHlo.after (hostOps0 (F := Ideal)) V (Proc.devRef .tc main_v38) : S1x128.Idx → EReal) (ix2 (0 : Fin 1) q)
      = Spec.cur1 (α := EReal) (V (Proc.devRef .tc main_arg2)) q := by
  rw [v38_fun]
  exact shapeCast_a_1a_apply _ shapeCasts_S128_S1x128 0 q

theorem v39_apply (q : Fin 128) :
    (StableHlo.after (hostOps0 (F := Ideal)) V (Proc.devRef .tc main_v39) : S1x128.Idx → EReal) (ix2 (0 : Fin 1) q)
      = Spec.cur1 (α := EReal) (V (Proc.devRef .tc main_arg4)) q := by
  rw [v39_fun]
  exact shapeCast_a_1a_apply _ shapeCasts_S128_S1x128 0 q

theorem v28_apply (i : Fin 50000) :
    (StableHlo.after (hostOps0 (F := Ideal)) V (Proc.devRef .tc main_v28) : S50000.Idx → EReal) (ix1 i)
      = Spec.selfK (dstV V) i := by
  rw [v28_fun]
  exact tSelf_apply _ i

theorem v42_apply (i : Fin 50000) (k : Fin 128) :
    (StableHlo.after (hostOps0 (F := Ideal)) V (Proc.devRef .tc main_v42) : S50000x128.Idx → EReal) (ix2 i k)
      = Spec.cur2 (α := EReal) (V (Proc.devRef .tc main_arg0)) i k * Spec.selfK (dstV V) i := by
  rw [v42_fun, mulf_apply, bcast_colmat_apply bcast_S50000x1_S50000x128_0_1, bcast_col_apply bcast_S50000_S50000x1_0,
    tSelf_apply]
  rfl

theorem v43_apply (i : Fin 50000) (k : Fin 128) :
    (StableHlo.after (hostOps0 (F := Ideal)) V (Proc.devRef .tc main_v43) : S50000x128.Idx → EReal) (ix2 i k)
      = Spec.cur2 (α := EReal) (V (Proc.devRef .tc main_arg0)) i k := by
  rw [v43_fun]
  rfl

end First

end Cert.KernelIdeal.HostVals
-- ==== Proof.KI.HostVals24.lean ====
import proofs.«402943_j87462714016644_3_alg».proof.Proof.KI.HostLay
import proofs.«402943_j87462714016644_3_alg».proof.Proof.Gen.KernelIdeal.Launch
import proofs.«402943_j87462714016644_3_alg».proof.Proof.Spec
import proofs.«402943_j87462714016644_3_alg».proof.Proof.LibGatherScatter
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.HostVals

open Idealize.ShloMosaic Idealize.ShloMosaic.ValueIdx Idealize.ShloMosaic.StableHlo
open Cert.KernelIdeal Cert.KernelIdeal.Gen Cert.Proof Cert.KernelIdeal.HostVals.Lay

variable (V : Valuation τ sig (Elt Ideal))

theorem v48_fun :
    StableHlo.after (hostOps2 (F := Ideal)) V (Proc.devRef .tc main_v48)
      = (mulf (V (Proc.devRef .tc main_v45) : FVec Ideal S50000x128 .f32)
          (broadcastInDim S50000x128 ![0, 1] bcast_S50000x1_S50000x128_0_1
            (broadcastInDim S50000x1 ![0] bcast_S50000_S50000x1_0 (V (Proc.devRef .tc main_v28) : FVec Ideal S50000 .f32)))
          : FVec Ideal S50000x128 .f32) := by
  after_results <;> rfl

theorem v48_apply (i : Fin 50000) (k : Fin 128) :
    (StableHlo.after (hostOps2 (F := Ideal)) V (Proc.devRef .tc main_v48) : S50000x128.Idx → EReal) (ix2 i k)
      = Spec.cur2 (α := EReal) (V (Proc.devRef .tc main_v45)) i k
        * Spec.cur1 (α := EReal) (V (Proc.devRef .tc main_v28)) i := by
  rw [v48_fun]
  show Spec.cur2 (α := EReal) (V (Proc.devRef .tc main_v45)) i k * _ = _
  congr 1
  refine (bcast_colmat_apply bcast_S50000x1_S50000x128_0_1 _ i k).trans ?_
  exact bcast_col_apply bcast_S50000_S50000x1_0 _ i 0

theorem v49_fun :
    StableHlo.after (hostOps2 (F := Ideal)) V (Proc.devRef .tc main_v49)
      = (truncf .bf16 (V (Proc.devRef .tc main_v45) : FVec Ideal S50000x128 .f32) bitsLt_bf16_f32 : FVec Ideal S50000x128 .bf16) := by
  after_results <;> rfl

theorem v49_apply (i : Fin 50000) (k : Fin 128) :
    (StableHlo.after (hostOps2 (F := Ideal)) V (Proc.devRef .tc main_v49) : S50000x128.Idx → EReal) (ix2 i k)
      = Spec.cur2 (α := EReal) (V (Proc.devRef .tc main_v45)) i k := by
  rw [v49_fun]; rfl

theorem v53_fun :
    StableHlo.after (hostOps4 (F := Ideal)) V (Proc.devRef .tc main_v53)
      = (concatenate S51200x128 0
          [⟨S50000x128, (V (Proc.devRef .tc main_v51) : FVec Ideal S50000x128 .f32)⟩,
           ⟨S1200x128, (broadcastInDim S1200x128 ![] bcast_S_S1200x128 (constant (F := Ideal) S_ .f32 0x00000000#32) : FVec Ideal S1200x128 .f32)⟩]
          concatenates_S50000x128_S1200x128_S51200x128_d0 : FVec Ideal S51200x128 .f32) := by
  after_results <;> rfl

theorem v53_apply (r : Fin (50000 + 1200)) (k : Fin 128) :
    (StableHlo.after (hostOps4 (F := Ideal)) V (Proc.devRef .tc main_v53) : S51200x128.Idx → EReal) (ix2 r k)
      = Spec.padTo 50000 1200 (fun i => Spec.cur2 (α := EReal) (V (Proc.devRef .tc main_v51)) i k) 0 r := by
  rw [v53_fun]
  unfold Spec.padTo
  split
  · next h => exact concat2_left _ _ concatenates_S50000x128_S1200x128_S51200x128_d0 r k h
  · next h =>
    have hr := r.isLt
    refine (concat2_right _ _ concatenates_S50000x128_S1200x128_S51200x128_d0 r k ⟨r.val - 50000, by omega⟩
      (by show r.val - 50000 + 50000 = r.val; omega)).trans ?_
    exact Ideal.ofBits_zero_f32

theorem v56_fun :
    StableHlo.after (hostOps4 (F := Ideal)) V (Proc.devRef .tc main_v56)
      = (shapeCast S1x51200
          (concatenate S51200 0
            [⟨S50000, (V (Proc.devRef .tc main_arg8) : IVec S50000 32)⟩,
             ⟨S1200, (broadcastInDim S1200 ![] bcast_S_S1200 (constantI S_ 32 4294967295#32) : IVec S1200 32)⟩]
            concatenates_S50000_S1200_S51200_d0 : IVec S51200 32)
          shapeCasts_S51200_S1x51200 : IVec S1x51200 32) := by
  after_results <;> rfl

theorem v56_apply (r : Fin (50000 + 1200)) :
    (StableHlo.after (hostOps4 (F := Ideal)) V (Proc.devRef .tc main_v56) : S1x51200.Idx → BitVec 32) (ix2 (0 : Fin 1) r)
      = Spec.padTo 50000 1200 (Spec.cur1 (α := BitVec 32) (V (Proc.devRef .tc main_arg8))) (-1#32) r := by
  rw [v56_fun]
  refine (shapeCast_a_1a_apply _ shapeCasts_S51200_S1x51200 0 r).trans ?_
  unfold Spec.padTo
  split
  · next h => exact concat1_left _ _ concatenates_S50000_S1200_S51200_d0 r h
  · next h =>
    have hr := r.isLt
    refine (concat1_right _ _ concatenates_S50000_S1200_S51200_d0 r ⟨r.val - 50000, by omega⟩
      (by show r.val - 50000 + 50000 = r.val; omega)).trans ?_
    rfl

theorem v57_fun :
    StableHlo.after (hostOps4 (F := Ideal)) V (Proc.devRef .tc main_v57)
      = (shapeCast S1x40 (V (Proc.devRef .tc main_arg6) : FVec Ideal S40 .f32) shapeCasts_S40_S1x40 : FVec Ideal S1x40 .f32) := by
  after_results <;> rfl

theorem v57_apply (o : Fin 40) :
    (StableHlo.after (hostOps4 (F := Ideal)) V (Proc.devRef .tc main_v57) : S1x40.Idx → EReal) (ix2 (0 : Fin 1) o)
      = Spec.cur1 (α := EReal) (V (Proc.devRef .tc main_arg6)) o := by
  rw [v57_fun]
  exact shapeCast_a_1a_apply _ shapeCasts_S40_S1x40 0 o

end Cert.KernelIdeal.HostVals
-- ==== Proof.KI.HostVals.lean ====
import proofs.«402943_j87462714016644_3_alg».proof.Proof.KI.HostVals0
import proofs.«402943_j87462714016644_3_alg».proof.Proof.KI.HostVals24
-- ==== Proof.KI.Compose.lean ====
import proofs.«402943_j87462714016644_3_alg».proof.Proof.KI.Run
import proofs.«402943_j87462714016644_3_alg».proof.Proof.KI.Val0
import proofs.«402943_j87462714016644_3_alg».proof.Proof.KI.Val1
import proofs.«402943_j87462714016644_3_alg».proof.Proof.KI.Val2
import proofs.«402943_j87462714016644_3_alg».proof.Proof.KI.Val3
import proofs.«402943_j87462714016644_3_alg».proof.Proof.KI.Val4
import proofs.«402943_j87462714016644_3_alg».proof.Proof.KI.HostVals
import proofs.«402943_j87462714016644_3_alg».proof.Proof.Spec

set_option maxRecDepth 16384

noncomputable section

namespace Cert.KernelIdeal.Hand

open Idealize.ShloMosaic Idealize.ShloMosaic.TcCoe Idealize.ShloMosaic.ValueIdx
open Cert.KernelIdeal Cert.KernelIdeal.Gen Cert.Proof

section Compose

variable (m : (ℓ : Loc nD τ sig) → Buf (Elt Ideal) ℓ) (c : Dev nD)

abbrev aX : S50000x128.Idx → EReal := m ((c : Thread nD τ).loc main_arg0)
abbrev aW1 : S128x128.Idx → EReal := m ((c : Thread nD τ).loc main_arg1)
abbrev ab1 : S128.Idx → EReal := m ((c : Thread nD τ).loc main_arg2)
abbrev aW2 : S128x128.Idx → EReal := m ((c : Thread nD τ).loc main_arg3)
abbrev ab2 : S128.Idx → EReal := m ((c : Thread nD τ).loc main_arg4)
abbrev aLW : S128x40.Idx → EReal := m ((c : Thread nD τ).loc main_arg5)
abbrev aLb : S40.Idx → EReal := m ((c : Thread nD τ).loc main_arg6)
abbrev aE : S2x600000.Idx → BitVec 32 := m ((c : Thread nD τ).loc main_arg7)
abbrev aBat : S50000.Idx → BitVec 32 := m ((c : Thread nD τ).loc main_arg8)
abbrev sSrc : Fin 600000 → BitVec 32 := fun e => aE m c (ix2 (0 : Fin 2) e)
abbrev sDst : Fin 600000 → BitVec 32 := fun e => aE m c (ix2 (1 : Fin 2) e)
abbrev nrm := Spec.normP (sSrc m c) (sDst m c)
abbrev h1 := Spec.h1K (Spec.cur2 (aX m c)) (Spec.cur2 (aW1 m c)) (Spec.cur1 (ab1 m c)) (sSrc m c) (sDst m c)
abbrev h2 := Spec.h2K (Spec.cur2 (aX m c)) (Spec.cur2 (aW1 m c)) (Spec.cur1 (ab1 m c)) (Spec.cur2 (aW2 m c)) (Spec.cur1 (ab2 m c)) (sSrc m c) (sDst m c)

theorem cur2_unc2 {α : Type} {a b : Nat} (g : Fin a → Fin b → α) : Spec.cur2 (Spec.unc2 g) = g := rfl

theorem w2_v44 : (W2 m c (Proc.devRef .tc main_v44) : S600064x128.Idx → EReal)
    = Spec.unc2 (Spec.gatherK (Spec.cur2 (aX m c)) (Spec.srcP (sSrc m c)) (nrm m c)) := by
  have e0 : Spec.cur2 (Vr1 m c (Pipeline.arrRef spec0 0)) = Spec.cur2 (aX m c) := by
    funext i k; exact HostVals.v43_apply (W0 m c) i k
  have e1 : (fun e => Vr1 m c (Pipeline.arrRef spec0 1) (ix2 0 e)) = Spec.srcP (sSrc m c) := by
    funext e; exact HostVals.v35_apply (W0 m c) e
  have e2 : (fun e => Vr1 m c (Pipeline.arrRef spec0 2) (ix2 e 0)) = nrm m c := by
    funext e; exact HostVals.v37_apply (W0 m c) e
  exact ((W2_arr m c 3).trans (arrAt0_out (Vr1 m) c)).trans (congrArg Spec.unc2 (congr (congr (congrArg Spec.gatherK e0) e1) e2))

theorem w3_v45 : (W3 m c (Proc.devRef .tc main_v45) : S50000x128.Idx → EReal) = Spec.unc2 (h1 m c) := by
  have e0 : Spec.cur2 (Vr2 m c (Pipeline.arrRef spec1 0))
      = Spec.gatherK (Spec.cur2 (aX m c)) (Spec.srcP (sSrc m c)) (nrm m c) :=
    (congrArg Spec.cur2 (w2_v44 m c)).trans (cur2_unc2 _)
  have e1 : (fun e => Vr2 m c (Pipeline.arrRef spec1 1) (ix2 0 e)) = Spec.dstP (sDst m c) := by
    funext e
    exact (congrFun (W2_of_ne m c main_v36 (by decide)) _).trans (HostVals.v36_apply (W0 m c) e)
  have e2 : Spec.cur2 (Vr2 m c (Pipeline.arrRef spec1 2)) = Spec.cur2 (aW1 m c) :=
    congrArg Spec.cur2 ((W2_of_ne m c main_arg1 (by decide)).trans (W1_of m c main_arg1 (by decide)))
  have e3 : (fun q => Vr2 m c (Pipeline.arrRef spec1 3) (ix2 0 q)) = Spec.cur1 (ab1 m c) := by
    funext q
    exact (congrFun (W2_of_ne m c main_v38 (by decide)) _).trans (HostVals.v38_apply (W0 m c) q)
  have e4 : Spec.cur2 (Vr2 m c (Pipeline.arrRef spec1 4))
      = fun i k => Spec.cur2 (aX m c) i k * Spec.selfK (sDst m c) i := by
    funext i k
    exact (congrFun (W2_of_ne m c main_v42 (by decide)) _).trans (HostVals.v42_apply (W0 m c) i k)
  exact ((W3_arr m c 5).trans (arrAt1_out (Vr2 m) c)).trans
    (congrArg Spec.unc2 (congrArg (fun (f : Fin 50000 → Fin 128 → EReal) i q => max (f i q) 0) (congr (congr (congr (congr (congrArg Spec.scatterK e0) e1) e2) e3) e4)))

theorem w3_v45_apply (i : Fin 50000) (k : Fin 128) :
    Spec.cur2 (α := EReal) (W3 m c (Proc.devRef .tc main_v45)) i k
      = h1 m c i k :=
  congrFun (congrFun ((congrArg Spec.cur2 (w3_v45 m c)).trans (cur2_unc2 _)) i) k

theorem w3_v28 (i : Fin 50000) :
    Spec.cur1 (α := EReal) (W3 m c (Proc.devRef .tc main_v28)) i = Spec.selfK (sDst m c) i :=
  (congrFun ((W3_of_ne m c main_v28 (by decide)).trans (W2_of_ne m c main_v28 (by decide))) _).trans (HostVals.v28_apply (W0 m c) i)

theorem w5_v50 : (W5 m c (Proc.devRef .tc main_v50) : S600064x128.Idx → EReal)
    = Spec.unc2 (Spec.gatherK (h1 m c) (Spec.srcP (sSrc m c)) (nrm m c)) := by
  have e0 : Spec.cur2 (Vr4 m c (Pipeline.arrRef spec2 0)) = h1 m c := by
    funext i k; exact (HostVals.v49_apply (W3 m c) i k).trans (w3_v45_apply m c i k)
  have e1 : (fun e => Vr4 m c (Pipeline.arrRef spec2 1) (ix2 0 e)) = Spec.srcP (sSrc m c) := by
    funext e
    exact (congrFun ((W4_of m c main_v35 (by decide)).trans ((W3_of_ne m c main_v35 (by decide)).trans
      (W2_in m c 1 rfl))) _).trans (HostVals.v35_apply (W0 m c) e)
  have e2 : (fun e => Vr4 m c (Pipeline.arrRef spec2 2) (ix2 e 0)) = nrm m c := by
    funext e
    exact (congrFun ((W4_of m c main_v37 (by decide)).trans ((W3_of_ne m c main_v37 (by decide)).trans
      (W2_in m c 2 rfl))) _).trans (HostVals.v37_apply (W0 m c) e)
  exact ((W5_arr m c 3).trans (arrAt2_out (Vr4 m) c)).trans (congrArg Spec.unc2 (congr (congr (congrArg Spec.gatherK e0) e1) e2))

theorem w6_v51 : (W6 m c (Proc.devRef .tc main_v51) : S50000x128.Idx → EReal) = Spec.unc2 (h2 m c) := by
  have e0 : Spec.cur2 (Vr5 m c (Pipeline.arrRef spec3 0))
      = Spec.gatherK (h1 m c) (Spec.srcP (sSrc m c)) (nrm m c) :=
    (congrArg Spec.cur2 (w5_v50 m c)).trans (cur2_unc2 _)
  have e1 : (fun e => Vr5 m c (Pipeline.arrRef spec3 1) (ix2 0 e)) = Spec.dstP (sDst m c) := by
    funext e
    exact (congrFun ((W5_of_ne m c main_v36 (by decide)).trans ((W4_of m c main_v36 (by decide)).trans
      ((W3_in m c 1 rfl).trans (W2_of_ne m c main_v36 (by decide))))) _).trans (HostVals.v36_apply (W0 m c) e)
  have e2 : Spec.cur2 (Vr5 m c (Pipeline.arrRef spec3 2)) = Spec.cur2 (aW2 m c) :=
    congrArg Spec.cur2 ((W5_of_ne m c main_arg3 (by decide)).trans ((W4_of m c main_arg3 (by decide)).trans
      ((W3_of_ne m c main_arg3 (by decide)).trans ((W2_of_ne m c main_arg3 (by decide)).trans
        (W1_of m c main_arg3 (by decide))))))
  have e3 : (fun q => Vr5 m c (Pipeline.arrRef spec3 3) (ix2 0 q)) = Spec.cur1 (ab2 m c) := by
    funext q
    exact (congrFun ((W5_of_ne m c main_v39 (by decide)).trans ((W4_of m c main_v39 (by decide)).trans
      ((W3_of_ne m c main_v39 (by decide)).trans (W2_of_ne m c main_v39 (by decide))))) _).trans (HostVals.v39_apply (W0 m c) q)
  have e4 : Spec.cur2 (Vr5 m c (Pipeline.arrRef spec3 4))
      = fun i k => h1 m c i k * Spec.selfK (sDst m c) i := by
    funext i k
    refine ((congrFun (congrFun (congrArg Spec.cur2 (W5_of_ne m c main_v48 (by decide))) i) k).trans
      (HostVals.v48_apply (W3 m c) i k)).trans ?_
    rw [w3_v45_apply, w3_v28]
  exact ((W6_arr m c 5).trans (arrAt3_out (Vr5 m) c)).trans
    (congrArg Spec.unc2 (congr (congr (congr (congr (congrArg Spec.scatterK e0) e1) e2) e3) e4))

theorem ker_value :
    W8 (F := Ideal) m c (Proc.devRef .tc main_v58)
      = Spec.unc2 (Spec.kerOut
          (Spec.cur2 (m ((c : Thread nD τ).loc main_arg0) : S50000x128.Idx → EReal))
          (Spec.cur2 (m ((c : Thread nD τ).loc main_arg1) : S128x128.Idx → EReal))
          (Spec.cur1 (m ((c : Thread nD τ).loc main_arg2) : S128.Idx → EReal))
          (Spec.cur2 (m ((c : Thread nD τ).loc main_arg3) : S128x128.Idx → EReal))
          (Spec.cur1 (m ((c : Thread nD τ).loc main_arg4) : S128.Idx → EReal))
          (Spec.cur2 (m ((c : Thread nD τ).loc main_arg5) : S128x40.Idx → EReal))
          (Spec.cur1 (m ((c : Thread nD τ).loc main_arg6) : S40.Idx → EReal))
          (fun e => (m ((c : Thread nD τ).loc main_arg7) : S2x600000.Idx → BitVec 32) (ix2 (0 : Fin 2) e))
          (fun e => (m ((c : Thread nD τ).loc main_arg7) : S2x600000.Idx → BitVec 32) (ix2 (1 : Fin 2) e))
          (Spec.cur1 (m ((c : Thread nD τ).loc main_arg8) : S50000.Idx → BitVec 32))) := by
  have a8 : W6 m c (Proc.devRef .tc main_arg8) = W0 m c (Proc.devRef .tc main_arg8) :=
    (W6_of_ne m c main_arg8 (by decide)).trans ((W5_of_ne m c main_arg8 (by decide)).trans
      ((W4_of m c main_arg8 (by decide)).trans ((W3_of_ne m c main_arg8 (by decide)).trans
        ((W2_of_ne m c main_arg8 (by decide)).trans (W1_of m c main_arg8 (by decide))))))
  have a6 : W6 m c (Proc.devRef .tc main_arg6) = W0 m c (Proc.devRef .tc main_arg6) :=
    (W6_of_ne m c main_arg6 (by decide)).trans ((W5_of_ne m c main_arg6 (by decide)).trans
      ((W4_of m c main_arg6 (by decide)).trans ((W3_of_ne m c main_arg6 (by decide)).trans
        ((W2_of_ne m c main_arg6 (by decide)).trans (W1_of m c main_arg6 (by decide))))))
  have a5 : W7 m c (Proc.devRef .tc main_arg5) = W0 m c (Proc.devRef .tc main_arg5) :=
    (W7_of m c main_arg5 (by decide)).trans ((W6_of_ne m c main_arg5 (by decide)).trans
      ((W5_of_ne m c main_arg5 (by decide)).trans ((W4_of m c main_arg5 (by decide)).trans
        ((W3_of_ne m c main_arg5 (by decide)).trans ((W2_of_ne m c main_arg5 (by decide)).trans
          (W1_of m c main_arg5 (by decide)))))))
  have e0 : Spec.cur2 (Vr7 m c (Pipeline.arrRef spec4 0))
      = fun r k => Spec.padTo 50000 1200 (fun i => h2 m c i k) 0 r := by
    funext r k
    refine (HostVals.v53_apply (W6 m c) r k).trans ?_
    rw [show (fun i => Spec.cur2 (α := EReal) (W6 m c (Proc.devRef .tc main_v51)) i k)
        = fun i => h2 m c i k from
      funext fun i => congrFun (congrFun ((congrArg Spec.cur2 (w6_v51 m c)).trans (cur2_unc2 _)) i) k]
  have e1 : (fun r => Vr7 m c (Pipeline.arrRef spec4 1) (ix2 0 r))
      = Spec.padTo 50000 1200 (Spec.cur1 (aBat m c)) (-1#32) := by
    funext r
    refine (HostVals.v56_apply (W6 m c) r).trans ?_
    rw [a8]
  have e2 : Spec.cur2 (Vr7 m c (Pipeline.arrRef spec4 2)) = Spec.cur2 (aLW m c) := congrArg Spec.cur2 a5
  have e3 : (fun o => Vr7 m c (Pipeline.arrRef spec4 3) (ix2 0 o)) = Spec.cur1 (aLb m c) := by
    funext o
    refine (HostVals.v57_apply (W6 m c) o).trans ?_
    rw [a6]
  exact ((W8_out m c).trans (arrAt4_out (Vr7 m) c)).trans (congrArg Spec.unc2 (congr (congr (congr (congrArg Spec.poolK e0) e1) e2) e3))

end Compose

end Cert.KernelIdeal.Hand

end
-- ==== Proof.RefValue.lean ====
import proofs.«402943_j87462714016644_3_alg».proof.Proof.RefRun
import proofs.«402943_j87462714016644_3_alg».proof.Proof.RefRead
import proofs.«402943_j87462714016644_3_alg».proof.Proof.Spec

open scoped BigOperators

noncomputable section

namespace Cert.Proof.RefValue

open Cert.ReferenceIdeal Cert.ReferenceIdeal.Gen Cert.ReferenceIdeal.ReadP Idealize.ShloMosaic Idealize.ShloMosaic.ValueIdx
open Idealize.ShloMosaic.TcCoe Idealize.SL.Sem Cert.Proof

theorem wrap_eq (w : BitVec 32) :
    Scalar.select (IntOp.cmpi .slt w 0#32) (IntOp.addi w 50000#32) w = Spec.wrap w := by
  unfold Spec.wrap Scalar.select IntOp.cmpi IntOp.addi
  by_cases h : w.toInt < 0
  · simp [BitVec.slt, h]
  · simp [BitVec.slt, h]

theorem select_ogt (d a b : EReal) :
    Scalar.select (Ideal.cmp .ogt d 0) a b = if d > 0 then a else b := by
  unfold Scalar.select Ideal.cmp
  by_cases h : (0 : EReal) < d
  · simp [h]
  · simp [h]

theorem sum_filter_congr {m : Nat} (p q : Fin m → Prop) [DecidablePred p] [DecidablePred q] (f g : Fin m → EReal)
    (hp : ∀ e, p e ↔ q e) (hf : ∀ e, f e = g e) :
    ∑ e ∈ Finset.univ.filter p, f e = ∑ e ∈ Finset.univ.filter q, g e := by
  rw [Finset.filter_congr (fun e _ => hp e)]
  exact Finset.sum_congr rfl fun e _ => hf e

theorem scatter_gather_apply
    (wfS : ScatterDims.WF ⟨2, ![50000, 128]⟩ ⟨2, ![650000, 1]⟩ ⟨2, ![650000, 128]⟩ [1] [0] [0] 1)
    (wfG : GatherDims.WF ⟨2, ![50000, 128]⟩ ⟨2, ![650000, 1]⟩ ⟨2, ![650000, 128]⟩ [1] [0] [] [0] [] 1 ![1, 128])
    (Z P : FVec Ideal ⟨2, ![50000, 128]⟩ .f32) (sidx didx : IVec ⟨2, ![650000, 1]⟩ 32)
    (nrm : FVec Ideal ⟨2, ![650000, 128]⟩ .f32) (i : Fin 50000) (q : Fin 128) :
    Host.scatterAdd (GS.scatD 50000 650000 128 wfS) Z didx
        (mulf (Host.gather (GS.gathD 50000 650000 128 wfG) P sidx) nrm) (ix2 i q)
      = Z (ix2 i q) + ∑ e ∈ Finset.univ.filter (fun e : Fin 650000 => (didx (ix2 e (0 : Fin 1))).toInt = (i.val : Int)),
          P (ix2 (GS.row (N := 50000) (by decide) (sidx (ix2 e (0 : Fin 1)))) q) * nrm (ix2 e q) := by
  rw [GS.scatterAdd_scatD_apply]
  refine congrArg _ (Finset.sum_congr rfl fun e _ => ?_)
  rw [mulf_apply, GS.gather_gathD_apply (by decide)]

theorem scat1_deg_eq : scatter_S50000_S650000x1_S650000_n_0_0_1
    = GS.scat1 50000 650000 Gen.scatter_S50000_S650000x1_S650000_n_0_0_1_wf := rfl
theorem gath1_eq : gather_S50000_S650000x1_S650000_n_0_n_n_0_1_1
    = GS.gath1 50000 650000 Gen.gather_S50000_S650000x1_S650000_n_0_n_n_0_1_1_wf := rfl
theorem gathD_eq : gather_S50000x128_S650000x1_S650000x128_1_0_n_n_0_1_1128
    = GS.gathD 50000 650000 128 Gen.gather_S50000x128_S650000x1_S650000x128_1_0_n_n_0_1_1128_wf := rfl
theorem scatD_eq : scatter_S50000x128_S650000x1_S650000x128_1_0_0_1
    = GS.scatD 50000 650000 128 Gen.scatter_S50000x128_S650000x1_S650000x128_1_0_0_1_wf := rfl
theorem scat1_cnt_eq : scatter_S100_S50000x1_S50000_n_0_0_1
    = GS.scat1 100 50000 Gen.scatter_S100_S50000x1_S50000_n_0_0_1_wf := rfl
theorem scatD_pool_eq : scatter_S100x128_S50000x1_S50000x128_1_0_0_1
    = GS.scatD 100 50000 128 Gen.scatter_S100x128_S50000x1_S50000x128_1_0_0_1_wf := rfl

section Words
variable (x7 : (⟨S2x600000, .i32⟩ : BufTy).Contents (Elt Ideal))

def srcW : Fin 600000 → BitVec 32 := fun e => x7 (ix2 (0 : Fin 2) e)
def dstW : Fin 600000 → BitVec 32 := fun e => x7 (ix2 (1 : Fin 2) e)

theorem v2_at (e : Fin 600000) : val_main_v2 (F := Ideal) x7 (ix1 e) = srcW x7 e := by
  rw [val_main_v2_apply, val_main_v1_apply]
  refine congrArg x7 (funext fun a => ?_)
  match a with
  | ⟨0, _⟩ => rfl
  | ⟨1, _⟩ => exact Fin.ext (Nat.mod_eq_of_lt e.isLt)

theorem v5_at (e : Fin 600000) : val_main_v5 (F := Ideal) x7 (ix1 e) = dstW x7 e := by
  rw [val_main_v5_apply, val_main_v4_apply]
  refine congrArg x7 (funext fun a => ?_)
  match a with
  | ⟨0, _⟩ => rfl
  | ⟨1, _⟩ => exact Fin.ext (Nat.mod_eq_of_lt e.isLt)

theorem concat_iota_at (f : (⟨S600000, .i32⟩ : BufTy).Contents (Elt Ideal)) (g : Fin 600000 → BitVec 32)
    (hf : ∀ e : Fin 600000, f (ix1 e) = g e) (e : Fin 650000) :
    concatenate S650000 0 [⟨S600000, f⟩, ⟨S50000, val_main_v0 (F := Ideal)⟩] concatenates_S600000_S50000_S650000_d0 (ix1 e)
      = Spec.app 600000 50000 g (fun j => BitVec.ofNat 32 j.val) e := by
  unfold Spec.app
  by_cases h : e.val < 600000
  · rw [dif_pos h]
    rw [concatenate_pair_apply_left (t := S650000) (s₁ := S600000) (s₂ := S50000) (0 : Fin 1) f (val_main_v0 (F := Ideal))
      concatenates_S600000_S50000_S650000_d0 (ix1 e) rfl (ix1 ⟨e.val, h⟩)
      (fun b => match b with | ⟨0, _⟩ => rfl)]
    exact hf _
  · rw [dif_neg h]
    have h2 : e.val - 600000 < 50000 := by have := e.isLt; omega
    rw [concatenate_pair_apply_right (t := S650000) (s₁ := S600000) (s₂ := S50000) (0 : Fin 1) f (val_main_v0 (F := Ideal))
      concatenates_S600000_S50000_S650000_d0 (ix1 e) rfl rfl (ix1 ⟨e.val - 600000, h2⟩)
      (fun b hb => absurd (Subsingleton.elim _ _) hb) (by show e.val - 600000 + 600000 = e.val; omega)]
    rfl

theorem v3_at (e : Fin 650000) : val_main_v3 (F := Ideal) x7 (ix1 e) = Spec.srcL (srcW x7) e :=
  concat_iota_at _ _ (v2_at x7) e
theorem v6_at (e : Fin 650000) : val_main_v6 (F := Ideal) x7 (ix1 e) = Spec.dstL (dstW x7) e :=
  concat_iota_at _ _ (v5_at x7) e

end Words

section Norm
variable (x7 : (⟨S2x600000, .i32⟩ : BufTy).Contents (Elt Ideal))

theorem v21_at (e : Fin 650000) : val_main_v21 (F := Ideal) x7 (ix1 e) = Spec.wrap (Spec.srcL (srcW x7) e) := by
  rw [val_main_v21_apply, val_main_v18_apply, val_main_v20_apply, val_main_v17_apply, val_main_v19_apply,
    val_main_c_apply, val_main_c_4_apply, v3_at]
  exact wrap_eq _
theorem v28_at (e : Fin 650000) : val_main_v28 (F := Ideal) x7 (ix1 e) = Spec.wrap (Spec.dstL (dstW x7) e) := by
  rw [val_main_v28_apply, val_main_v25_apply, val_main_v27_apply, val_main_v24_apply, val_main_v26_apply,
    val_main_c_5_apply, val_main_c_6_apply, v6_at]
  exact wrap_eq _
theorem v37_at (e : Fin 650000) : val_main_v37 (F := Ideal) x7 (ix1 e) = Spec.wrap (Spec.srcL (srcW x7) e) := by
  rw [val_main_v37_apply, val_main_v34_apply, val_main_v36_apply, val_main_v33_apply, val_main_v35_apply,
    val_main_c_7_apply, val_main_c_8_apply, v3_at]
  exact wrap_eq _
theorem v55_at (e : Fin 650000) : val_main_v55 (F := Ideal) x7 (ix1 e) = Spec.wrap (Spec.srcL (srcW x7) e) := by
  rw [val_main_v55_apply, val_main_v52_apply, val_main_v54_apply, val_main_v51_apply, val_main_v53_apply,
    val_main_c_10_apply, val_main_c_11_apply, v3_at]
  exact wrap_eq _

theorem v9_at (e : Fin 650000) : val_main_v9 (F := Ideal) x7 (ix2 e (0 : Fin 1)) = Spec.dstL (dstW x7) e := by
  rw [val_main_v9_apply, ← v6_at]
  exact congrArg _ (funext fun a => match a with | ⟨0, _⟩ => rfl)
theorem v44_at (e : Fin 650000) : val_main_v44 (F := Ideal) x7 (ix2 e (0 : Fin 1)) = Spec.dstL (dstW x7) e := by
  rw [val_main_v44_apply, ← v6_at]
  exact congrArg _ (funext fun a => match a with | ⟨0, _⟩ => rfl)
theorem v62_at (e : Fin 650000) : val_main_v62 (F := Ideal) x7 (ix2 e (0 : Fin 1)) = Spec.dstL (dstW x7) e := by
  rw [val_main_v62_apply, ← v6_at]
  exact congrArg _ (funext fun a => match a with | ⟨0, _⟩ => rfl)
theorem v22_at (e : Fin 650000) :
    val_main_v22 (F := Ideal) x7 (ix2 e (0 : Fin 1)) = Spec.wrap (Spec.srcL (srcW x7) e) := by
  rw [val_main_v22_apply, ← v21_at]
  exact congrArg _ (funext fun a => match a with | ⟨0, _⟩ => rfl)
theorem v29_at (e : Fin 650000) :
    val_main_v29 (F := Ideal) x7 (ix2 e (0 : Fin 1)) = Spec.wrap (Spec.dstL (dstW x7) e) := by
  rw [val_main_v29_apply, ← v28_at]
  exact congrArg _ (funext fun a => match a with | ⟨0, _⟩ => rfl)
theorem v38_at (e : Fin 650000) :
    val_main_v38 (F := Ideal) x7 (ix2 e (0 : Fin 1)) = Spec.wrap (Spec.srcL (srcW x7) e) := by
  rw [val_main_v38_apply, ← v37_at]
  exact congrArg _ (funext fun a => match a with | ⟨0, _⟩ => rfl)
theorem v56_at (e : Fin 650000) :
    val_main_v56 (F := Ideal) x7 (ix2 e (0 : Fin 1)) = Spec.wrap (Spec.srcL (srcW x7) e) := by
  rw [val_main_v56_apply, ← v55_at]
  exact congrArg _ (funext fun a => match a with | ⟨0, _⟩ => rfl)

theorem deg_at (i : Fin 50000) : val_main_v10 (F := Ideal) x7 (ix1 i) = Spec.degR (dstW x7) i := by
  unfold val_main_v10
  rw [scat1_deg_eq, GS.scatterAdd_scat1_apply, val_main_v8_apply, val_main_cst_0_apply, Ideal.ofBits_def,
    Ideal.ofBits_zero_f32]
  unfold Spec.degR Spec.hits
  refine congrArg _ (sum_filter_congr _ _ _ _ (fun e => by rw [v9_at]) (fun e => ?_))
  rw [val_main_v7_apply, val_main_cst_apply]
  rfl

theorem dinv_at (i : Fin 50000) : val_main_v16 (F := Ideal) x7 (ix1 i) = Spec.dinvR (dstW x7) i := by
  rw [val_main_v16_apply, val_main_v12_apply, val_main_v15_apply, val_main_v14_apply, deg_at, val_main_v11_apply,
    val_main_cst_1_apply, val_main_v13_apply, val_main_cst_2_apply, val_main_call0_v1_apply, val_main_call0_v0_apply,
    val_main_cst_3_apply]
  simp only [Ideal.cmpf_def, Ideal.hostUnary_rsqrt_def, Ideal.maximumf_def, Ideal.ofBits_def, Ideal.ofBits_zero_f32]
  rw [select_ogt]
  rfl

theorem norm_at (e : Fin 650000) : val_main_v31 (F := Ideal) x7 (ix1 e) = Spec.normR (srcW x7) (dstW x7) e := by
  rw [val_main_v31_apply]
  unfold val_main_v23 val_main_v30
  rw [gath1_eq, GS.gather_gath1_apply (by decide), GS.gather_gath1_apply (by decide), v22_at, v29_at, dinv_at, dinv_at]
  rfl

theorem v41_at (e : Fin 650000) (q : Fin 128) :
    val_main_v41 (F := Ideal) x7 (ix2 e q) = Spec.normR (srcW x7) (dstW x7) e := by
  rw [val_main_v41_apply, val_main_v40_apply, ← norm_at]
  exact congrArg _ (funext fun a => match a with | ⟨0, _⟩ => rfl)
theorem v59_at (e : Fin 650000) (q : Fin 128) :
    val_main_v59 (F := Ideal) x7 (ix2 e q) = Spec.normR (srcW x7) (dstW x7) e := by
  rw [val_main_v59_apply, val_main_v58_apply, ← norm_at]
  exact congrArg _ (funext fun a => match a with | ⟨0, _⟩ => rfl)

end Norm

section Layers
variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x7 : (⟨S2x600000, .i32⟩ : BufTy).Contents (Elt Ideal))

theorem proj1_at (r : Fin 50000) (q : Fin 128) :
    val_main_v32 (F := Ideal) x0 x1 (ix2 r q) = ∑ k : Fin 128, Spec.cur2 x0 r k * Spec.cur2 x1 k q := by
  rw [val_main_v32_apply]
  refine Finset.sum_congr rfl fun k _ => ?_
  exact congrArg₂ (· * ·)
    (congrArg x0 (funext fun a => match a with | ⟨0, _⟩ => rfl | ⟨1, _⟩ => rfl))
    (congrArg x1 (funext fun a => match a with | ⟨0, _⟩ => rfl | ⟨1, _⟩ => rfl))

theorem v47_at (i : Fin 50000) (q : Fin 128) : val_main_v47 (F := Ideal) x2 (ix2 i q) = Spec.cur1 x2 q := by
  rw [val_main_v47_apply, val_main_v46_apply]
  exact congrArg x2 (funext fun a => match a with | ⟨0, _⟩ => rfl)
theorem v65_at (i : Fin 50000) (q : Fin 128) : val_main_v65 (F := Ideal) x4 (ix2 i q) = Spec.cur1 x4 q := by
  rw [val_main_v65_apply, val_main_v64_apply]
  exact congrArg x4 (funext fun a => match a with | ⟨0, _⟩ => rfl)

theorem h1_at (i : Fin 50000) (q : Fin 128) :
    val_main_v49 (F := Ideal) x0 x1 x2 x7 (ix2 i q)
      = Spec.h1R (Spec.cur2 x0) (Spec.cur2 x1) (Spec.cur1 x2) (srcW x7) (dstW x7) i q := by
  rw [val_main_v49_apply, val_main_v48_apply, v47_at, val_main_call1_v0_apply, val_main_call1_cst_apply]
  unfold val_main_v45 val_main_v42 val_main_v39
  rw [scatD_eq, gathD_eq, scatter_gather_apply, val_main_v43_apply, val_main_cst_9_apply]
  simp only [Ideal.maximumf_def, Ideal.addf_def, Ideal.ofBits_def, Ideal.ofBits_zero_f32]
  unfold Spec.h1R Spec.layerR Spec.hits
  refine congrArg (fun t => max (t + Spec.cur1 x2 q) 0) (congrArg _ ?_)
  refine sum_filter_congr _ _ _ _ (fun e => by rw [v44_at]) (fun e => ?_)
  rw [v38_at, v41_at, proj1_at]
  rfl

theorem proj2_at (r : Fin 50000) (q : Fin 128) :
    val_main_v50 (F := Ideal) x0 x1 x2 x3 x7 (ix2 r q)
      = ∑ k : Fin 128, Spec.h1R (Spec.cur2 x0) (Spec.cur2 x1) (Spec.cur1 x2) (srcW x7) (dstW x7) r k * Spec.cur2 x3 k q := by
  rw [val_main_v50_apply]
  refine Finset.sum_congr rfl fun k _ => ?_
  rw [← h1_at]
  exact congrArg₂ (· * ·)
    (congrArg (val_main_v49 (F := Ideal) x0 x1 x2 x7) (funext fun a => match a with | ⟨0, _⟩ => rfl | ⟨1, _⟩ => rfl))
    (congrArg x3 (funext fun a => match a with | ⟨0, _⟩ => rfl | ⟨1, _⟩ => rfl))

theorem h2_at (i : Fin 50000) (q : Fin 128) :
    val_main_v66 (F := Ideal) x0 x1 x2 x3 x4 x7 (ix2 i q)
      = Spec.h2R (Spec.cur2 x0) (Spec.cur2 x1) (Spec.cur1 x2) (Spec.cur2 x3) (Spec.cur1 x4) (srcW x7) (dstW x7) i q := by
  rw [val_main_v66_apply, v65_at]
  unfold val_main_v63 val_main_v60 val_main_v57
  rw [scatD_eq, gathD_eq, scatter_gather_apply, val_main_v61_apply, val_main_cst_12_apply]
  simp only [Ideal.addf_def, Ideal.ofBits_def, Ideal.ofBits_zero_f32]
  unfold Spec.h2R Spec.layerR Spec.hits
  refine congrArg (fun t => t + Spec.cur1 x4 q) (congrArg _ ?_)
  refine sum_filter_congr _ _ _ _ (fun e => by rw [v62_at]) (fun e => ?_)
  rw [v56_at, v59_at, proj2_at]
  rfl

end Layers

section Pool
variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x40, .f32⟩ : BufTy).Contents (Elt Ideal))
  (x6 : (⟨S40, .f32⟩ : BufTy).Contents (Elt Ideal)) (x7 : (⟨S2x600000, .i32⟩ : BufTy).Contents (Elt Ideal))
  (x8 : (⟨S50000, .i32⟩ : BufTy).Contents (Elt Ideal))

theorem v69_at (r : Fin 50000) : val_main_v69 (F := Ideal) x8 (ix2 r (0 : Fin 1)) = Spec.cur1 x8 r := by
  rw [val_main_v69_apply]
  exact congrArg x8 (funext fun a => match a with | ⟨0, _⟩ => rfl)
theorem v72_at (r : Fin 50000) : val_main_v72 (F := Ideal) x8 (ix2 r (0 : Fin 1)) = Spec.cur1 x8 r := by
  rw [val_main_v72_apply]
  exact congrArg x8 (funext fun a => match a with | ⟨0, _⟩ => rfl)

theorem cnt_at (j : Fin 100) :
    val_main_v70 (F := Ideal) x8 (ix1 j) = (0 : EReal) + ∑ _r ∈ Spec.hits (Spec.cur1 x8) j.val, Spec.one32 := by
  unfold val_main_v70
  rw [scat1_cnt_eq, GS.scatterAdd_scat1_apply, val_main_v68_apply, val_main_cst_14_apply, Ideal.ofBits_def,
    Ideal.ofBits_zero_f32]
  unfold Spec.hits
  refine congrArg _ (sum_filter_congr _ _ _ _ (fun r => by rw [v69_at]) (fun r => ?_))
  rw [val_main_v67_apply, val_main_cst_13_apply]
  rfl

theorem sum_at (j : Fin 100) (k : Fin 128) :
    val_main_v73 (F := Ideal) x0 x1 x2 x3 x4 x7 x8 (ix2 j k)
      = (0 : EReal) + ∑ r ∈ Spec.hits (Spec.cur1 x8) j.val,
          Spec.h2R (Spec.cur2 x0) (Spec.cur2 x1) (Spec.cur1 x2) (Spec.cur2 x3) (Spec.cur1 x4) (srcW x7) (dstW x7) r k := by
  unfold val_main_v73
  rw [scatD_pool_eq, GS.scatterAdd_scatD_apply, val_main_v71_apply, val_main_cst_15_apply, Ideal.ofBits_def,
    Ideal.ofBits_zero_f32]
  unfold Spec.hits
  exact congrArg _ (sum_filter_congr _ _ _ _ (fun r => by rw [v72_at]) (fun r => h2_at x0 x1 x2 x3 x4 x7 r k))

theorem v77_at (j : Fin 100) (k : Fin 128) :
    val_main_v77 (F := Ideal) x8 (ix2 j k)
      = max ((0 : EReal) + ∑ _r ∈ Spec.hits (Spec.cur1 x8) j.val, Spec.one32) Spec.one32 := by
  have hi : idx_main_v76 (idx_main_v77 (ix2 j k)) = ix1 j := funext fun a => match a with | ⟨0, _⟩ => rfl
  rw [val_main_v77_apply, val_main_v76_apply, hi, val_main_v75_apply, cnt_at, val_main_v74_apply, val_main_cst_16_apply]
  rfl

theorem v81_at (j : Fin 100) (o : Fin 40) : val_main_v81 (F := Ideal) x6 (ix2 j o) = Spec.cur1 x6 o := by
  rw [val_main_v81_apply, val_main_v80_apply]
  exact congrArg x6 (funext fun a => match a with | ⟨0, _⟩ => rfl)

theorem out_at (j : Fin 100) (o : Fin 40) :
    val_main_v82 (F := Ideal) x0 x1 x2 x3 x4 x5 x6 x7 x8 (ix2 j o)
      = Spec.refOut (Spec.cur2 x0) (Spec.cur2 x1) (Spec.cur1 x2) (Spec.cur2 x3) (Spec.cur1 x4) (Spec.cur2 x5) (Spec.cur1 x6)
          (srcW x7) (dstW x7) (Spec.cur1 x8) j o := by
  rw [val_main_v82_apply, val_main_v79_apply, v81_at]
  unfold Spec.refOut
  simp only [Ideal.addf_def]
  refine congrArg (· + Spec.cur1 x6 o) (Finset.sum_congr rfl fun k _ => ?_)
  have hl : lidx_main_v79 (ix2 j o) k = ix2 j k := funext fun a => match a with | ⟨0, _⟩ => rfl | ⟨1, _⟩ => rfl
  have hr : ridx_main_v79 (ix2 j o) k = ix2 k o := funext fun a => match a with | ⟨0, _⟩ => rfl | ⟨1, _⟩ => rfl
  rw [hl, hr, val_main_v78_apply, sum_at, v77_at]
  rfl

end Pool

theorem ref_value (m : (ℓ : Loc nD τ sig) → Buf (Elt Ideal) ℓ) (c : Dev nD) :
    Cert.ReferenceIdeal.ValueP.res_out0 (F := Ideal) m c
      = Spec.unc2 (Spec.refOut
          (Spec.cur2 (a := 50000) (b := 128) (α := EReal) (m ((c.tc : Thread nD τ).loc main_arg0)))
          (Spec.cur2 (a := 128) (b := 128) (α := EReal) (m ((c.tc : Thread nD τ).loc main_arg1)))
          (Spec.cur1 (a := 128) (α := EReal) (m ((c.tc : Thread nD τ).loc main_arg2)))
          (Spec.cur2 (a := 128) (b := 128) (α := EReal) (m ((c.tc : Thread nD τ).loc main_arg3)))
          (Spec.cur1 (a := 128) (α := EReal) (m ((c.tc : Thread nD τ).loc main_arg4)))
          (Spec.cur2 (a := 128) (b := 40) (α := EReal) (m ((c.tc : Thread nD τ).loc main_arg5)))
          (Spec.cur1 (a := 40) (α := EReal) (m ((c.tc : Thread nD τ).loc main_arg6)))
          (fun e => (m ((c.tc : Thread nD τ).loc main_arg7) : S2x600000.Idx → BitVec 32) (ix2 (0 : Fin 2) e))
          (fun e => (m ((c.tc : Thread nD τ).loc main_arg7) : S2x600000.Idx → BitVec 32) (ix2 (1 : Fin 2) e))
          (Spec.cur1 (a := 50000) (α := BitVec 32) (m ((c.tc : Thread nD τ).loc main_arg8)))) := by
  funext j
  obtain ⟨a, b, rfl⟩ : ∃ (a : Fin 100) (b : Fin 40), j = ix2 a b := ⟨j 0, j 1, eq_ix2 j⟩
  show Cert.ReferenceIdeal.ValueP.res_main_v82 (F := Ideal) m c (ix2 a b) = _
  rw [Cert.ReferenceIdeal.ReadP.val_main_v82_eq]
  exact out_at _ _ _ _ _ _ _ _ _ a b

end Cert.Proof.RefValue

end
-- ==== Proof.AlgNorm.lean ====
import Idealize.ShloMosaic.Lib.IdealHost
import proofs.«402943_j87462714016644_3_alg».proof.Proof.Spec

open scoped BigOperators

noncomputable section

namespace Cert.Proof.Spec

open Idealize.ShloMosaic

theorem one32_eq : one32 = 1 := Ideal.ofBits_one_f32

theorem toInt_ofNat_small (j : Nat) (h : j < 50000) : (BitVec.ofNat 32 j).toInt = (j : Int) := by
  rw [BitVec.toInt_eq_toNat_of_lt]
  · rw [BitVec.toNat_ofNat]
    have : j % 2 ^ 32 = j := Nat.mod_eq_of_lt (by omega)
    rw [this]
  · rw [BitVec.toNat_ofNat]
    have : j % 2 ^ 32 = j := Nat.mod_eq_of_lt (by omega)
    rw [this]; omega

theorem app_castAdd {α : Type} (n p : Nat) (f : Fin n → α) (g : Fin p → α) (e : Fin n) :
    app n p f g (Fin.castAdd p e) = f e := by
  unfold app
  rw [dif_pos (show (Fin.castAdd p e).val < n from e.isLt)]
  rfl

theorem app_natAdd {α : Type} (n p : Nat) (f : Fin n → α) (g : Fin p → α) (j : Fin p) :
    app n p f g (Fin.natAdd n j) = g j := by
  unfold app
  rw [dif_neg (show ¬ (Fin.natAdd n j).val < n by simp)]
  congr 1
  refine Fin.ext ?_
  simp

theorem sum_one_eq {α : Type} (s : Finset α) : ∑ _x ∈ s, (1 : EReal) = (((s.card : ℕ) : ℝ) : EReal) := by
  rw [Finset.sum_const, ← EReal.coe_one, ← EReal.coe_nsmul]
  simp

theorem rsqrt_coe_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

variable (src dst : Fin 600000 → BitVec 32)

theorem dstL_castAdd (e : Fin 600000) : dstL dst (Fin.castAdd 50000 e) = dst e := app_castAdd _ _ _ _ e
theorem srcL_castAdd (e : Fin 600000) : srcL src (Fin.castAdd 50000 e) = src e := app_castAdd _ _ _ _ e
theorem dstL_natAdd (j : Fin 50000) : dstL dst (Fin.natAdd 600000 j) = BitVec.ofNat 32 j.val :=
  app_natAdd _ _ _ _ j
theorem srcL_natAdd (j : Fin 50000) : srcL src (Fin.natAdd 600000 j) = BitVec.ofNat 32 j.val :=
  app_natAdd _ _ _ _ j

theorem sum_hits_dstL (i : Fin 50000) (f : Fin (600000 + 50000) → EReal) :
    ∑ e ∈ hits (dstL dst) i.val, f e
      = (∑ e ∈ hits dst i.val, f (Fin.castAdd 50000 e)) + f (Fin.natAdd 600000 i) := by
  have h1 : (∑ e : Fin 600000, if (dstL dst (Fin.castAdd 50000 e)).toInt = (i.val : Int)
        then f (Fin.castAdd 50000 e) else 0)
      = ∑ e : Fin 600000, if (dst e).toInt = (i.val : Int) then f (Fin.castAdd 50000 e) else 0 :=
    Finset.sum_congr rfl fun e _ => by rw [dstL_castAdd]
  have h2 : (∑ j : Fin 50000, if (dstL dst (Fin.natAdd 600000 j)).toInt = (i.val : Int)
        then f (Fin.natAdd 600000 j) else 0) = f (Fin.natAdd 600000 i) := by
    rw [Finset.sum_eq_single i]
    · rw [dstL_natAdd, toInt_ofNat_small _ i.isLt, if_pos rfl]
    · intro j _ hj
      rw [dstL_natAdd, toInt_ofNat_small _ j.isLt, if_neg]
      intro h
      exact hj (Fin.ext (by exact_mod_cast h))
    · intro h; exact absurd (Finset.mem_univ i) h
  unfold hits
  rw [Finset.sum_filter, Fin.sum_univ_add, Finset.sum_filter, h1, h2]

theorem degK_eq (i : Fin 50000) : degK dst i = ((((hits dst i.val).card : ℝ) + 1 : ℝ) : EReal) := by
  unfold degK
  rw [one32_eq, sum_one_eq, zero_add, EReal.coe_add, EReal.coe_one]

theorem degR_eq (i : Fin 50000) : degR dst i = degK dst i := by
  unfold degR degK
  rw [sum_hits_dstL dst i (fun _ => one32), add_assoc]

theorem dinvK_eq (i : Fin 50000) :
    dinvK dst i = (((Real.sqrt (((hits dst i.val).card : ℝ) + 1))⁻¹ : ℝ) : EReal) := by
  have hc : (0 : ℝ) ≤ ((hits dst i.val).card : ℝ) := Nat.cast_nonneg _
  unfold dinvK
  rw [degK_eq, one32_eq, ← EReal.coe_one, max_eq_left (EReal.coe_le_coe_iff.mpr (by linarith)),
    rsqrt_coe_pos _ (by linarith)]

theorem dinvK_real (i : Fin 50000) : ∃ r : ℝ, 0 < r ∧ dinvK dst i = (r : EReal) := by
  have hc : (0 : ℝ) ≤ ((hits dst i.val).card : ℝ) := Nat.cast_nonneg _
  exact ⟨_, inv_pos.mpr (Real.sqrt_pos.mpr (by linarith)), dinvK_eq dst i⟩

theorem dinvR_eq : dinvR dst = dinvK dst := by
  funext i
  have hc : (0 : ℝ) ≤ ((hits dst i.val).card : ℝ) := Nat.cast_nonneg _
  unfold dinvR
  rw [degR_eq, if_pos]
  · rfl
  · rw [degK_eq]
    exact EReal.coe_pos.mpr (by linarith)

theorem rowOf_of_toInt (w : BitVec 32) (j : Fin 50000) (h : w.toInt = (j.val : Int)) : rowOf w = j := by
  unfold rowOf wrap
  rw [if_neg (by rw [h]; exact not_lt.mpr (Int.natCast_nonneg _))]
  exact Cert.Proof.GS.row_of_toInt _ w j h

theorem rowOf_ofNat (j : Fin 50000) : rowOf (BitVec.ofNat 32 j.val) = j :=
  rowOf_of_toInt _ j (toInt_ofNat_small _ j.isLt)

theorem rowOf_of_range (w : BitVec 32) (h : 0 ≤ w.toInt ∧ w.toInt < 50000) : (rowOf w).val = w.toInt.toNat := by
  have hj : w.toInt.toNat < 50000 := by omega
  have := rowOf_of_toInt w ⟨w.toInt.toNat, hj⟩ (by simp [Int.toNat_of_nonneg h.1])
  rw [this]

theorem normR_castAdd (e : Fin 600000) : normR src dst (Fin.castAdd 50000 e) = normK src dst e := by
  unfold normR normK
  rw [srcL_castAdd, dstL_castAdd, dinvR_eq]

theorem normR_natAdd (j : Fin 50000) : normR src dst (Fin.natAdd 600000 j) = selfK dst j := by
  unfold normR selfK
  rw [srcL_natAdd, dstL_natAdd, rowOf_ofNat, dinvR_eq]

theorem normK_real (e : Fin 600000) : ∃ r : ℝ, normK src dst e = (r : EReal) := by
  obtain ⟨a, _, ha⟩ := dinvK_real dst (rowOf (src e))
  obtain ⟨b, _, hb⟩ := dinvK_real dst (rowOf (dst e))
  exact ⟨a * b, by unfold normK; rw [ha, hb, EReal.coe_mul]⟩
theorem selfK_real (i : Fin 50000) : ∃ r : ℝ, selfK dst i = (r : EReal) := by
  obtain ⟨a, _, ha⟩ := dinvK_real dst i
  exact ⟨a * a, by unfold selfK; rw [ha, EReal.coe_mul]⟩

end Cert.Proof.Spec

end
-- ==== Proof.AlgLayer.lean ====
import proofs.«402943_j87462714016644_3_alg».proof.Proof.AlgNorm
import Mathlib.Algebra.BigOperators.Fin
import Mathlib.Tactic.Ring

open scoped BigOperators

noncomputable section

namespace Cert.Proof.Spec

open Idealize.ShloMosaic

namespace Layer

theorem padTo_castAdd {α : Type} (n p : Nat) (f : Fin n → α) (a : α) (e : Fin n) :
    padTo n p f a (Fin.castAdd p e) = f e := by
  unfold padTo
  rw [dif_pos (show (Fin.castAdd p e).val < n from e.isLt)]
  rfl

theorem padTo_natAdd {α : Type} (n p : Nat) (f : Fin n → α) (a : α) (e : Fin p) :
    padTo n p f a (Fin.natAdd n e) = a := by
  unfold padTo
  rw [dif_neg (show ¬ (Fin.natAdd n e).val < n by rw [Fin.coe_natAdd]; omega)]

theorem app_castAdd {α : Type} (n p : Nat) (f : Fin n → α) (g : Fin p → α) (e : Fin n) :
    app n p f g (Fin.castAdd p e) = f e := by
  unfold app
  rw [dif_pos (show (Fin.castAdd p e).val < n from e.isLt)]
  rfl

theorem app_natAdd {α : Type} (n p : Nat) (f : Fin n → α) (g : Fin p → α) (e : Fin p) :
    app n p f g (Fin.natAdd n e) = g e := by
  unfold app
  rw [dif_neg (show ¬ (Fin.natAdd n e).val < n by rw [Fin.coe_natAdd]; omega)]
  congr 1
  refine Fin.ext ?_
  show (Fin.natAdd n e).val - n = e.val
  rw [Fin.coe_natAdd]; omega

theorem negOne_toInt_ne (i : Nat) : (-1#32 : BitVec 32).toInt ≠ (i : Int) := by
  have h : (-1#32 : BitVec 32).toInt = -1 := by decide
  rw [h]; omega

theorem sum_hits_padTo {n p : Nat} (g : Fin n → BitVec 32) (a : BitVec 32) (i : Nat) (ha : a.toInt ≠ (i : Int))
    (f : Fin (n + p) → EReal) :
    ∑ e ∈ hits (padTo n p g a) i, f e = ∑ e ∈ hits g i, f (Fin.castAdd p e) := by
  unfold hits
  rw [Finset.sum_filter, Fin.sum_univ_add, Finset.sum_filter]
  have h2 : ∑ j : Fin p, (if (padTo n p g a (Fin.natAdd n j)).toInt = (i : Int) then f (Fin.natAdd n j) else 0) = 0 :=
    Finset.sum_eq_zero fun j _ => by rw [padTo_natAdd, if_neg ha]
  rw [h2, add_zero]
  exact Finset.sum_congr rfl fun e _ => by rw [padTo_castAdd]

theorem sel_of_range {d : Nat} (H : Fin 50000 → Fin d → EReal) (w : BitVec 32)
    (h : 0 ≤ w.toInt ∧ w.toInt < 50000) (q : Fin d) : sel H w q = H (rowOf w) q := by
  unfold sel
  rw [dif_pos (show 0 ≤ w.toInt ∧ w.toInt < ((50000 : Nat) : Int) from ⟨h.1, by omega⟩)]
  congr 1
  exact Fin.ext (rowOf_of_range w h).symm

theorem coe_sum {ι : Type} (s : Finset ι) (f : ι → ℝ) :
    ∑ x ∈ s, ((f x : ℝ) : EReal) = ((∑ x ∈ s, f x : ℝ) : EReal) := by
  classical
  refine Finset.induction_on s (by simp) ?_
  intro a s ha ih
  rw [Finset.sum_insert ha, Finset.sum_insert ha, ih, EReal.coe_add]

theorem real_layer {ι κ : Type} [Fintype κ] (S : Finset ι) (h : ι → κ → ℝ) (n : ι → ℝ) (hi : κ → ℝ) (s : ℝ)
    (W : κ → ℝ) :
    ∑ k, ((∑ e ∈ S, h e k * n e) + hi k * s) * W k
      = (∑ e ∈ S, (∑ k, h e k * W k) * n e) + (∑ k, hi k * W k) * s := by
  simp only [add_mul, Finset.sum_add_distrib, Finset.sum_mul]
  rw [Finset.sum_comm]
  congr 1
  · exact Finset.sum_congr rfl fun e _ => Finset.sum_congr rfl fun k _ => by ring
  · exact Finset.sum_congr rfl fun k _ => by ring

variable (src dst : Fin 600000 → BitVec 32)

theorem sum_hits_dstP (i : Fin 50000) (f : Fin (600000 + 64) → EReal) :
    ∑ e ∈ hits (dstP dst) i.val, f e = ∑ e ∈ hits dst i.val, f (Fin.castAdd 64 e) :=
  sum_hits_padTo dst (-1#32) i.val (negOne_toInt_ne i.val) f

theorem edge_sum_K (hsrc : ∀ e, 0 ≤ (src e).toInt ∧ (src e).toInt < 50000) (H : Fin 50000 → Fin 128 → EReal)
    (i : Fin 50000) (k : Fin 128) :
    ∑ e ∈ hits (dstP dst) i.val, gatherK H (srcP src) (normP src dst) e k
      = ∑ e ∈ hits dst i.val, H (rowOf (src e)) k * normK src dst e := by
  rw [sum_hits_dstP]
  refine Finset.sum_congr rfl fun e _ => ?_
  unfold gatherK srcP normP
  rw [padTo_castAdd, padTo_castAdd, sel_of_range H (src e) (hsrc e)]

theorem scatterK_eq (hsrc : ∀ e, 0 ≤ (src e).toInt ∧ (src e).toInt < 50000) (H : Fin 50000 → Fin 128 → EReal)
    (W : Fin 128 → Fin 128 → EReal) (b : Fin 128 → EReal) (i : Fin 50000) (q : Fin 128) :
    scatterK (gatherK H (srcP src) (normP src dst)) (dstP dst) W b (fun i k => H i k * selfK dst i) i q
      = (∑ k, ((∑ e ∈ hits dst i.val, H (rowOf (src e)) k * normK src dst e) + H i k * selfK dst i) * W k q) + b q := by
  unfold scatterK
  refine congrArg (· + b q) ?_
  refine Finset.sum_congr rfl fun k _ => ?_
  rw [edge_sum_K src dst hsrc]

theorem layerR_eq (H : Fin 50000 → Fin 128 → EReal) (W : Fin 128 → Fin 128 → EReal) (b : Fin 128 → EReal)
    (i : Fin 50000) (q : Fin 128) :
    layerR src dst H W b i q
      = ((∑ e ∈ hits dst i.val, (∑ k, H (rowOf (src e)) k * W k q) * normK src dst e)
          + (∑ k, H i k * W k q) * selfK dst i) + b q := by
  unfold layerR
  rw [zero_add, sum_hits_dstL]
  refine congrArg (· + b q) ?_
  refine congrArg₂ (· + ·) ?_ ?_
  · refine Finset.sum_congr rfl fun e _ => ?_
    rw [normR_castAdd]
    unfold srcL
    rw [app_castAdd]
  · rw [normR_natAdd]
    unfold srcL
    rw [app_natAdd, rowOf_ofNat]

theorem layer_both (hsrc : ∀ e, 0 ≤ (src e).toInt ∧ (src e).toInt < 50000)
    (H : Fin 50000 → Fin 128 → EReal) (W : Fin 128 → Fin 128 → EReal) (b : Fin 128 → EReal)
    (hH : ∀ i k, ∃ r : ℝ, H i k = (r : EReal)) (hW : ∀ k q, ∃ r : ℝ, W k q = (r : EReal))
    (hb : ∀ q, ∃ r : ℝ, b q = (r : EReal)) (i : Fin 50000) (q : Fin 128) :
    ∃ r : ℝ,
      scatterK (gatherK H (srcP src) (normP src dst)) (dstP dst) W b (fun i k => H i k * selfK dst i) i q = (r : EReal)
        ∧ layerR src dst H W b i q = (r : EReal) := by
  choose Hr hHr using hH
  choose Wr hWr using hW
  choose br hbr using hb
  choose nk hnk using normK_real src dst
  obtain ⟨sk, hsk⟩ := selfK_real dst i
  refine ⟨(∑ k, ((∑ e ∈ hits dst i.val, Hr (rowOf (src e)) k * nk e) + Hr i k * sk) * Wr k q) + br q, ?_, ?_⟩
  · rw [scatterK_eq src dst hsrc]
    simp only [hHr, hWr, hbr, hnk, hsk, ← EReal.coe_mul, coe_sum, ← EReal.coe_add]
  · rw [layerR_eq]
    simp only [hHr, hWr, hbr, hnk, hsk, ← EReal.coe_mul, coe_sum, ← EReal.coe_add]
    refine congrArg Real.toEReal ?_
    refine congrArg (· + br q) ?_
    exact (real_layer _ _ _ _ _ _).symm

section Net

variable (x : Fin 50000 → Fin 128 → EReal) (W1 : Fin 128 → Fin 128 → EReal) (b1 : Fin 128 → EReal)
  (W2 : Fin 128 → Fin 128 → EReal) (b2 : Fin 128 → EReal) (linW : Fin 128 → Fin 40 → EReal) (linb : Fin 40 → EReal)
  (bat : Fin 50000 → BitVec 32)

theorem max_coe_zero (r : ℝ) : max (r : EReal) 0 = ((max r 0 : ℝ) : EReal) := by
  rw [← EReal.coe_zero]
  exact (EReal.coe_strictMono.monotone.map_max).symm

theorem h1K_eq_h1R (hx : ∀ i k, ∃ r : ℝ, x i k = (r : EReal)) (hW1 : ∀ k q, ∃ r : ℝ, W1 k q = (r : EReal))
    (hb1 : ∀ q, ∃ r : ℝ, b1 q = (r : EReal)) (hsrc : ∀ e, 0 ≤ (src e).toInt ∧ (src e).toInt < 50000) :
    h1K x W1 b1 src dst = h1R x W1 b1 src dst := by
  funext i q
  obtain ⟨r, hK, hR⟩ := layer_both src dst hsrc x W1 b1 hx hW1 hb1 i q
  unfold h1K h1R
  rw [hK, hR]

theorem h1K_real (hx : ∀ i k, ∃ r : ℝ, x i k = (r : EReal)) (hW1 : ∀ k q, ∃ r : ℝ, W1 k q = (r : EReal))
    (hb1 : ∀ q, ∃ r : ℝ, b1 q = (r : EReal)) (hsrc : ∀ e, 0 ≤ (src e).toInt ∧ (src e).toInt < 50000)
    (i : Fin 50000) (q : Fin 128) : ∃ r : ℝ, h1K x W1 b1 src dst i q = (r : EReal) := by
  obtain ⟨r, hK, _⟩ := layer_both src dst hsrc x W1 b1 hx hW1 hb1 i q
  refine ⟨max r 0, ?_⟩
  unfold h1K
  rw [hK, max_coe_zero]

theorem h2K_eq_h2R (hx : ∀ i k, ∃ r : ℝ, x i k = (r : EReal)) (hW1 : ∀ k q, ∃ r : ℝ, W1 k q = (r : EReal))
    (hb1 : ∀ q, ∃ r : ℝ, b1 q = (r : EReal)) (hW2 : ∀ k q, ∃ r : ℝ, W2 k q = (r : EReal))
    (hb2 : ∀ q, ∃ r : ℝ, b2 q = (r : EReal)) (hsrc : ∀ e, 0 ≤ (src e).toInt ∧ (src e).toInt < 50000) :
    h2K x W1 b1 W2 b2 src dst = h2R x W1 b1 W2 b2 src dst := by
  funext i q
  obtain ⟨r, hK, hR⟩ := layer_both src dst hsrc (h1K x W1 b1 src dst) W2 b2
    (h1K_real src dst x W1 b1 hx hW1 hb1 hsrc) hW2 hb2 i q
  unfold h2K h2R
  rw [hK, ← h1K_eq_h1R src dst x W1 b1 hx hW1 hb1 hsrc, hR]

theorem pool_num (F : Fin 50000 → EReal) (j : Nat) :
    ∑ r ∈ hits (padTo 50000 1200 bat (-1#32)) j, padTo 50000 1200 F 0 r = 0 + ∑ r ∈ hits bat j, F r := by
  rw [sum_hits_padTo bat (-1#32) j (negOne_toInt_ne j), zero_add]
  exact Finset.sum_congr rfl fun r _ => padTo_castAdd _ _ _ _ r

theorem pool_den (j : Nat) :
    max (∑ _r ∈ hits (padTo 50000 1200 bat (-1#32)) j, (1 : EReal)) 1
      = max ((0 : EReal) + ∑ _r ∈ hits bat j, one32) one32 := by
  rw [sum_hits_padTo bat (-1#32) j (negOne_toInt_ne j) (fun _ => 1), zero_add, one32_eq]

end Net

end Layer

open Layer in

theorem kerOut_eq_refOut (x : Fin 50000 → Fin 128 → EReal) (W1 : Fin 128 → Fin 128 → EReal) (b1 : Fin 128 → EReal) (W2 : Fin 128 → Fin 128 → EReal) (b2 : Fin 128 → EReal) (linW : Fin 128 → Fin 40 → EReal) (linb : Fin 40 → EReal) (src dst : Fin 600000 → BitVec 32) (bat : Fin 50000 → BitVec 32)
    (hx : ∀ i k, ∃ r : ℝ, x i k = (r : EReal)) (hW1 : ∀ k q, ∃ r : ℝ, W1 k q = (r : EReal)) (hb1 : ∀ q, ∃ r : ℝ, b1 q = (r : EReal)) (hW2 : ∀ k q, ∃ r : ℝ, W2 k q = (r : EReal)) (hb2 : ∀ q, ∃ r : ℝ, b2 q = (r : EReal)) (hlinW : ∀ k o, ∃ r : ℝ, linW k o = (r : EReal)) (hlinb : ∀ o, ∃ r : ℝ, linb o = (r : EReal))
    (hsrc : ∀ e, 0 ≤ (src e).toInt ∧ (src e).toInt < 50000) :
    kerOut x W1 b1 W2 b2 linW linb src dst bat = refOut x W1 b1 W2 b2 linW linb src dst bat := by
  have h2 := h2K_eq_h2R src dst x W1 b1 W2 b2 hx hW1 hb1 hW2 hb2 hsrc
  funext j o
  unfold kerOut refOut poolK
  rw [h2]
  refine congrArg (· + linb o) ?_
  refine Finset.sum_congr rfl fun k _ => ?_
  rw [pool_num bat (fun i => h2R x W1 b1 W2 b2 src dst i k) j.val, pool_den bat j.val]

end Cert.Proof.Spec

end
-- ==== Proof.PreFacts.lean ====
import proofs.«402943_j87462714016644_3_alg».proof.Proof.Gen.Pre_finite_inputs
import Idealize.ShloMosaic.Lib.ReduceAll
import Idealize.ShloMosaic.Lib.ValueIdx

noncomputable section

namespace Cert.Proof.PreFacts

open Idealize.ShloMosaic Idealize.ShloMosaic.ValueIdx
open Cert.Pre_finite_inputs

instance subsingleton_S_ : Subsingleton S_.Idx := ⟨fun a b => funext fun d => d.elim0⟩

theorem ofBits_inf : Ideal.ofBits .f32 0x7F800000#32 = ⊤ := by simp [Ideal.ofBits, Ideal.ieee]

theorem ofBool_decide_eq_one {p : Prop} [Decidable p] (h : BitVec.ofBool (decide p) = 1#1) : p := by
  by_contra hn
  rw [decide_eq_false hn] at h
  exact absurd h (by decide)

theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := ofBool_decide_eq_one h
  rw [max_lt_iff] at hlt
  induction x using EReal.rec with
  | bot => exact absurd hlt.2 (by simp)
  | coe r => exact ⟨r, rfl⟩
  | top => exact absurd hlt.1 (by simp)

theorem all_real {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
          (cmpf .olt (Host.absf a) (broadcastInDim s ![] hb (constant (F := Ideal) S_ .f32 0x7F800000#32)))
          (constantI S_ 1 1#1) hr h0 ix0 = 1#1) :
    ∀ j : s.Idx, ∃ r : ℝ, a j = (r : EReal) := by
  intro j
  have e := Host.reduce_andi_all _ _ hr h0 ix0 h j
  exact real_of_abs_lt_inf (a j) e

theorem toInt_nonneg_of_sge {w : BitVec 32} (h : IntOp.cmpi .sge w 0#32 = 1#1) : 0 ≤ w.toInt := by
  unfold IntOp.cmpi at h
  have h' : (0#32 : BitVec 32).toInt ≤ w.toInt := by
    have := ofBool_decide_eq_one (p := (0#32 : BitVec 32).toInt ≤ w.toInt) h
    exact this
  have z : (0#32 : BitVec 32).toInt = 0 := by decide
  rw [z] at h'
  exact h'

theorem toInt_lt_of_slt {w : BitVec 32} (h : IntOp.cmpi .slt w 50000#32 = 1#1) : w.toInt < 50000 := by
  unfold IntOp.cmpi at h
  have h' : w.toInt < (50000#32 : BitVec 32).toInt := by
    have := ofBool_decide_eq_one (p := w.toInt < (50000#32 : BitVec 32).toInt) h
    exact this
  have z : (50000#32 : BitVec 32).toInt = 50000 := by decide
  rw [z] at h'
  exact h'

theorem row0_read (a7 : IVec S2x600000 32) (hs : S2x600000.Slices ![0, 0] S1x600000)
    (hc : S1x600000.ShapeCasts S600000) (e : Fin 600000) :
    shapeCast S600000 (extractStridedSlice S1x600000 ![0, 0] a7 hs) hc (ix1 e) = a7 (ix2 (0 : Fin 2) e) := by
  have hk : Shape.reshapeEquiv hc (ix1 e) = (ix2 (0 : Fin 1) e : S1x600000.Idx) := by
    apply Shape.reshapeEquiv_eq_of_rowMajor
    rw [Shape.rowMajor_val_two, Shape.rowMajor_val_one]
    simp
  unfold shapeCast
  rw [hk]
  unfold extractStridedSlice
  congr 1
  funext d
  match d with
  | ⟨0, _⟩ => apply Fin.ext; simp
  | ⟨1, _⟩ => apply Fin.ext; simp

theorem row0_range (a7 : IVec S2x600000 32) (hs : S2x600000.Slices ![0, 0] S1x600000)
    (hc : S1x600000.ShapeCasts S600000) (hb : S_.BroadcastsInDim S600000 (![] : Fin 0 → Fin S600000.rank))
    (hr : S600000.ReducesTo [0] S_) (h0 : 0 < S_.numel)
    (h : Host.reduce IntOp.andi
          (andi
            (cmpi .sge (shapeCast S600000 (extractStridedSlice S1x600000 ![0, 0] a7 hs) hc)
              (broadcastInDim S600000 ![] hb (constantI S_ 32 0#32)))
            (cmpi .slt (shapeCast S600000 (extractStridedSlice S1x600000 ![0, 0] a7 hs) hc)
              (broadcastInDim S600000 ![] hb (constantI S_ 32 50000#32))))
          (constantI S_ 1 1#1) hr h0 ix0 = 1#1) :
    ∀ e : Fin 600000, 0 ≤ (a7 (ix2 (0 : Fin 2) e)).toInt ∧ (a7 (ix2 (0 : Fin 2) e)).toInt < 50000 := by
  intro e
  have q := Host.reduce_andi_all _ _ hr h0 ix0 h (ix1 e)
  have q' : IntOp.andi
      (IntOp.cmpi .sge (shapeCast S600000 (extractStridedSlice S1x600000 ![0, 0] a7 hs) hc (ix1 e)) 0#32)
      (IntOp.cmpi .slt (shapeCast S600000 (extractStridedSlice S1x600000 ![0, 0] a7 hs) hc (ix1 e)) 50000#32) = 1#1 := q
  rw [row0_read a7 hs hc e, IntOp.andi_eq_one] at q'
  exact ⟨toInt_nonneg_of_sge q'.1, toInt_lt_of_slt q'.2⟩

section
variable [hF : Cert.Pre_finite_inputs.Facts]
variable (a0 : FVec Ideal S50000x128 .f32) (a1 : FVec Ideal S128x128 .f32) (a2 : FVec Ideal S128 .f32)
  (a3 : FVec Ideal S128x128 .f32) (a4 : FVec Ideal S128 .f32) (a5 : FVec Ideal S128x40 .f32)
  (a6 : FVec Ideal S40 .f32) (a7 : IVec S2x600000 32) (a8 : IVec S50000 32)

theorem finite_of_pre
    (h : Cert.Pre_finite_inputs.fn (F := Ideal) a0 a1 a2 a3 a4 a5 a6 a7 a8 = fun _ => 1#1) :
    (∀ j, ∃ r : ℝ, a0 j = (r : EReal)) ∧ (∀ j, ∃ r : ℝ, a1 j = (r : EReal)) ∧ (∀ j, ∃ r : ℝ, a2 j = (r : EReal)) ∧
    (∀ j, ∃ r : ℝ, a3 j = (r : EReal)) ∧ (∀ j, ∃ r : ℝ, a4 j = (r : EReal)) ∧ (∀ j, ∃ r : ℝ, a5 j = (r : EReal)) ∧
    (∀ j, ∃ r : ℝ, a6 j = (r : EReal)) := by
  have e := congrFun h ix0
  dsimp only [Cert.Pre_finite_inputs.fn, Cert.Pre_finite_inputs.fn_part1, Cert.Pre_finite_inputs.fn_part2] at e
  change IntOp.andi (IntOp.andi (IntOp.andi (IntOp.andi (IntOp.andi (IntOp.andi (IntOp.andi _ _) _) _) _) _) _) _ = 1#1 at e
  simp only [IntOp.andi_eq_one] at e
  obtain ⟨⟨⟨⟨⟨⟨⟨e0, e1⟩, e2⟩, e3⟩, e4⟩, e5⟩, e6⟩, -⟩ := e
  exact ⟨all_real a0 _ _ _ e0, all_real a1 _ _ _ e1, all_real a2 _ _ _ e2, all_real a3 _ _ _ e3,
    all_real a4 _ _ _ e4, all_real a5 _ _ _ e5, all_real a6 _ _ _ e6⟩

theorem src_range_of_pre
    (h : Cert.Pre_finite_inputs.fn (F := Ideal) a0 a1 a2 a3 a4 a5 a6 a7 a8 = fun _ => 1#1) :
    ∀ e : Fin 600000, 0 ≤ (a7 (Idealize.ShloMosaic.ValueIdx.ix2 (0 : Fin 2) e)).toInt ∧
      (a7 (Idealize.ShloMosaic.ValueIdx.ix2 (0 : Fin 2) e)).toInt < 50000 := by
  have e := congrFun h ix0
  dsimp only [Cert.Pre_finite_inputs.fn, Cert.Pre_finite_inputs.fn_part1, Cert.Pre_finite_inputs.fn_part2] at e
  change IntOp.andi _ _ = 1#1 at e
  rw [IntOp.andi_eq_one] at e
  exact row0_range a7 _ _ _ _ _ e.2

end

end Cert.Proof.PreFacts

end
-- ==== Proof.lean ====
import proofs.«402943_j87462714016644_3_alg».proof.Defs
import proofs.«402943_j87462714016644_3_alg».proof.Proof.Gen.Kernel
import proofs.«402943_j87462714016644_3_alg».proof.Proof.Gen.KernelIdeal
import proofs.«402943_j87462714016644_3_alg».proof.Proof.Gen.ReferenceIdeal
import proofs.«402943_j87462714016644_3_alg».proof.Proof.Gen.Pre_finite_inputs
import proofs.«402943_j87462714016644_3_alg».proof.Proof.K.Run
import proofs.«402943_j87462714016644_3_alg».proof.Proof.KI.Run
import proofs.«402943_j87462714016644_3_alg».proof.Proof.KI.Compose
import proofs.«402943_j87462714016644_3_alg».proof.Proof.RefValue
import proofs.«402943_j87462714016644_3_alg».proof.Proof.AlgLayer
import proofs.«402943_j87462714016644_3_alg».proof.Proof.PreFacts
import Idealize.ShloMosaic.Adequacy
import Idealize.ShloMosaic.Init

noncomputable section

namespace Cert.Proof

open Idealize.ShloMosaic Idealize.SL.Sem Idealize.ShloMosaic.ValueIdx

-- Both results are one function of the inputs: the two arrangements of the two-layer convolution with mean pooling agree on finite inputs whose source indices are row numbers.
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Hand.W8 (F := Ideal) m c (Proc.devRef .tc Cert.KernelIdeal.main_v58), ?_, ?_⟩
  · refine (θ_run _ _ _).mono (fun r h c => ?_) (Cert.KernelIdeal.Hand.run (F := Ideal) m ρ)
    exact ⟨h c _ (Cert.KernelIdeal.Hand.mem_uc Cert.KernelIdeal.main_v58 (by decide)),
      Cert.KernelIdeal.Hand.args_kept m c r.2 (h c)⟩
  · refine (θ_run _ _ _).mono (fun r h c => ⟨?_, (h c).2⟩) (Cert.ReferenceIdeal.ValueP.run (F := Ideal) m' ρ')
    obtain ⟨h0, h1, h2, h3, h4, h5, h6, h7, h8⟩ := hagree c
    obtain ⟨f0, f1, f2, f3, f4, f5, f6⟩ := Cert.Proof.PreFacts.finite_of_pre _ _ _ _ _ _ _ _ _ (hpre c)
    have hs := Cert.Proof.PreFacts.src_range_of_pre _ _ _ _ _ _ _ _ _ (hpre c)
    refine (h c).1.trans ?_
    refine (Cert.Proof.RefValue.ref_value m' c).trans ?_
    rw [h0, h1, h2, h3, h4, h5, h6, h7, h8]
    refine Eq.trans ?_ (Cert.KernelIdeal.Hand.ker_value m c).symm
    refine congrArg Spec.unc2 (Spec.kerOut_eq_refOut _ _ _ _ _ _ _ _ _ _
      (fun i k => f0 (ix2 i k)) (fun k q => f1 (ix2 k q)) (fun q => f2 (ix1 q)) (fun k q => f3 (ix2 k q)) (fun q => f4 (ix1 q)) (fun k o => f5 (ix2 k o)) (fun o => f6 (ix1 o))
      (fun e => hs e)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => (θ_run Cert.ReferenceIdeal.defs _ _).mono (fun _ h c => (h c).2)
      (Cert.ReferenceIdeal.ValueP.run (F := Ideal) m ρ),
    trivial,
    algebraic⟩

end Cert.Proof

end
